-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000x128 : Shape := ⟨2, ![500000, 128]⟩
abbrev S500000 : Shape := ⟨1, ![500000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S500000 : S_.BroadcastsInDim S500000 (![] : Fin 0 → Fin S500000.rank)
  reducesTo_S500000_S_d0 : S500000.ReducesTo [0] S_

variable [Facts]

def fn_part5 {F : FTy → Type} [FloatOps F] (main_arg3 : IVec S500000 32) (main_v82 : IVec S_ 1) (main_v84 : IVec S500000 1) : IVec S_ 1 :=
  let main_c_33 : IVec S_ 1 := constantI S_ 1 1#1
  let main_v85 : IVec S_ 1 := (fun x v => Host.reduce IntOp.andi x v reducesTo_S500000_S_d0 h_S_) main_v84 main_c_33
  let main_v86 : IVec S_ 1 := andi main_v82 main_v85
  let main_c_34 : IVec S_ 32 := constantI S_ 32 0#32
  let main_v87 : IVec S500000 32 := broadcastInDim S500000 ![] bcast_S_S500000 main_c_34
  let main_v88 : IVec S500000 1 := cmpi .sge main_arg3 main_v87
  let main_c_35 : IVec S_ 1 := constantI S_ 1 1#1
  let main_v89 : IVec S_ 1 := (fun x v => Host.reduce IntOp.andi x v reducesTo_S500000_S_d0 h_S_) main_v88 main_c_35
  let main_v90 : IVec S_ 1 := andi main_v86 main_v89
  let main_c_36 : IVec S_ 32 := constantI S_ 32 50000#32
  let main_v91 : IVec S500000 32 := broadcastInDim S500000 ![] bcast_S_S500000 main_c_36
  let main_v92 : IVec S500000 1 := cmpi .slt main_arg3 main_v91
  let main_c_37 : IVec S_ 1 := constantI S_ 1 1#1
  let main_v93 : IVec S_ 1 := (fun x v => Host.reduce IntOp.andi x v reducesTo_S500000_S_d0 h_S_) main_v92 main_c_37
  let main_v94 : IVec S_ 1 := andi main_v90 main_v93
  main_v94

def fn_part4 {F : FTy → Type} [FloatOps F] (main_arg2 : IVec S500000 32) (main_arg3 : IVec S500000 32) (main_arg16 : FVec F S128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_c_30 : IVec S_ 32 := constantI S_ 32 0#32
  let main_v79 : IVec S500000 32 := broadcastInDim S500000 ![] bcast_S_S500000 main_c_30
  let main_v80 : IVec S500000 1 := cmpi .sge main_arg2 main_v79
  let main_c_31 : IVec S_ 1 := constantI S_ 1 1#1
  let main_v81 : IVec S_ 1 := (fun x v => Host.reduce IntOp.andi x v reducesTo_S500000_S_d0 h_S_) main_v80 main_c_31
  let main_v82 : IVec S_ 1 := andi main_v78 main_v81
  let main_c_32 : IVec S_ 32 := constantI S_ 32 50000#32
  let main_v83 : IVec S500000 32 := broadcastInDim S500000 ![] bcast_S_S500000 main_c_32
  let main_v84 : IVec S500000 1 := cmpi .slt main_arg2 main_v83
  fn_part5 (F := F) main_arg3 main_v82 main_v84

def fn_part3 {F : FTy → Type} [FloatOps F] (main_arg2 : IVec S500000 32) (main_arg3 : IVec S500000 32) (main_arg13 : FVec F S128 .f32) (main_arg14 : FVec F S128 .f32) (main_arg15 : FVec F S128 .f32) (main_arg16 : FVec F S128 .f32) (main_arg17 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg3 main_arg16 main_arg17 main_v63 main_v67

def fn_part2 {F : FTy → Type} [FloatOps F] (main_arg2 : IVec S500000 32) (main_arg3 : IVec S500000 32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg2 main_arg3 main_arg13 main_arg14 main_arg15 main_arg16 main_arg17 main_v48 main_v49 main_v50

def fn_part1 {F : FTy → Type} [FloatOps F] (main_arg2 : IVec S500000 32) (main_arg3 : IVec S500000 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_v33

def fn {F : FTy → Type} [FloatOps F] (main_arg0 : FVec F S50000x128 .f32) (main_arg1 : FVec F S500000x128 .f32) (main_arg2 : IVec S500000 32) (main_arg3 : IVec S500000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S500000x128 : Shape := ⟨2, ![500000, 128]⟩
abbrev S500000 : Shape := ⟨1, ![500000]⟩
abbrev S128x128 : Shape := ⟨2, ![128, 128]⟩
abbrev S128 : Shape := ⟨1, ![128]⟩
abbrev S500000x1 : Shape := ⟨2, ![500000, 1]⟩
abbrev S1x128 : Shape := ⟨2, ![1, 128]⟩
abbrev S2000x128 : Shape := ⟨2, ![2000, 128]⟩
abbrev S5000x128 : Shape := ⟨2, ![5000, 128]⟩
abbrev S2000x1 : Shape := ⟨2, ![2000, 1]⟩
abbrev S1x2000 : Shape := ⟨2, ![1, 2000]⟩
abbrev S2000x2000 : Shape := ⟨2, ![2000, 2000]⟩
abbrev S_ : Shape := ⟨0, ![]⟩

abbrev nBuf : Space → Nat
  | .hbm => 100
  | .vmem => 83
  | .smem => 0
  | _ => 0

abbrev bufTy : (tb : Table) → Fin (tcTables nBuf tb) → BufTy
  | .hbm, ⟨0, _⟩ => ⟨S50000x128, .f32⟩
  | .hbm, ⟨1, _⟩ => ⟨S500000x128, .f32⟩
  | .hbm, ⟨2, _⟩ => ⟨S500000, .i32⟩
  | .hbm, ⟨3, _⟩ => ⟨S500000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S500000x1, .i32⟩
  | .hbm, ⟨19, _⟩ => ⟨S500000x1, .i32⟩
  | .hbm, ⟨20, _⟩ => ⟨S1x128, .f32⟩
  | .hbm, ⟨21, _⟩ => ⟨S50000x128, .f32⟩
  | .hbm, ⟨22, _⟩ => ⟨S1x128, .f32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S1x128, .f32⟩
  | .hbm, ⟨29, _⟩ => ⟨S500000x128, .f32⟩
  | .hbm, ⟨30, _⟩ => ⟨S500000x128, .f32⟩
  | .hbm, ⟨31, _⟩ => ⟨S500000x128, .f32⟩
  | .hbm, ⟨32, _⟩ => ⟨S500000x128, .f32⟩
  | .hbm, ⟨33, _⟩ => ⟨S50000x128, .f32⟩
  | .hbm, ⟨34, _⟩ => ⟨S_, .f32⟩
  | .hbm, ⟨35, _⟩ => ⟨S128, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S_, .i32⟩
  | .hbm, ⟨41, _⟩ => ⟨S_, .f32⟩
  | .hbm, ⟨42, _⟩ => ⟨S128, .f32⟩
  | .hbm, ⟨43, _⟩ => ⟨S1x128, .f32⟩
  | .hbm, ⟨44, _⟩ => ⟨S_, .f32⟩
  | .hbm, ⟨45, _⟩ => ⟨S1x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S_, .f32⟩
  | .hbm, ⟨59, _⟩ => ⟨S_, .i1⟩
  | .hbm, ⟨60, _⟩ => ⟨S_, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S50000x128, .f32⟩
  | .hbm, ⟨67, _⟩ => ⟨S_, .f32⟩
  | .hbm, ⟨68, _⟩ => ⟨S128, .f32⟩
  | .hbm, ⟨69, _⟩ => ⟨S1x128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S_, .i32⟩
  | .hbm, ⟨74, _⟩ => ⟨S_, .f32⟩
  | .hbm, ⟨75, _⟩ => ⟨S128, .f32⟩
  | .hbm, ⟨76, _⟩ => ⟨S1x128, .f32⟩
  | .hbm, ⟨77, _⟩ => ⟨S_, .f32⟩
  | .hbm, ⟨78, _⟩ => ⟨S1x128, .f32⟩
  | .hbm, ⟨79, _⟩ => ⟨S1x128, .f32⟩
  | .hbm, ⟨80, _⟩ => ⟨S500000x128, .f32⟩
  | .hbm, ⟨81, _⟩ => ⟨S500000x128, .f32⟩
  | .hbm, ⟨82, _⟩ => ⟨S500000x128, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S_, .f32⟩
  | .hbm, ⟨92, _⟩ => ⟨S_, .i1⟩
  | .hbm, ⟨93, _⟩ => ⟨S_, .f32⟩
  | .hbm, ⟨94, _⟩ => ⟨S_, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S500000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x1, .i32⟩
  | .local _ .vmem, ⟨39, _⟩ => ⟨S2000x1, .i32⟩
  | .local _ .vmem, ⟨40, _⟩ => ⟨S2000x1, .i32⟩
  | .local _ .vmem, ⟨41, _⟩ => ⟨S2000x1, .i32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x1, .i32⟩
  | .local _ .vmem, ⟨56, _⟩ => ⟨S2000x1, .i32⟩
  | .local _ .vmem, ⟨57, _⟩ => ⟨S2000x128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S1x128, .f32⟩
  | .local _ .vmem, ⟨71, _⟩ => ⟨S2000x128, .f32⟩
  | .local _ .vmem, ⟨72, _⟩ => ⟨S2000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S1x128, .f32⟩
  | .local _ .vmem, ⟨78, _⟩ => ⟨S1x128, .f32⟩
  | .local _ .vmem, ⟨79, _⟩ => ⟨S1x128, .f32⟩
  | .local _ .vmem, ⟨80, _⟩ => ⟨S1x128, .f32⟩
  | .local _ .vmem, ⟨81, _⟩ => ⟨S5000x128, .f32⟩
  | .local _ .vmem, ⟨82, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12_0 : Ref sig .tc := ⟨.hbm, 30, rfl⟩
abbrev main_v12_1 : Ref sig .tc := ⟨.hbm, 31, rfl⟩
abbrev main_v12_2 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_cst_2 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_v12 : Ref sig .tc := ⟨.hbm, 57, rfl⟩
abbrev main_call0_cst_3 : Ref sig .tc := ⟨.hbm, 58, rfl⟩
abbrev main_call0_v13 : Ref sig .tc := ⟨.hbm, 59, rfl⟩
abbrev main_call0_cst_4 : Ref sig .tc := ⟨.hbm, 60, rfl⟩
abbrev main_call0_call0_v0 : Ref sig .tc := ⟨.hbm, 61, rfl⟩
abbrev main_call0_call0_v1 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_cst_1 : Ref sig .tc := ⟨.hbm, 67, rfl⟩
abbrev main_v22 : Ref sig .tc := ⟨.hbm, 68, rfl⟩
abbrev main_v23 : Ref sig .tc := ⟨.hbm, 69, rfl⟩
abbrev main_cst_2 : Ref sig .tc := ⟨.hbm, 70, rfl⟩
abbrev main_v24 : Ref sig .tc := ⟨.hbm, 71, rfl⟩
abbrev main_v25 : Ref sig .tc := ⟨.hbm, 72, rfl⟩
abbrev main_c_3 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_cst_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_cst_1 : Ref sig .tc := ⟨.hbm, 84, rfl⟩
abbrev main_call1_v8 : Ref sig .tc := ⟨.hbm, 85, rfl⟩
abbrev main_call1_cst_2 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_v12 : Ref sig .tc := ⟨.hbm, 90, rfl⟩
abbrev main_call1_cst_3 : Ref sig .tc := ⟨.hbm, 91, rfl⟩
abbrev main_call1_v13 : Ref sig .tc := ⟨.hbm, 92, rfl⟩
abbrev main_call1_cst_4 : Ref sig .tc := ⟨.hbm, 93, rfl⟩
abbrev main_call1_call0_v0 : Ref sig .tc := ⟨.hbm, 94, rfl⟩
abbrev main_call1_call0_v1 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc5_stg3_0 : Ref sig .tc := ⟨.vmem, 36, rfl⟩
abbrev cc5_stg3_1 : Ref sig .tc := ⟨.vmem, 37, rfl⟩
abbrev cc5_stg4_0 : Ref sig .tc := ⟨.vmem, 38, rfl⟩
abbrev cc5_stg4_1 : Ref sig .tc := ⟨.vmem, 39, rfl⟩
abbrev cc5_stg5_0 : Ref sig .tc := ⟨.vmem, 40, rfl⟩
abbrev cc5_stg5_1 : Ref sig .tc := ⟨.vmem, 41, rfl⟩
abbrev cc5_stg6_0 : Ref sig .tc := ⟨.vmem, 42, rfl⟩
abbrev cc5_stg6_1 : Ref sig .tc := ⟨.vmem, 43, rfl⟩
abbrev cc5_stg7_0 : Ref sig .tc := ⟨.vmem, 44, rfl⟩
abbrev cc5_stg7_1 : Ref sig .tc := ⟨.vmem, 45, rfl⟩
abbrev cc5_stg8_0 : Ref sig .tc := ⟨.vmem, 46, rfl⟩
abbrev cc5_stg8_1 : Ref sig .tc := ⟨.vmem, 47, rfl⟩
abbrev cc5_scratch0 : Ref sig .tc := ⟨.vmem, 48, rfl⟩
abbrev cc5_scratch1 : Ref sig .tc := ⟨.vmem, 49, rfl⟩
abbrev cc5_scratch2 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg1_1 : Ref sig .tc := ⟨.vmem, 54, rfl⟩
abbrev cc6_stg2_0 : Ref sig .tc := ⟨.vmem, 55, rfl⟩
abbrev cc6_stg2_1 : Ref sig .tc := ⟨.vmem, 56, rfl⟩
abbrev cc6_stg3_0 : Ref sig .tc := ⟨.vmem, 57, rfl⟩
abbrev cc6_stg3_1 : Ref sig .tc := ⟨.vmem, 58, rfl⟩
abbrev cc6_stg4_0 : Ref sig .tc := ⟨.vmem, 59, rfl⟩
abbrev cc6_stg4_1 : Ref sig .tc := ⟨.vmem, 60, rfl⟩
abbrev cc6_scratch0 : Ref sig .tc := ⟨.vmem, 61, rfl⟩
abbrev cc6_scratch1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg1_1 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg6_0 : Ref sig .tc := ⟨.vmem, 71, rfl⟩
abbrev cc7_stg6_1 : Ref sig .tc := ⟨.vmem, 72, rfl⟩
abbrev cc8_stg0_0 : Ref sig .tc := ⟨.vmem, 73, rfl⟩
abbrev cc8_stg0_1 : Ref sig .tc := ⟨.vmem, 74, rfl⟩
abbrev cc8_stg1_0 : Ref sig .tc := ⟨.vmem, 75, rfl⟩
abbrev cc8_stg1_1 : Ref sig .tc := ⟨.vmem, 76, rfl⟩
abbrev cc8_stg2_0 : Ref sig .tc := ⟨.vmem, 77, rfl⟩
abbrev cc8_stg3_0 : Ref sig .tc := ⟨.vmem, 78, rfl⟩
abbrev cc8_stg4_0 : Ref sig .tc := ⟨.vmem, 79, rfl⟩
abbrev cc8_stg5_0 : Ref sig .tc := ⟨.vmem, 80, rfl⟩
abbrev cc8_stg6_0 : Ref sig .tc := ⟨.vmem, 81, rfl⟩
abbrev cc8_stg6_1 : Ref sig .tc := ⟨.vmem, 82, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc5_sem3_0 : DmaSem sig := 36
abbrev cc5_sem3_1 : DmaSem sig := 37
abbrev cc5_sem4_0 : DmaSem sig := 38
abbrev cc5_sem4_1 : DmaSem sig := 39
abbrev cc5_sem5_0 : DmaSem sig := 40
abbrev cc5_sem5_1 : DmaSem sig := 41
abbrev cc5_sem6_0 : DmaSem sig := 42
abbrev cc5_sem6_1 : DmaSem sig := 43
abbrev cc5_sem7_0 : DmaSem sig := 44
abbrev cc5_sem7_1 : DmaSem sig := 45
abbrev cc5_sem8_0 : DmaSem sig := 46
abbrev cc5_sem8_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc6_sem3_0 : DmaSem sig := 54
abbrev cc6_sem3_1 : DmaSem sig := 55
abbrev cc6_sem4_0 : DmaSem sig := 56
abbrev cc6_sem4_1 : DmaSem sig := 57
abbrev cc7_sem0_0 : DmaSem sig := 58
abbrev cc7_sem0_1 : DmaSem sig := 59
abbrev cc7_sem1_0 : DmaSem sig := 60
abbrev cc7_sem1_1 : DmaSem sig := 61
abbrev cc7_sem2_0 : DmaSem sig := 62
abbrev cc7_sem3_0 : DmaSem sig := 63
abbrev cc7_sem4_0 : DmaSem sig := 64
abbrev cc7_sem5_0 : DmaSem sig := 65
abbrev cc7_sem6_0 : DmaSem sig := 66
abbrev cc7_sem6_1 : DmaSem sig := 67
abbrev cc8_sem0_0 : DmaSem sig := 68
abbrev cc8_sem0_1 : DmaSem sig := 69
abbrev cc8_sem1_0 : DmaSem sig := 70
abbrev cc8_sem1_1 : DmaSem sig := 71
abbrev cc8_sem2_0 : DmaSem sig := 72
abbrev cc8_sem3_0 : DmaSem sig := 73
abbrev cc8_sem4_0 : DmaSem sig := 74
abbrev cc8_sem5_0 : DmaSem sig := 75
abbrev cc8_sem6_0 : DmaSem sig := 76
abbrev cc8_sem6_1 : DmaSem sig := 77

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![250, 25], ![false, false]⟩

def k5_cond2 (i : grid5.Coords) : BitVec 1 :=
  let arg1 : BitVec 32 := BitVec.ofNat 32 (i 1).val
  let c24_i32 : BitVec 32 := 24#32
  let v50 : BitVec 1 := Scalar.cmpi .eq arg1 c24_i32
  let v51 : BitVec 32 := Scalar.extui v50
  let c0_i32_24 : BitVec 32 := 0#32
  let v52 : BitVec 1 := Scalar.cmpi .ne v51 c0_i32_24
  v52

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S2000x1 .i32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev stage5_5 : Fin 2 → Memref sig .tc .vmem S2000x1 .i32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, false]

abbrev stage5_7 : Fin 2 → Memref sig .tc .vmem S2000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, false]

abbrev stage5_8 : Fin 2 → Memref sig .tc .vmem S2000x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, false]

abbrev grid6 : Pipeline.Grid := ⟨2, ![25, 250], ![false, false]⟩

def k6_cond2 (i : grid6.Coords) : BitVec 1 :=
  let arg1 : BitVec 32 := BitVec.ofNat 32 (i 1).val
  let c249_i32 : BitVec 32 := 249#32
  let v33 : BitVec 1 := Scalar.cmpi .eq arg1 c249_i32
  let v34 : BitVec 32 := Scalar.extui v33
  let c0_i32_15 : BitVec 32 := 0#32
  let v35 : BitVec 1 := Scalar.cmpi .ne v34 c0_i32_15
  v35

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S2000x1 .i32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 2 → Memref sig .tc .vmem S2000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S2000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![100], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

class Facts₀ : Prop where
  shapeCasts_S500000_S500000x1 : S500000.ShapeCasts S500000x1
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  shapeCasts_S2000x128_S2000x128 : S2000x128.ShapeCasts S2000x128
  iota_S1x2000_d1_w32 : S1x2000.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x2000 : S2000x1.Broadcasts S2000x2000
  broadcasts_S1x2000_S2000x2000 : S1x2000.Broadcasts S2000x2000
  natLt_1_32 : 1 < 32
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  reducesTo_S500000x128_S128_d0 : S500000x128.ReducesTo [0] S128
  bcast_S1x128_S500000x128_0_1 : S1x128.BroadcastsInDim S500000x128 (![0, 1] : Fin 2 → Fin S500000x128.rank)
  shapeCasts_S5000x128_S5000x128 : S5000x128.ShapeCasts S5000x128
  dot_S2000x128_S128x128_S2000x128_1_0_0_1_n_n_wf : DotDims.WF S2000x128 S128x128 S2000x128 [1] [0] [0] [1] [] []
  dot_S5000x128_S128x128_S5000x128_1_0_0_1_n_n_wf : DotDims.WF S5000x128 S128x128 S5000x128 [1] [0] [0] [1] [] []
  dot_S2000x2000_S2000x128_S2000x128_1_0_0_1_n_n_wf : DotDims.WF S2000x2000 S2000x128 S2000x128 [1] [0] [0] [1] [] []
  dot_S2000x2000_S2000x128_S2000x128_0_0_1_1_n_n_wf : DotDims.WF S2000x2000 S2000x128 S2000x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S500000x128.size a
  hwx4_0 : ∀ i : grid4.Coords, EltTy.bits .f32 = 32 ∨ (Rect.block (s := S500000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S500000x128.size a
  hwx4_3 : ∀ i : grid4.Coords, EltTy.bits .f32 = 32 ∨ (Rect.block (s := S500000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S500000x128.size a
  hwx5_3 : ∀ i : grid5.Coords, EltTy.bits .f32 = 32 ∨ (Rect.block (s := S500000x128) S2000x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x1.size a ≤ S500000x1.size a
  hwx5_4 : ∀ i : grid5.Coords, EltTy.bits .i32 = 32 ∨ (Rect.block (s := S500000x1) S2000x1.size (cc5_transform_4 i) (hinb5_4 i)).WholeWords (EltTy.packing .i32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x1.size a ≤ S500000x1.size a
  hwx5_5 : ∀ i : grid5.Coords, EltTy.bits .i32 = 32 ∨ (Rect.block (s := S500000x1) S2000x1.size (cc5_transform_5 i) (hinb5_5 i)).WholeWords (EltTy.packing .i32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S500000x128.size a
  hwx5_6 : ∀ i : grid5.Coords, EltTy.bits .f32 = 32 ∨ (Rect.block (s := S500000x128) S2000x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x128.size a ≤ S500000x128.size a
  hwx5_7 : ∀ i : grid5.Coords, EltTy.bits .f32 = 32 ∨ (Rect.block (s := S500000x128) S2000x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x128.size a ≤ S500000x128.size a
  hwx5_8 : ∀ i : grid5.Coords, EltTy.bits .f32 = 32 ∨ (Rect.block (s := S500000x128) S2000x128.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S500000x128.size a
  hwx6_0 : ∀ i : grid6.Coords, EltTy.bits .f32 = 32 ∨ (Rect.block (s := S500000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S500000x128.size a
  hwx6_1 : ∀ i : grid6.Coords, EltTy.bits .f32 = 32 ∨ (Rect.block (s := S500000x128) S2000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S500000x1.size a
  hwx6_2 : ∀ i : grid6.Coords, EltTy.bits .i32 = 32 ∨ (Rect.block (s := S500000x1) S2000x1.size (cc6_transform_2 i) (hinb6_2 i)).WholeWords (EltTy.packing .i32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .f32 = 32 ∨ (Rect.block (s := S50000x128) S2000x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x128.size a ≤ S50000x128.size a
  hwx6_4 : ∀ i : grid6.Coords, EltTy.bits .f32 = 32 ∨ (Rect.block (s := S50000x128) S2000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S50000x128.size a
  hwx7_1 : ∀ i : grid7.Coords, EltTy.bits .f32 = 32 ∨ (Rect.block (s := S50000x128) S2000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x128.size a ≤ S50000x128.size a
  hwx7_6 : ∀ i : grid7.Coords, EltTy.bits .f32 = 32 ∨ (Rect.block (s := S50000x128) S2000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S500000x128.size a
  hwx8_0 : ∀ i : grid8.Coords, EltTy.bits .f32 = 32 ∨ (Rect.block (s := S500000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S500000x128.size a
  hwx8_1 : ∀ i : grid8.Coords, EltTy.bits .f32 = 32 ∨ (Rect.block (s := S500000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S500000x128.size a
  hwx8_6 : ∀ i : grid8.Coords, EltTy.bits .f32 = 32 ∨ (Rect.block (s := S500000x128) S5000x128.size (cc8_transform_6 i) (hinb8_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x2000_S2000x128_S2000x128_1_0_0_1_n_n : DotDims S2000x2000 S2000x128 S2000x128 where
  lhsContracting := [1]
  rhsContracting := [0]
  lhsNonContracting := [0]
  rhsNonContracting := [1]
  lhsBatch := []
  rhsBatch := []
  wf := dot_S2000x2000_S2000x128_S2000x128_1_0_0_1_n_n_wf
def dot_S2000x2000_S2000x128_S2000x128_0_0_1_1_n_n : DotDims S2000x2000 S2000x128 S2000x128 where
  lhsContracting := [0]
  rhsContracting := [0]
  lhsNonContracting := [1]
  rhsNonContracting := [1]
  lhsBatch := []
  rhsBatch := []
  wf := dot_S2000x2000_S2000x128_S2000x128_0_0_1_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v8) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg1) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v10) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v11) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v7) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v9) S2000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v11) S2000x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v0) S2000x1.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v1) S2000x1.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v12_0) S2000x128.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v12_1) S2000x128.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v12_2) S2000x128.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev idle5 : Fin 9 → grid5.Coords → Bool := fun | 0 => fun _ => false | 1 => fun _ => false | 2 => fun _ => false | 3 => fun _ => false | 4 => fun _ => false | 5 => fun _ => false | 6 => fun i => !(k5_cond2 i == 1#1) | 7 => fun i => !(k5_cond2 i == 1#1) | 8 => fun i => !(k5_cond2 i == 1#1) | ⟨_ + 9, h⟩ => absurd h (Nat.not_lt.2 (Nat.le_add_left _ _))

abbrev win6_0 : Pipeline.Window sig grid6 :=
  Pipeline.Window.ofSpec (Memref.whole main_v12_1) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v12_2) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v1) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v3) S2000x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v13) S2000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun _ => false | 4 => fun i => !(k6_cond2 i == 1#1) | ⟨_ + 5, h⟩ => absurd h (Nat.not_lt.2 (Nat.le_add_left _ _))

abbrev win7_0 : Pipeline.Window sig grid7 :=
  Pipeline.Window.ofSpec (Memref.whole main_v13) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg0) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v17) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v18) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v19) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v20) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v21) S2000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v12_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg1) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v25) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v26) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v27) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v28) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v29) S5000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S50000x128 : Shape := ⟨2, ![50000, 128]⟩
abbrev S500000x128 : Shape := ⟨2, ![500000, 128]⟩
abbrev S500000 : Shape := ⟨1, ![500000]⟩
abbrev S128x128 : Shape := ⟨2, ![128, 128]⟩
abbrev S128 : Shape := ⟨1, ![128]⟩
abbrev S1x128 : Shape := ⟨2, ![1, 128]⟩
abbrev S_ : Shape := ⟨0, ![]⟩
abbrev S500000x1 : Shape := ⟨2, ![500000, 1]⟩

abbrev nBuf : Space → Nat
  | .hbm => 190
  | .vmem => 0
  | .smem => 0
  | _ => 0

abbrev hbmTy0_0 (i : Nat) : BufTy := match i % 128 with
  | 0 => ⟨S50000x128, .f32⟩
  | 1 => ⟨S500000x128, .f32⟩
  | 2 => ⟨S500000, .i32⟩
  | 3 => ⟨S500000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128, .f32⟩
  | 15 => ⟨S128, .f32⟩
  | 16 => ⟨S128, .f32⟩
  | 17 => ⟨S128, .f32⟩
  | 18 => ⟨S128x128, .f32⟩
  | 19 => ⟨S50000x128, .f32⟩
  | 20 => ⟨S1x128, .f32⟩
  | 21 => ⟨S50000x128, .f32⟩
  | 22 => ⟨S50000x128, .f32⟩
  | 23 => ⟨S128x128, .f32⟩
  | 24 => ⟨S50000x128, .f32⟩
  | 25 => ⟨S1x128, .f32⟩
  | 26 => ⟨S50000x128, .f32⟩
  | 27 => ⟨S50000x128, .f32⟩
  | 28 => ⟨S128x128, .f32⟩
  | 29 => ⟨S50000x128, .f32⟩
  | 30 => ⟨S1x128, .f32⟩
  | 31 => ⟨S50000x128, .f32⟩
  | 32 => ⟨S50000x128, .f32⟩
  | 33 => ⟨S128x128, .f32⟩
  | 34 => ⟨S50000x128, .f32⟩
  | 35 => ⟨S1x128, .f32⟩
  | 36 => ⟨S50000x128, .f32⟩
  | 37 => ⟨S50000x128, .f32⟩
  | 38 => ⟨S128x128, .f32⟩
  | 39 => ⟨S500000x128, .f32⟩
  | 40 => ⟨S1x128, .f32⟩
  | 41 => ⟨S500000x128, .f32⟩
  | 42 => ⟨S500000x128, .f32⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S500000x128, .f32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S500000x128, .f32⟩
  | 61 => ⟨S500000x128, .f32⟩
  | 62 => ⟨S500000x128, .f32⟩
  | 63 => ⟨S500000x128, .f32⟩
  | 64 => ⟨S500000x128, .f32⟩
  | 65 => ⟨S_, .f32⟩
  | 66 => ⟨S500000x128, .f32⟩
  | 67 => ⟨S500000x128, .f32⟩
  | 68 => ⟨S_, .f32⟩
  | 69 => ⟨S500000x128, .f32⟩
  | 70 => ⟨S500000x128, .f32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S500000x128, .f32⟩
  | 80 => ⟨S500000x128, .f32⟩
  | 81 => ⟨S_, .f32⟩
  | 82 => ⟨S50000x128, .f32⟩
  | 83 => ⟨S500000x1, .i32⟩
  | 84 => ⟨S50000x128, .f32⟩
  | 85 => ⟨S_, .f32⟩
  | 86 => ⟨S50000x128, .f32⟩
  | 87 => ⟨S500000x1, .i32⟩
  | 88 => ⟨S50000x128, .f32⟩
  | 89 => ⟨S_, .f32⟩
  | 90 => ⟨S50000x128, .f32⟩
  | 91 => ⟨S50000x128, .f32⟩
  | 92 => ⟨S50000x128, .f32⟩
  | 93 => ⟨S50000x128, .f32⟩
  | 94 => ⟨S_, .f32⟩
  | 95 => ⟨S128, .f32⟩
  | 96 => ⟨S_, .f32⟩
  | 97 => ⟨S128, .f32⟩
  | 98 => ⟨S128, .f32⟩
  | 99 => ⟨S_, .i32⟩
  | 100 => ⟨S_, .f32⟩
  | 101 => ⟨S128, .f32⟩
  | 102 => ⟨S1x128, .f32⟩
  | 103 => ⟨S_, .f32⟩
  | 104 => ⟨S1x128, .f32⟩
  | 105 => ⟨S1x128, .f32⟩
  | 106 => ⟨S50000x128, .f32⟩
  | 107 => ⟨S50000x128, .f32⟩
  | 108 => ⟨S50000x128, .f32⟩
  | 109 => ⟨S_, .f32⟩
  | 110 => ⟨S_, .f32⟩
  | 111 => ⟨S_, .f32⟩
  | 112 => ⟨S_, .f32⟩
  | 113 => ⟨S128, .f32⟩
  | 114 => ⟨S128, .f32⟩
  | 115 => ⟨S128, .f32⟩
  | 116 => ⟨S_, .f32⟩
  | 117 => ⟨S_, .i1⟩
  | 118 => ⟨S_, .f32⟩
  | 119 => ⟨S_, .f32⟩
  | 120 => ⟨S128, .f32⟩
  | 121 => ⟨S128, .f32⟩
  | 122 => ⟨S1x128, .f32⟩
  | 123 => ⟨S50000x128, .f32⟩
  | 124 => ⟨S50000x128, .f32⟩
  | 125 => ⟨S_, .f32⟩
  | 126 => ⟨S128, .f32⟩
  | 127 => ⟨S128, .f32⟩
  | _ => ⟨S50000x128, .f32⟩

abbrev hbmTy0_1 (i : Nat) : BufTy := match i % 128 with
  | 0 => ⟨S128, .f32⟩
  | 1 => ⟨S1x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S_, .f32⟩
  | 14 => ⟨S128, .f32⟩
  | 15 => ⟨S_, .f32⟩
  | 16 => ⟨S128, .f32⟩
  | 17 => ⟨S128, .f32⟩
  | 18 => ⟨S_, .i32⟩
  | 19 => ⟨S_, .f32⟩
  | 20 => ⟨S128, .f32⟩
  | 21 => ⟨S1x128, .f32⟩
  | 22 => ⟨S_, .f32⟩
  | 23 => ⟨S1x128, .f32⟩
  | 24 => ⟨S1x128, .f32⟩
  | 25 => ⟨S500000x128, .f32⟩
  | 26 => ⟨S500000x128, .f32⟩
  | 27 => ⟨S500000x128, .f32⟩
  | 28 => ⟨S_, .f32⟩
  | 29 => ⟨S_, .f32⟩
  | 30 => ⟨S_, .f32⟩
  | 31 => ⟨S_, .f32⟩
  | 32 => ⟨S128, .f32⟩
  | 33 => ⟨S128, .f32⟩
  | 34 => ⟨S128, .f32⟩
  | 35 => ⟨S_, .f32⟩
  | 36 => ⟨S_, .i1⟩
  | 37 => ⟨S_, .f32⟩
  | 38 => ⟨S_, .f32⟩
  | 39 => ⟨S128, .f32⟩
  | 40 => ⟨S128, .f32⟩
  | 41 => ⟨S1x128, .f32⟩
  | 42 => ⟨S500000x128, .f32⟩
  | 43 => ⟨S500000x128, .f32⟩
  | 44 => ⟨S_, .f32⟩
  | 45 => ⟨S128, .f32⟩
  | 46 => ⟨S128, .f32⟩
  | 47 => ⟨S128, .f32⟩
  | 48 => ⟨S1x128, .f32⟩
  | 49 => ⟨S500000x128, .f32⟩
  | 50 => ⟨S500000x128, .f32⟩
  | 51 => ⟨S1x128, .f32⟩
  | 52 => ⟨S500000x128, .f32⟩
  | 53 => ⟨S500000x128, .f32⟩
  | 54 => ⟨S1x128, .f32⟩
  | 55 => ⟨S500000x128, .f32⟩
  | 56 => ⟨S500000x128, .f32⟩
  | 57 => ⟨S_, .f32⟩
  | 58 => ⟨S500000x128, .f32⟩
  | 59 => ⟨S500000x128, .f32⟩
  | 60 => ⟨S50000x128, .f32⟩
  | 61 => ⟨S500000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c : Ref sig .tc := ⟨.hbm, 43, rfl⟩
abbrev main_v25 : Ref sig .tc := ⟨.hbm, 44, rfl⟩
abbrev main_v26 : Ref sig .tc := ⟨.hbm, 45, rfl⟩
abbrev main_c_0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_1 : Ref sig .tc := ⟨.hbm, 52, rfl⟩
abbrev main_v32 : Ref sig .tc := ⟨.hbm, 53, rfl⟩
abbrev main_v33 : Ref sig .tc := ⟨.hbm, 54, rfl⟩
abbrev main_c_2 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_v46 : Ref sig .tc := ⟨.hbm, 70, rfl⟩
abbrev main_c_4 : Ref sig .tc := ⟨.hbm, 71, rfl⟩
abbrev main_v47 : Ref sig .tc := ⟨.hbm, 72, rfl⟩
abbrev main_v48 : Ref sig .tc := ⟨.hbm, 73, rfl⟩
abbrev main_c_5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_6 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_7 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_8 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_cst_10 : Ref sig .tc := ⟨.hbm, 96, rfl⟩
abbrev main_v66 : Ref sig .tc := ⟨.hbm, 97, rfl⟩
abbrev main_v67 : Ref sig .tc := ⟨.hbm, 98, rfl⟩
abbrev main_c_11 : Ref sig .tc := ⟨.hbm, 99, rfl⟩
abbrev main_call0_cst : Ref sig .tc := ⟨.hbm, 100, rfl⟩
abbrev main_call0_v0 : Ref sig .tc := ⟨.hbm, 101, rfl⟩
abbrev main_call0_v1 : Ref sig .tc := ⟨.hbm, 102, rfl⟩
abbrev main_call0_cst_0 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_call0_v5 : Ref sig .tc := ⟨.hbm, 107, rfl⟩
abbrev main_call0_v6 : Ref sig .tc := ⟨.hbm, 108, rfl⟩
abbrev main_call0_v7 : Ref sig .tc := ⟨.hbm, 109, rfl⟩
abbrev main_call0_cst_1 : Ref sig .tc := ⟨.hbm, 110, rfl⟩
abbrev main_call0_v8 : Ref sig .tc := ⟨.hbm, 111, rfl⟩
abbrev main_call0_cst_2 : Ref sig .tc := ⟨.hbm, 112, rfl⟩
abbrev main_call0_v9 : Ref sig .tc := ⟨.hbm, 113, rfl⟩
abbrev main_call0_v10 : Ref sig .tc := ⟨.hbm, 114, rfl⟩
abbrev main_call0_v11 : Ref sig .tc := ⟨.hbm, 115, rfl⟩
abbrev main_call0_cst_3 : Ref sig .tc := ⟨.hbm, 116, rfl⟩
abbrev main_call0_v12 : Ref sig .tc := ⟨.hbm, 117, rfl⟩
abbrev main_call0_cst_4 : Ref sig .tc := ⟨.hbm, 118, rfl⟩
abbrev main_call0_call0_v0 : Ref sig .tc := ⟨.hbm, 119, rfl⟩
abbrev main_call0_call0_v1 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_12 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_call1_cst : Ref sig .tc := ⟨.hbm, 138, rfl⟩
abbrev main_call1_v0 : Ref sig .tc := ⟨.hbm, 139, rfl⟩
abbrev main_v84 : Ref sig .tc := ⟨.hbm, 140, rfl⟩
abbrev main_cst_13 : Ref sig .tc := ⟨.hbm, 141, rfl⟩
abbrev main_v85 : Ref sig .tc := ⟨.hbm, 142, rfl⟩
abbrev main_cst_14 : Ref sig .tc := ⟨.hbm, 143, rfl⟩
abbrev main_v86 : Ref sig .tc := ⟨.hbm, 144, rfl⟩
abbrev main_v87 : Ref sig .tc := ⟨.hbm, 145, rfl⟩
abbrev main_c_15 : Ref sig .tc := ⟨.hbm, 146, rfl⟩
abbrev main_call2_cst : Ref sig .tc := ⟨.hbm, 147, rfl⟩
abbrev main_call2_v0 : Ref sig .tc := ⟨.hbm, 148, rfl⟩
abbrev main_call2_v1 : Ref sig .tc := ⟨.hbm, 149, rfl⟩
abbrev main_call2_cst_0 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_call2_v5 : Ref sig .tc := ⟨.hbm, 154, rfl⟩
abbrev main_call2_v6 : Ref sig .tc := ⟨.hbm, 155, rfl⟩
abbrev main_call2_v7 : Ref sig .tc := ⟨.hbm, 156, rfl⟩
abbrev main_call2_cst_1 : Ref sig .tc := ⟨.hbm, 157, rfl⟩
abbrev main_call2_v8 : Ref sig .tc := ⟨.hbm, 158, rfl⟩
abbrev main_call2_cst_2 : Ref sig .tc := ⟨.hbm, 159, rfl⟩
abbrev main_call2_v9 : Ref sig .tc := ⟨.hbm, 160, rfl⟩
abbrev main_call2_v10 : Ref sig .tc := ⟨.hbm, 161, rfl⟩
abbrev main_call2_v11 : Ref sig .tc := ⟨.hbm, 162, rfl⟩
abbrev main_call2_cst_3 : Ref sig .tc := ⟨.hbm, 163, rfl⟩
abbrev main_call2_v12 : Ref sig .tc := ⟨.hbm, 164, rfl⟩
abbrev main_call2_cst_4 : Ref sig .tc := ⟨.hbm, 165, rfl⟩
abbrev main_call2_call0_v0 : Ref sig .tc := ⟨.hbm, 166, rfl⟩
abbrev main_call2_call0_v1 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_cst_16 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_call3_cst : Ref sig .tc := ⟨.hbm, 185, rfl⟩
abbrev main_call3_v0 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S500000x128_0_1 : S1x128.BroadcastsInDim S500000x128 (![0, 1] : Fin 2 → Fin S500000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x128 : S_.BroadcastsInDim S500000x128 (![] : Fin 0 → Fin S500000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  reducesTo_S500000x128_S128_d0 : S500000x128.ReducesTo [0] S128
  dot_S50000x128_S128x128_S50000x128_1_0_0_1_n_n_wf : DotDims.WF S50000x128 S128x128 S50000x128 [1] [0] [0] [1] [] []
  dot_S500000x128_S128x128_S500000x128_1_0_0_1_n_n_wf : DotDims.WF S500000x128 S128x128 S500000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

class Facts : Prop extends Facts₀ where

variable [Facts]
-- ==== Proof.PreDecode.lean ====
import proofs.«429521_j46961172414534_2_alg».proof.Pre_finite_inputs
import Idealize.ShloMosaic.Lib.ReduceAll
import Idealize.ShloMosaic.Lib.ValueIdx

namespace Cert.PreDecode

open Idealize.ShloMosaic Idealize.ShloMosaic.ValueIdx
open Cert.Pre_finite_inputs

instance scalarIdx_subsingleton : Subsingleton S_.Idx := ⟨fun a b => funext fun d => d.elim0⟩

theorem word_is_node (w : BitVec 32) (hge : IntOp.cmpi .sge w 0#32 = 1#1) (hlt : IntOp.cmpi .slt w 50000#32 = 1#1) :
    0 ≤ w.toInt ∧ w.toInt < 50000 := by
  have h0 : (0#32 : BitVec 32).toInt = 0 := by decide
  have h5 : (50000#32 : BitVec 32).toInt = 50000 := by decide
  have a := IntOp.cmpi_sge.1 hge
  have b := IntOp.cmpi_slt.1 hlt
  rw [h0] at a; rw [h5] at b
  exact ⟨a, b⟩

theorem all_in_range [Facts] (idx : IVec S500000 32)
    (hge : Host.reduce IntOp.andi (cmpi .sge idx (broadcastInDim S500000 ![] Facts.bcast_S_S500000 (constantI S_ 32 0#32)))
        (constantI S_ 1 1#1) Facts.reducesTo_S500000_S_d0 Facts.h_S_ ix0 = 1#1)
    (hlt : Host.reduce IntOp.andi (cmpi .slt idx (broadcastInDim S500000 ![] Facts.bcast_S_S500000 (constantI S_ 32 50000#32)))
        (constantI S_ 1 1#1) Facts.reducesTo_S500000_S_d0 Facts.h_S_ ix0 = 1#1)
    (i : S500000.Idx) : 0 ≤ (idx i).toInt ∧ (idx i).toInt < 50000 :=
  word_is_node (idx i) (Host.reduce_andi_all _ _ _ _ _ hge i) (Host.reduce_andi_all _ _ _ _ _ hlt i)

theorem endpoints_in_range {F : FTy → Type} [FloatOps F] [Facts]
    (a0 : FVec F S50000x128 .f32) (a1 : FVec F S500000x128 .f32) (src dst : IVec S500000 32)
    (a4 : FVec F S128x128 .f32) (a5 : FVec F S128 .f32) (a6 : FVec F S128x128 .f32) (a7 : FVec F S128 .f32)
    (a8 : FVec F S128x128 .f32) (a9 : FVec F S128 .f32) (a10 : FVec F S128x128 .f32) (a11 : FVec F S128 .f32)
    (a12 : FVec F S128x128 .f32) (a13 a14 a15 a16 a17 : FVec F S128 .f32)
    (h : fn (F := F) a0 a1 src dst a4 a5 a6 a7 a8 a9 a10 a11 a12 a13 a14 a15 a16 a17 = fun _ => 1#1) :
    (∀ i : S500000.Idx, 0 ≤ (src i).toInt ∧ (src i).toInt < 50000)
      ∧ (∀ i : S500000.Idx, 0 ≤ (dst i).toInt ∧ (dst i).toInt < 50000) := by
  have e := congrFun h ix0
  dsimp only [fn, fn_part1, fn_part2, fn_part3, fn_part4, fn_part5] at e
  simp only [andi, IntOp.andi_eq_one] at e
  obtain ⟨⟨⟨⟨-, hs0⟩, hs1⟩, hd0⟩, hd1⟩ := e
  exact ⟨all_in_range src hs0 hs1, all_in_range dst hd0 hd1⟩

theorem endpoints {F : FTy → Type} [FloatOps F] [Facts]
    (a0 : FVec F S50000x128 .f32) (a1 : FVec F S500000x128 .f32) (src dst : IVec S500000 32)
    (a4 : FVec F S128x128 .f32) (a5 : FVec F S128 .f32) (a6 : FVec F S128x128 .f32) (a7 : FVec F S128 .f32)
    (a8 : FVec F S128x128 .f32) (a9 : FVec F S128 .f32) (a10 : FVec F S128x128 .f32) (a11 : FVec F S128 .f32)
    (a12 : FVec F S128x128 .f32) (a13 a14 a15 a16 a17 : FVec F S128 .f32)
    (h : fn (F := F) a0 a1 src dst a4 a5 a6 a7 a8 a9 a10 a11 a12 a13 a14 a15 a16 a17 = fun _ => 1#1) :
    ∃ srcF dstF : Fin 500000 → Fin 50000,
      (∀ e : Fin 500000, (src (ix1 e)).toInt = ((srcF e).val : ℤ)) ∧ (∀ e : Fin 500000, (dst (ix1 e)).toInt = ((dstF e).val : ℤ)) := by
  obtain ⟨hs, hd⟩ := endpoints_in_range a0 a1 src dst a4 a5 a6 a7 a8 a9 a10 a11 a12 a13 a14 a15 a16 a17 h
  refine ⟨fun e => ⟨(src (ix1 e)).toInt.toNat, ?_⟩, fun e => ⟨(dst (ix1 e)).toInt.toNat, ?_⟩, fun e => ?_, fun e => ?_⟩
  · have := hs (ix1 e); omega
  · have := hd (ix1 e); omega
  · have := hs (ix1 e); show _ = ((Int.toNat _ : ℕ) : ℤ); omega
  · have := hd (ix1 e); show _ = ((Int.toNat _ : ℕ) : ℤ); omega

end Cert.PreDecode
-- ==== Proof.K.RegLin.lean ====
import proofs.«429521_j46961172414534_2_alg».proof.Proof.Gen.Kernel.Launch
import proofs.«429521_j46961172414534_2_alg».proof.Proof.Gen.Kernel.Skeleton
import proofs.«429521_j46961172414534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation arrRef ΦA)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Every index of the block lies in the part that is moved, so refilling the block from its own cut gives it back.
theorem before_eq_after {cfg : Cfg sig Λ₀} {c : Dev nD} (dat : Dat τ (Elt F) Unit ℕ (UR sig nD τ) ℕ cfg c) (w : Fin cfg.W)
    (hk : ∀ t, (cfg.win w).cut (cfg.grid.coords t) (dat.after w t) = dat.blockOf w t := by exact fun _ => rfl)
    (hw : (cfg.win w).isOut = false := by rfl) (hl : ∀ i, cfg.idle w i = false := by exact fun _ => rfl)
    (hu : ∀ i j, (cfg.win w).moved i j = true := by exact fun _ _ => rfl)
    (hc : ∀ t t' : Fin cfg.N, (cfg.win w).index t = (cfg.win w).index t' →
      (cfg.win w).clip (cfg.grid.coords t) = (cfg.win w).clip (cfg.grid.coords t') := by exact fun _ _ _ => rfl)
    (t : Fin cfg.N) (d) : dat.before w t d = dat.after w t := by
  rw [dat.before_in_eq_fetched w hw hl hc hk]
  unfold Dat.fetched
  rw [← hk]
  funext j
  unfold Window.fill
  rw [dif_pos (hu _ j)]

abbrev rows2 : Rect S2000x128 := Rect.unit (s := S2000x128) ![0, 0] S2000x128.size inb_S2000x128_S2000x128_0_0
abbrev rows5 : Rect S5000x128 := Rect.unit (s := S5000x128) ![0, 0] S5000x128.size inb_S5000x128_S5000x128_0_0
abbrev weightAll : Rect S128x128 := Rect.unit (s := S128x128) ![0, 0] S128x128.size inb_S128x128_S128x128_0_0
abbrev biasAll : Rect S1x128 := Rect.unit (s := S1x128) ![0, 0] S1x128.size inb_S1x128_S1x128_0_0

def iblk0 (c : Dev nD) (w : Fin cfg0.W) (t : Fin cfg0.N) :
    ((cfg0.win w).xblock (cfg0.grid.coords t)).Idx → Elt F (cfg0.win w).elt :=
  ((cfg0.win w).blk t).view.read (Elt F) (V c (arrRef spec0 w))

def out0_3 (x : Vec F S2000x128 .f32) (W : Vec F S128x128 .f32) (b : Vec F S1x128 .f32) : Vec F S2000x128 .f32 :=
  View.canon [⟨rows2, k0_pay1 (View.ld x rows2) (View.ld W weightAll) (View.ld b biasAll)⟩]

def dat0 (c : Dev nD) : Dat τ (Elt F) Unit ℕ (UR sig nD τ) ℕ cfg0 c where
  A w := V c (arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := ΦA spec0 c
  q _ := fullShare
  owed _ := 0

theorem A_eq0 (c : Dev nD) (w : Fin cfg0.W) : (dat0 V c).A w = V c (arrRef spec0 w) := by
  dsimp only [dat0]

theorem q_full0 (c : Dev nD) : ∀ w, (dat0 V c).q w = fullShare := fun _ => rfl

theorem owed_zero0 (c : Dev nD) : ∀ t, (dat0 V c).owed t = 0 := fun _ => rfl

theorem after0_3 (c : Dev nD) (t : Fin cfg0.N) :
    (dat0 V c).after 3 t = out0_3 (iblk0 V c 0 t) (iblk0 V c 1 t) (iblk0 V c 2 t) := by dsimp only [dat0]

theorem hin0 (c : Dev nD) : (ΦA spec0 c : sProp 𝕄) ⊢ (dat0 V c).Φ 0 := .rfl

theorem hout0 (c : Dev nD) : (dat0 V c).Φ (Fin.last cfg0.N) ⊢ (ΦA spec0 c : sProp 𝕄) := .rfl

def iblk1 (c : Dev nD) (w : Fin cfg1.W) (t : Fin cfg1.N) :
    ((cfg1.win w).xblock (cfg1.grid.coords t)).Idx → Elt F (cfg1.win w).elt :=
  ((cfg1.win w).blk t).view.read (Elt F) (V c (arrRef spec1 w))

def out1_3 (x : Vec F S2000x128 .f32) (W : Vec F S128x128 .f32) (b : Vec F S1x128 .f32) : Vec F S2000x128 .f32 :=
  View.canon [⟨rows2, k1_pay1 (View.ld x rows2) (View.ld W weightAll) (View.ld b biasAll)⟩]

def dat1 (c : Dev nD) : Dat τ (Elt F) Unit ℕ (UR sig nD τ) ℕ cfg1 c where
  A w := V c (arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := ΦA spec1 c
  q _ := fullShare
  owed _ := 0

theorem A_eq1 (c : Dev nD) (w : Fin cfg1.W) : (dat1 V c).A w = V c (arrRef spec1 w) := by
  dsimp only [dat1]

theorem q_full1 (c : Dev nD) : ∀ w, (dat1 V c).q w = fullShare := fun _ => rfl

theorem owed_zero1 (c : Dev nD) : ∀ t, (dat1 V c).owed t = 0 := fun _ => rfl

theorem after1_3 (c : Dev nD) (t : Fin cfg1.N) :
    (dat1 V c).after 3 t = out1_3 (iblk1 V c 0 t) (iblk1 V c 1 t) (iblk1 V c 2 t) := by dsimp only [dat1]

theorem hin1 (c : Dev nD) : (ΦA spec1 c : sProp 𝕄) ⊢ (dat1 V c).Φ 0 := .rfl

theorem hout1 (c : Dev nD) : (dat1 V c).Φ (Fin.last cfg1.N) ⊢ (ΦA spec1 c : sProp 𝕄) := .rfl

def iblk2 (c : Dev nD) (w : Fin cfg2.W) (t : Fin cfg2.N) :
    ((cfg2.win w).xblock (cfg2.grid.coords t)).Idx → Elt F (cfg2.win w).elt :=
  ((cfg2.win w).blk t).view.read (Elt F) (V c (arrRef spec2 w))

def out2_3 (x : Vec F S2000x128 .f32) (W : Vec F S128x128 .f32) (b : Vec F S1x128 .f32) : Vec F S2000x128 .f32 :=
  View.canon [⟨rows2, k2_pay1 (View.ld x rows2) (View.ld W weightAll) (View.ld b biasAll)⟩]

def dat2 (c : Dev nD) : Dat τ (Elt F) Unit ℕ (UR sig nD τ) ℕ cfg2 c where
  A w := V c (arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := ΦA spec2 c
  q _ := fullShare
  owed _ := 0

theorem A_eq2 (c : Dev nD) (w : Fin cfg2.W) : (dat2 V c).A w = V c (arrRef spec2 w) := by
  dsimp only [dat2]

theorem q_full2 (c : Dev nD) : ∀ w, (dat2 V c).q w = fullShare := fun _ => rfl

theorem owed_zero2 (c : Dev nD) : ∀ t, (dat2 V c).owed t = 0 := fun _ => rfl

theorem after2_3 (c : Dev nD) (t : Fin cfg2.N) :
    (dat2 V c).after 3 t = out2_3 (iblk2 V c 0 t) (iblk2 V c 1 t) (iblk2 V c 2 t) := by dsimp only [dat2]

theorem hin2 (c : Dev nD) : (ΦA spec2 c : sProp 𝕄) ⊢ (dat2 V c).Φ 0 := .rfl

theorem hout2 (c : Dev nD) : (dat2 V c).Φ (Fin.last cfg2.N) ⊢ (ΦA spec2 c : sProp 𝕄) := .rfl

def iblk3 (c : Dev nD) (w : Fin cfg3.W) (t : Fin cfg3.N) :
    ((cfg3.win w).xblock (cfg3.grid.coords t)).Idx → Elt F (cfg3.win w).elt :=
  ((cfg3.win w).blk t).view.read (Elt F) (V c (arrRef spec3 w))

def out3_3 (x : Vec F S2000x128 .f32) (W : Vec F S128x128 .f32) (b : Vec F S1x128 .f32) : Vec F S2000x128 .f32 :=
  View.canon [⟨rows2, k3_pay1 (View.ld x rows2) (View.ld W weightAll) (View.ld b biasAll)⟩]

def dat3 (c : Dev nD) : Dat τ (Elt F) Unit ℕ (UR sig nD τ) ℕ cfg3 c where
  A w := V c (arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := ΦA spec3 c
  q _ := fullShare
  owed _ := 0

theorem A_eq3 (c : Dev nD) (w : Fin cfg3.W) : (dat3 V c).A w = V c (arrRef spec3 w) := by
  dsimp only [dat3]

theorem q_full3 (c : Dev nD) : ∀ w, (dat3 V c).q w = fullShare := fun _ => rfl

theorem owed_zero3 (c : Dev nD) : ∀ t, (dat3 V c).owed t = 0 := fun _ => rfl

theorem after3_3 (c : Dev nD) (t : Fin cfg3.N) :
    (dat3 V c).after 3 t = out3_3 (iblk3 V c 0 t) (iblk3 V c 1 t) (iblk3 V c 2 t) := by dsimp only [dat3]

theorem hin3 (c : Dev nD) : (ΦA spec3 c : sProp 𝕄) ⊢ (dat3 V c).Φ 0 := .rfl

theorem hout3 (c : Dev nD) : (dat3 V c).Φ (Fin.last cfg3.N) ⊢ (ΦA spec3 c : sProp 𝕄) := .rfl

def iblk4 (c : Dev nD) (w : Fin cfg4.W) (t : Fin cfg4.N) :
    ((cfg4.win w).xblock (cfg4.grid.coords t)).Idx → Elt F (cfg4.win w).elt :=
  ((cfg4.win w).blk t).view.read (Elt F) (V c (arrRef spec4 w))

def out4_3 (x : Vec F S5000x128 .f32) (W : Vec F S128x128 .f32) (b : Vec F S1x128 .f32) : Vec F S5000x128 .f32 :=
  View.canon [⟨rows5, k4_pay1 (View.ld x rows5) (View.ld W weightAll) (View.ld b biasAll)⟩]

def dat4 (c : Dev nD) : Dat τ (Elt F) Unit ℕ (UR sig nD τ) ℕ cfg4 c where
  A w := V c (arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := ΦA spec4 c
  q _ := fullShare
  owed _ := 0

theorem A_eq4 (c : Dev nD) (w : Fin cfg4.W) : (dat4 V c).A w = V c (arrRef spec4 w) := by
  dsimp only [dat4]

theorem q_full4 (c : Dev nD) : ∀ w, (dat4 V c).q w = fullShare := fun _ => rfl

theorem owed_zero4 (c : Dev nD) : ∀ t, (dat4 V c).owed t = 0 := fun _ => rfl

theorem after4_3 (c : Dev nD) (t : Fin cfg4.N) :
    (dat4 V c).after 3 t = out4_3 (iblk4 V c 0 t) (iblk4 V c 1 t) (iblk4 V c 2 t) := by dsimp only [dat4]

theorem hin4 (c : Dev nD) : (ΦA spec4 c : sProp 𝕄) ⊢ (dat4 V c).Φ 0 := .rfl

theorem hout4 (c : Dev nD) : (dat4 V c).Φ (Fin.last cfg4.N) ⊢ (ΦA spec4 c : sProp 𝕄) := .rfl

set_option maxHeartbeats 1000000 in
-- One store over the whole rectangle, so reading back gives the stored value.
theorem lin_body0 (c : Dev nD) (k) (hk : k = cc0__linear_kernel (F := F)) (o) (ho : o = out0_3 (F := F)) {i} {mx : Memref sig .tc .vmem S2000x128 .f32} {hmx : mx.IsWhole} {mw : Memref sig .tc .vmem S128x128 .f32} {hmw : mw.IsWhole}
    {mb : Memref sig .tc .vmem S1x128 .f32} {hmb : mb.IsWhole} {mo : Memref sig .tc .vmem S2000x128 .f32} {hmo : mo.IsWhole}
    {x : Vec F S2000x128 .f32} {W : Vec F S128x128 .f32} {b : Vec F S1x128 .f32} {T0 T1 T2 T3 : Type} {g : T3 → Vec F S2000x128 .f32} {R Q : sProp 𝕄} :
    iprop(R ∗ Q ∗ (∃ _ : T0, owns c.tc mx fullShare x) ∗ (∃ _ : T1, owns c.tc mw fullShare W)
        ∗ (∃ _ : T2, owns c.tc mb fullShare b) ∗ (∃ d, owns c.tc mo fullShare (g d)))
      ⊢ wp frame (wpE (defs₀ (F := F)) Variants.none c none) Set.univ (k i mx hmx mw hmw mb hmb mo hmo) fun _ =>
        iprop(R ∗ Q ∗ owns c.tc mx fullShare x ∗ owns c.tc mw fullShare W
          ∗ owns c.tc mb fullShare b ∗ owns c.tc mo fullShare (o x W b)) := by
  subst hk ho
  simp only [cc0__linear_kernel_eq_skeleton]; unfold cc0__linear_kernel_skel
  unfold owns
  iintro ⟨HR, HQ, ⟨%_, %fx, %hx, Hx⟩, ⟨%_, %fw, %hw, Hw⟩, ⟨%_, %fb, %hb, Hb⟩, ⟨%d, %fo, -, Ho⟩⟩
  subst hx; subst hw; subst hb
  sl_exec
  sl_step
  isplitl [HR]; · iexact HR
  isplitl [HQ]; · iexact HQ
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  iexists _; isplitr
  swap; · iexact Ho
  ipureintro
  exact View.read_writes_eq_canon _ _ _ (View.cover_of_tiled _ S2000x128.size (by rfl))

set_option maxHeartbeats 1000000 in
-- One store over the whole rectangle, so reading back gives the stored value.
theorem lin_body4 (c : Dev nD) (k) (hk : k = cc4__linear_kernel (F := F)) (o) (ho : o = out4_3 (F := F)) {i} {mx : Memref sig .tc .vmem S5000x128 .f32} {hmx : mx.IsWhole} {mw : Memref sig .tc .vmem S128x128 .f32} {hmw : mw.IsWhole}
    {mb : Memref sig .tc .vmem S1x128 .f32} {hmb : mb.IsWhole} {mo : Memref sig .tc .vmem S5000x128 .f32} {hmo : mo.IsWhole}
    {x : Vec F S5000x128 .f32} {W : Vec F S128x128 .f32} {b : Vec F S1x128 .f32} {T0 T1 T2 T3 : Type} {g : T3 → Vec F S5000x128 .f32} {R Q : sProp 𝕄} :
    iprop(R ∗ Q ∗ (∃ _ : T0, owns c.tc mx fullShare x) ∗ (∃ _ : T1, owns c.tc mw fullShare W)
        ∗ (∃ _ : T2, owns c.tc mb fullShare b) ∗ (∃ d, owns c.tc mo fullShare (g d)))
      ⊢ wp frame (wpE (defs₀ (F := F)) Variants.none c none) Set.univ (k i mx hmx mw hmw mb hmb mo hmo) fun _ =>
        iprop(R ∗ Q ∗ owns c.tc mx fullShare x ∗ owns c.tc mw fullShare W
          ∗ owns c.tc mb fullShare b ∗ owns c.tc mo fullShare (o x W b)) := by
  subst hk ho
  simp only [cc4__linear_kernel_eq_skeleton]; unfold cc4__linear_kernel_skel
  unfold owns
  iintro ⟨HR, HQ, ⟨%_, %fx, %hx, Hx⟩, ⟨%_, %fw, %hw, Hw⟩, ⟨%_, %fb, %hb, Hb⟩, ⟨%d, %fo, -, Ho⟩⟩
  subst hx; subst hw; subst hb
  sl_exec
  sl_step
  isplitl [HR]; · iexact HR
  isplitl [HQ]; · iexact HQ
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  iexists _; isplitr
  swap; · iexact Ho
  ipureintro
  exact View.read_writes_eq_canon _ _ _ (View.cover_of_tiled _ S5000x128.size (by rfl))

theorem body_obligation0 (c : Dev nD) : BodyObligation (dat0 (F := F) V c) (defs₀ (F := F)) Variants.none () Set.univ := fun t => by
  rw [bigSep_W0, bigSep_W0]
  simp only [before_eq_after (dat0 V c) 0, before_eq_after (dat0 V c) 1, before_eq_after (dat0 V c) 2]
  dsimp only [dat0]
  show _ ⊢ wp _ _ _ (bodyAt0 t) _
  exact lin_body0 c cc0__linear_kernel rfl out0_3 rfl

theorem body_obligation1 (c : Dev nD) : BodyObligation (dat1 (F := F) V c) (defs₀ (F := F)) Variants.none () Set.univ := fun t => by
  rw [bigSep_W1, bigSep_W1]
  simp only [before_eq_after (dat1 V c) 0, before_eq_after (dat1 V c) 1, before_eq_after (dat1 V c) 2]
  dsimp only [dat1]
  show _ ⊢ wp _ _ _ (bodyAt1 t) _
  exact lin_body0 c cc1__linear_kernel rfl out1_3 rfl

theorem body_obligation2 (c : Dev nD) : BodyObligation (dat2 (F := F) V c) (defs₀ (F := F)) Variants.none () Set.univ := fun t => by
  rw [bigSep_W2, bigSep_W2]
  simp only [before_eq_after (dat2 V c) 0, before_eq_after (dat2 V c) 1, before_eq_after (dat2 V c) 2]
  dsimp only [dat2]
  show _ ⊢ wp _ _ _ (bodyAt2 t) _
  exact lin_body0 c cc2__linear_kernel rfl out2_3 rfl

theorem body_obligation3 (c : Dev nD) : BodyObligation (dat3 (F := F) V c) (defs₀ (F := F)) Variants.none () Set.univ := fun t => by
  rw [bigSep_W3, bigSep_W3]
  simp only [before_eq_after (dat3 V c) 0, before_eq_after (dat3 V c) 1, before_eq_after (dat3 V c) 2]
  dsimp only [dat3]
  show _ ⊢ wp _ _ _ (bodyAt3 t) _
  exact lin_body0 c cc3__linear_kernel rfl out3_3 rfl

theorem body_obligation4 (c : Dev nD) : BodyObligation (dat4 (F := F) V c) (defs₀ (F := F)) Variants.none () Set.univ := fun t => by
  rw [bigSep_W4, bigSep_W4]
  simp only [before_eq_after (dat4 V c) 0, before_eq_after (dat4 V c) 1, before_eq_after (dat4 V c) 2]
  dsimp only [dat4]
  show _ ⊢ wp _ _ _ (bodyAt4 t) _
  exact lin_body4 c cc4__linear_kernel rfl out4_3 rfl

end Cert.Kernel.Hand

end
-- ==== Proof.K.Reg5.lean ====
import proofs.«429521_j46961172414534_2_alg».proof.Proof.Gen.Kernel.Launch
import proofs.«429521_j46961172414534_2_alg».proof.Proof.Gen.Kernel.Skeleton
import proofs.«429521_j46961172414534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev isFirst5 (i : grid5.Coords) : Prop :=
  (Scalar.cmpi .ne (Scalar.extui (Scalar.cmpi .eq (BitVec.ofNat 32 (i 1).val) 0#32)) 0#32) = 1#1

theorem isFirst5_iff : ∀ t : Fin cfg5.N, isFirst5 (grid5.coords t) ↔ t.val % 25 = 0 :=
  (by decide +kernel : ∀ t : Fin grid5.N, isFirst5 (grid5.coords t) ↔ t.val % 25 = 0)

abbrev isLast5 (i : grid5.Coords) : Prop := k5_cond2 i = 1#1

theorem isLast5_iff : ∀ t : Fin cfg5.N, isLast5 (grid5.coords t) ↔ t.val % 25 = 24 :=
  (by decide +kernel : ∀ t : Fin grid5.N, isLast5 (grid5.coords t) ↔ t.val % 25 = 24)

abbrev Acc5 (F : FTy → Type) : Type := Vec F S2000x128 .f32 × Vec F S2000x128 .f32 × Vec F S2000x128 .f32

-- One point's accumulation onto `a`: (a₀ + P·Dh, a₁ + P·Bh, a₂ + Q·Eh), P and Q the one-hot matrices of the edge block's sources and destinations against the node block.
def accStep5 (i : grid5.Coords) (xD xB xE : Vec F S2000x128 .f32) (xs xd : Vec F S2000x1 .i32) (a : Acc5 F) : Acc5 F :=
  (k5_pay14 i xs xD a.1, k5_pay1 (k5_pay10 i xs) (k5_pay12 xB) a.2.1, k5_pay2 (k5_pay11 i xd) (k5_pay13 xE) a.2.2)

def accZero5 : Acc5 F := (k5_pay6, k5_pay7, k5_pay8)

theorem off00 : (![0, 0] : Fin 2 → Nat) = fun _ => 0 := funext fun a => by fin_cases a <;> rfl

-- What a last point stores from the accumulators `a` and the block `xC` of Ce: e = (a₀ + a₂) + Ce, σ(e), a₁ · σ(e).
def outE5 (a : Acc5 F) (xC : Vec F S2000x128 .f32) : Vec F S2000x128 .f32 := k5_pay3 a.1 a.2.2 xC
def outG5 (a : Acc5 F) (xC : Vec F S2000x128 .f32) : Vec F S2000x128 .f32 := k5_pay5 a.1 a.2.2 xC a.2.1
def outS5 (a : Acc5 F) (xC : Vec F S2000x128 .f32) : Vec F S2000x128 .f32 := k5_pay4 a.1 a.2.2 xC

section Body

variable (c : Dev nD) (arg2 arg3 arg4 arg5 : Memref sig .tc .vmem S2000x128 .f32) (arg6 arg7 : Memref sig .tc .vmem S2000x1 .i32)
  (arg8 arg9 arg10 arg11 arg12 arg13 : Memref sig .tc .vmem S2000x128 .f32)
  (x0 x1 x2 x3 : Vec F S2000x128 .f32) (x4 x5 : Vec F S2000x1 .i32) (o6 o7 o8 a0 a1 a2 : Vec F S2000x128 .f32)

-- The body's twelve operands owned whole: six inputs, three outputs, three accumulators.
def held5 : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
    ∗ owns (c : Thread nD τ) arg8 fullShare o6 ∗ owns (c : Thread nD τ) arg9 fullShare o7 ∗ owns (c : Thread nD τ) arg10 fullShare o8
    ∗ owns (c : Thread nD τ) arg11 fullShare a0 ∗ owns (c : Thread nD τ) arg12 fullShare a1 ∗ owns (c : Thread nD τ) arg13 fullShare a2)

variable {c arg2 arg3 arg4 arg5 arg6 arg7 arg8 arg9 arg10 arg11 arg12 arg13} {i : grid5.Coords}
  {harg2 : arg2.IsWhole} {harg3 : arg3.IsWhole} {harg4 : arg4.IsWhole} {harg5 : arg5.IsWhole} {harg6 : arg6.IsWhole} {harg7 : arg7.IsWhole}
  {harg8 : arg8.IsWhole} {harg9 : arg9.IsWhole} {harg10 : arg10.IsWhole} {harg11 : arg11.IsWhole} {harg12 : arg12.IsWhole} {harg13 : arg13.IsWhole}

set_option maxHeartbeats 4000000 in
-- At a first point the accumulators, whatever they held, are zeroed and accumulated onto once.
theorem run5_first (hc0 : isFirst5 i) (hc1 : ¬isLast5 i) (E : Set ℕ) (K : PUnit → sProp 𝕄) :
    iprop(held5 c arg2 arg3 arg4 arg5 arg6 arg7 arg8 arg9 arg10 arg11 arg12 arg13 x0 x1 x2 x3 x4 x5 o6 o7 o8 a0 a1 a2 ∗ (held5 c arg2 arg3 arg4 arg5 arg6 arg7 arg8 arg9 arg10 arg11 arg12 arg13 x0 x1 x2 x3 x4 x5 o6 o7 o8 (accStep5 i x0 x1 x2 x4 x5 accZero5).1 (accStep5 i x0 x1 x2 x4 x5 accZero5).2.1 (accStep5 i x0 x1 x2 x4 x5 accZero5).2.2 -∗ K ⟨⟩))
      ⊢ wp frame (wpE (defs₀ (F := F)) Variants.none c none) E (cc5__gather_kernel i arg2 harg2 arg3 harg3 arg4 harg4 arg5 harg5 arg6 harg6 arg7 harg7 arg8 harg8 arg9 harg9 arg10 harg10 arg11 harg11 arg12 harg12 arg13 harg13) K := by
  simp only [cc5__gather_kernel_eq_skeleton]; unfold cc5__gather_kernel_skel
  simp only [k5_part1_eq_skeleton]
  unfold held5 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%g0, -, G0⟩, ⟨%g1, -, G1⟩, ⟨%g2, -, G2⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hf7; obtain rfl := harg10.eq_unread hf8
  sl_exec (disch := first | exact hc0 | exact hc1)
  sl_step
  iapply Hk
  isplitl [H0]; swap; isplitl [H1]; swap; isplitl [H2]; swap; isplitl [H3]; swap; isplitl [H4]; swap; isplitl [H5]; swap
  isplitl [H6]; swap; isplitl [H7]; swap; isplitl [H8]; swap; isplitl [G0]; swap; isplitl [G1]; swap
  all_goals
    iexists _; isplitr; swap; · first | iexact H0 | iexact H1 | iexact H2 | iexact H3 | iexact H4 | iexact H5 | iexact H6 | iexact H7 | iexact H8 | iexact G0 | iexact G1 | iexact G2
    ipureintro
  iterate 3
    sl_unfold_run_names
    rw [View.read_writes_eq_canon _ _ _ (fun y => ⟨_, List.mem_cons_self, View.mem_set_unit_zero off00 inb_S2000x128_S2000x128_0_0 y⟩), View.canon_cons_unit_zero off00]
    simp only [View.readCov_unit_zero (S := S2000x128) _ off00, View.readAt_eq_ld, Memref.IsWhole.read_unread, View.ld_unit_zero (S := S2000x128) off00, View.ld_unit_zero (S := S2000x1) off00]
    rfl
  all_goals exact Memref.IsWhole.read_unread _ _

set_option maxHeartbeats 4000000 in
-- At a middle point there is one accumulation onto `a`.
theorem run5_mid (a : Acc5 F) (hc0 : ¬isFirst5 i) (hc1 : ¬isLast5 i) (E : Set ℕ) (K : PUnit → sProp 𝕄) :
    iprop(held5 c arg2 arg3 arg4 arg5 arg6 arg7 arg8 arg9 arg10 arg11 arg12 arg13 x0 x1 x2 x3 x4 x5 o6 o7 o8 a.1 a.2.1 a.2.2 ∗ (held5 c arg2 arg3 arg4 arg5 arg6 arg7 arg8 arg9 arg10 arg11 arg12 arg13 x0 x1 x2 x3 x4 x5 o6 o7 o8 (accStep5 i x0 x1 x2 x4 x5 a).1 (accStep5 i x0 x1 x2 x4 x5 a).2.1 (accStep5 i x0 x1 x2 x4 x5 a).2.2 -∗ K ⟨⟩))
      ⊢ wp frame (wpE (defs₀ (F := F)) Variants.none c none) E (cc5__gather_kernel i arg2 harg2 arg3 harg3 arg4 harg4 arg5 harg5 arg6 harg6 arg7 harg7 arg8 harg8 arg9 harg9 arg10 harg10 arg11 harg11 arg12 harg12 arg13 harg13) K := by
  simp only [cc5__gather_kernel_eq_skeleton]; unfold cc5__gather_kernel_skel
  simp only [k5_part1_eq_skeleton]
  unfold held5 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%g0, %hg0, G0⟩, ⟨%g1, %hg1, G1⟩, ⟨%g2, %hg2, G2⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hg0; obtain rfl := harg12.eq_unread hg1; obtain rfl := harg13.eq_unread hg2
  sl_exec (disch := first | exact hc0 | exact hc1)
  sl_step
  iapply Hk
  isplitl [H0]; swap; isplitl [H1]; swap; isplitl [H2]; swap; isplitl [H3]; swap; isplitl [H4]; swap; isplitl [H5]; swap
  isplitl [H6]; swap; isplitl [H7]; swap; isplitl [H8]; swap; isplitl [G0]; swap; isplitl [G1]; swap
  all_goals
    iexists _; isplitr; swap; · first | iexact H0 | iexact H1 | iexact H2 | iexact H3 | iexact H4 | iexact H5 | iexact H6 | iexact H7 | iexact H8 | iexact G0 | iexact G1 | iexact G2
    ipureintro
  iterate 3
    sl_unfold_run_names
    rw [View.read_writes_eq_canon _ _ _ (fun y => ⟨_, List.mem_cons_self, View.mem_set_unit_zero off00 inb_S2000x128_S2000x128_0_0 y⟩), View.canon_cons_unit_zero off00]
    simp only [View.readCov_unit_zero (S := S2000x128) _ off00, View.readAt_eq_ld, Memref.IsWhole.read_unread, View.ld_unit_zero (S := S2000x128) off00, View.ld_unit_zero (S := S2000x1) off00]
    rfl
  all_goals exact Memref.IsWhole.read_unread _ _

set_option maxHeartbeats 4000000 in
-- At a last point there is one accumulation onto `a`, then the three outputs are stored whole.
theorem run5_last (a : Acc5 F) (hc0 : ¬isFirst5 i) (hc1 : isLast5 i) (E : Set ℕ) (K : PUnit → sProp 𝕄) :
    iprop(held5 c arg2 arg3 arg4 arg5 arg6 arg7 arg8 arg9 arg10 arg11 arg12 arg13 x0 x1 x2 x3 x4 x5 o6 o7 o8 a.1 a.2.1 a.2.2 ∗ (held5 c arg2 arg3 arg4 arg5 arg6 arg7 arg8 arg9 arg10 arg11 arg12 arg13 x0 x1 x2 x3 x4 x5 (outE5 (accStep5 i x0 x1 x2 x4 x5 a) x3) (outG5 (accStep5 i x0 x1 x2 x4 x5 a) x3) (outS5 (accStep5 i x0 x1 x2 x4 x5 a) x3) (accStep5 i x0 x1 x2 x4 x5 a).1 (accStep5 i x0 x1 x2 x4 x5 a).2.1 (accStep5 i x0 x1 x2 x4 x5 a).2.2 -∗ K ⟨⟩))
      ⊢ wp frame (wpE (defs₀ (F := F)) Variants.none c none) E (cc5__gather_kernel i arg2 harg2 arg3 harg3 arg4 harg4 arg5 harg5 arg6 harg6 arg7 harg7 arg8 harg8 arg9 harg9 arg10 harg10 arg11 harg11 arg12 harg12 arg13 harg13) K := by
  simp only [cc5__gather_kernel_eq_skeleton]; unfold cc5__gather_kernel_skel
  simp only [k5_part1_eq_skeleton]
  unfold held5 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%f7, -, H7⟩, ⟨%f8, -, H8⟩, ⟨%g0, %hg0, G0⟩, ⟨%g1, %hg1, G1⟩, ⟨%g2, %hg2, G2⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg11.eq_unread hg0; obtain rfl := harg12.eq_unread hg1; obtain rfl := harg13.eq_unread hg2
  sl_exec (disch := first | exact hc0 | exact hc1)
  sl_step
  iapply Hk
  isplitl [H0]; swap; isplitl [H1]; swap; isplitl [H2]; swap; isplitl [H3]; swap; isplitl [H4]; swap; isplitl [H5]; swap
  isplitl [H6]; swap; isplitl [H7]; swap; isplitl [H8]; swap; isplitl [G0]; swap; isplitl [G1]; swap
  all_goals
    iexists _; isplitr; swap; · first | iexact H0 | iexact H1 | iexact H2 | iexact H3 | iexact H4 | iexact H5 | iexact H6 | iexact H7 | iexact H8 | iexact G0 | iexact G1 | iexact G2
    ipureintro
  iterate 6
    sl_unfold_run_names
    rw [View.read_writes_eq_canon _ _ _ (fun y => ⟨_, List.mem_cons_self, View.mem_set_unit_zero off00 inb_S2000x128_S2000x128_0_0 y⟩), View.canon_cons_unit_zero off00]
    simp only [View.readCov_unit_zero (S := S2000x128) _ off00, View.readAt_eq_ld, Memref.IsWhole.read_unread, View.ld_unit_zero (S := S2000x128) off00, View.ld_unit_zero (S := S2000x1) off00]
    rfl
  all_goals exact Memref.IsWhole.read_unread _ _

end Body

variable (V : (c : Dev nD) → (b : Ref sig .tc) → Buf (Elt F) ((c : Thread nD τ).loc b))

-- Window `w`'s block at point `t`, read off its array as the region finds it.
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def stepAt5 (c : Dev nD) (t : Fin cfg5.N) (a : Acc5 F) : Acc5 F :=
  accStep5 (grid5.coords t) (iblk5 V c 0 t) (iblk5 V c 1 t) (iblk5 V c 2 t) (iblk5 V c 4 t) (iblk5 V c 5 t) a

-- The accumulators after point `n`: one accumulation onto zero at the first point of a run of 25, onto what the point before left elsewhere.
def accAt5 (c : Dev nD) : (n : ℕ) → n < cfg5.N → Acc5 F
  | 0, hn => stepAt5 V c ⟨0, hn⟩ accZero5
  | n + 1, hn => stepAt5 V c ⟨n + 1, hn⟩ (if (n + 1) % 25 = 0 then accZero5 else accAt5 c n (Nat.lt_of_succ_lt hn))

theorem accAt5_first (c : Dev nD) (t : Fin cfg5.N) (h : t.val % 25 = 0) :
    accAt5 V c t.val t.isLt = stepAt5 V c t accZero5 := by
  obtain ⟨n, hn⟩ := t
  cases n with
  | zero => rfl
  | succ n => exact congrArg (stepAt5 V c ⟨n + 1, hn⟩) (if_pos h)

theorem accAt5_next (c : Dev nD) (t : Fin cfg5.N) (h : ¬t.val % 25 = 0) :
    accAt5 V c t.val t.isLt = stepAt5 V c t (accAt5 V c (t.val - 1) (Nat.lt_of_le_of_lt (Nat.sub_le _ _) t.isLt)) := by
  obtain ⟨n, hn⟩ := t
  cases n with
  | zero => exact absurd (Nat.zero_mod _) h
  | succ n => exact congrArg (stepAt5 V c ⟨n + 1, hn⟩) (if_neg h)

abbrev scM5_0 : Memref sig .tc .vmem S2000x128 .f32 := Memref.whole cc5_scratch0
abbrev scM5_1 : Memref sig .tc .vmem S2000x128 .f32 := Memref.whole cc5_scratch1
abbrev scM5_2 : Memref sig .tc .vmem S2000x128 .f32 := Memref.whole cc5_scratch2

theorem idle5_out (w : Fin 9) (hw : w = 6 ∨ w = 7 ∨ w = 8) (i : grid5.Coords) (h : ¬isLast5 i) : cfg5.idle w i = true := by
  rcases hw with rfl | rfl | rfl <;> simpa [isLast5] using h

theorem live5_out (w : Fin 9) (hw : w = 6 ∨ w = 7 ∨ w = 8) (i : grid5.Coords) (h : isLast5 i) : cfg5.idle w i = false := by
  rcases hw with rfl | rfl | rfl <;> simpa [isLast5] using h

theorem noFlush5 (t : Fin cfg5.N) (h : ¬t.val % 25 = 24) : (cfg5.win 6).flush t = false ∧ (cfg5.win 7).flush t = false ∧ (cfg5.win 8).flush t = false :=
  ⟨Bool.eq_false_iff.mpr fun hf => h ((flush5_6 t).mp hf), Bool.eq_false_iff.mpr fun hf => h ((flush5_7 t).mp hf), Bool.eq_false_iff.mpr fun hf => h ((flush5_8 t).mp hf)⟩

def rest5 (c : Dev nD) : sProp 𝕄 :=
  Pipeline.scopedRestBut (Ix := Unit) (Name := ℕ) (U := UR sig nD τ) (Lvl := ℕ) (Val := Elt F) spec5 c [cc5_scratch0, cc5_scratch1, cc5_scratch2]

-- The three accumulators owned at `a`, with the remainder of the region's invariant.
def accs5 (c : Dev nD) (a : Acc5 F) : sProp 𝕄 :=
  iprop(iprop(iprop(owns (c : Thread nD τ) scM5_0 fullShare a.1 ∗ owns (c : Thread nD τ) scM5_1 fullShare a.2.1 ∗ owns (c : Thread nD τ) scM5_2 fullShare a.2.2) ∗ rest5 c) ∗ (∃ r, prngReg c r))

theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d) ∗ (∃ d, owns (c : Thread nD τ) scM5_2 fullShare d)) ∗ rest5 c) ∗ (∃ r, prngReg c r)) := by
  unfold Pipeline.ΦA rest5; rw [scopedRest5_split]; simp only [scM5_0, scM5_1, scM5_2, owns_whole]; try rfl

-- The invariant before position `n`: from the second position on, the accumulators hold what the point before left.
def PhiS5 (c : Dev nD) : (n : ℕ) → n ≤ cfg5.N → sProp 𝕄
  | 0, _ => Pipeline.ΦA spec5 c
  | n + 1, hn => accs5 c (accAt5 V c n hn)

theorem PhiS5_pos (c : Dev nD) (n : ℕ) (h : n ≤ cfg5.N) (hz : n ≠ 0) :
    PhiS5 V c n h = accs5 c (accAt5 V c (n - 1) (by omega)) := by
  cases n with
  | zero => exact absurd rfl hz
  | succ n => rfl

-- At any position the accumulators' contents can be forgotten.
theorem PhiS5_forget (c : Dev nD) (n : ℕ) (h : n ≤ cfg5.N) : PhiS5 V c n h ⊢ (Pipeline.ΦA spec5 c : sProp 𝕄) := by
  cases n with
  | zero => exact Entails.refl _
  | succ n =>
    rw [PhiA5_eq]; unfold PhiS5 accs5
    iintro ⟨⟨⟨S0, S1, S2⟩, HR⟩, Hg⟩
    iframe HR Hg
    isplitl [S0]; · iexists _; iexact S0
    isplitl [S1]; · iexists _; iexact S1
    iexists _; iexact S2

def dat5 (V : (c : Dev nD) → (b : Ref sig .tc) → Buf (Elt F) ((c : Thread nD τ).loc b)) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => outE5 (accAt5 V c t.val t.isLt) (iblk5 V c 3 t)
    | ⟨7, _⟩ => outG5 (accAt5 V c t.val t.isLt) (iblk5 V c 3 t)
    | ⟨8, _⟩ => outS5 (accAt5 V c t.val t.isLt) (iblk5 V c 3 t)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem q_full5 (c : Dev nD) : ∀ w, (dat5 V c).q w = fullShare := fun _ => rfl
theorem owed_zero5 (c : Dev nD) : ∀ t, (dat5 V c).owed t = 0 := fun _ => rfl

theorem after5_6 (c : Dev nD) (t : Fin cfg5.N) : (dat5 V c).after 6 t = outE5 (accAt5 V c t.val t.isLt) (iblk5 V c 3 t) := by dsimp only [dat5]
theorem after5_7 (c : Dev nD) (t : Fin cfg5.N) : (dat5 V c).after 7 t = outG5 (accAt5 V c t.val t.isLt) (iblk5 V c 3 t) := by dsimp only [dat5]
theorem after5_8 (c : Dev nD) (t : Fin cfg5.N) : (dat5 V c).after 8 t = outS5 (accAt5 V c t.val t.isLt) (iblk5 V c 3 t) := by dsimp only [dat5]

-- The body only reads its inputs, so each is found at its block.
theorem before5 (c : Dev nD) (t : Fin cfg5.N) :
    (∀ d, (dat5 V c).before 0 t d = iblk5 V c 0 t) ∧ (∀ d, (dat5 V c).before 1 t d = iblk5 V c 1 t) ∧ (∀ d, (dat5 V c).before 2 t d = iblk5 V c 2 t)
      ∧ (∀ d, (dat5 V c).before 3 t d = iblk5 V c 3 t) ∧ (∀ d, (dat5 V c).before 4 t d = iblk5 V c 4 t) ∧ (∀ d, (dat5 V c).before 5 t d = iblk5 V c 5 t) := by
  refine ⟨?_, ?_, ?_, ?_, ?_, ?_⟩ <;>
    exact fun d => ((dat5 V c).before_in_eq_fetched _ rfl (fun _ => rfl) (fun _ _ _ => rfl) (fun _ => rfl) t d).trans rfl

def bodyPre5 (c : Dev nD) (t : Fin cfg5.N) : sProp 𝕄 :=
  iprop(PhiS5 V c t.val (Nat.le_of_lt t.isLt) ∗ (dat5 V c).owesAt () t.castSucc
    ∗ (∃ d, owns (c : Thread nD τ) (win5_0.stage (cfg5.slots t 0)) fullShare ((dat5 V c).before 0 t d))
    ∗ (∃ d, owns (c : Thread nD τ) (win5_1.stage (cfg5.slots t 1)) fullShare ((dat5 V c).before 1 t d))
    ∗ (∃ d, owns (c : Thread nD τ) (win5_2.stage (cfg5.slots t 2)) fullShare ((dat5 V c).before 2 t d))
    ∗ (∃ d, owns (c : Thread nD τ) (win5_3.stage (cfg5.slots t 3)) fullShare ((dat5 V c).before 3 t d))
    ∗ (∃ d, owns (c : Thread nD τ) (win5_4.stage (cfg5.slots t 4)) fullShare ((dat5 V c).before 4 t d))
    ∗ (∃ d, owns (c : Thread nD τ) (win5_5.stage (cfg5.slots t 5)) fullShare ((dat5 V c).before 5 t d))
    ∗ (∃ d, owns (c : Thread nD τ) (win5_6.stage (cfg5.slots t 6)) fullShare ((dat5 V c).before 6 t d))
    ∗ (∃ d, owns (c : Thread nD τ) (win5_7.stage (cfg5.slots t 7)) fullShare ((dat5 V c).before 7 t d))
    ∗ (∃ d, owns (c : Thread nD τ) (win5_8.stage (cfg5.slots t 8)) fullShare ((dat5 V c).before 8 t d)))

def bodyPost5 (c : Dev nD) (t : Fin cfg5.N) : sProp 𝕄 :=
  iprop(accs5 c (accAt5 V c t.val t.isLt) ∗ (dat5 V c).owesAt () t.castSucc
    ∗ owns (c : Thread nD τ) (win5_0.stage (cfg5.slots t 0)) fullShare (iblk5 V c 0 t)
    ∗ owns (c : Thread nD τ) (win5_1.stage (cfg5.slots t 1)) fullShare (iblk5 V c 1 t)
    ∗ owns (c : Thread nD τ) (win5_2.stage (cfg5.slots t 2)) fullShare (iblk5 V c 2 t)
    ∗ owns (c : Thread nD τ) (win5_3.stage (cfg5.slots t 3)) fullShare (iblk5 V c 3 t)
    ∗ owns (c : Thread nD τ) (win5_4.stage (cfg5.slots t 4)) fullShare (iblk5 V c 4 t)
    ∗ owns (c : Thread nD τ) (win5_5.stage (cfg5.slots t 5)) fullShare (iblk5 V c 5 t)
    ∗ (dat5 V c).leavesExact 6 t ∗ (dat5 V c).leavesExact 7 t ∗ (dat5 V c).leavesExact 8 t)

set_option maxHeartbeats 4800000 in
-- The position in the run of 25 says which of the three cases the point is in; at a first point the accumulators' contents are not read.
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  obtain ⟨b0, b1, b2, b3, b4, b5⟩ := before5 V c t
  simp only [b0, b1, b2, b3, b4, b5]
  by_cases h1 : t.val % 25 = 24
  · have h0 : ¬t.val % 25 = 0 := by omega
    have hz : t.val ≠ 0 := fun h => h0 (by rw [h])
    have hL : isLast5 (grid5.coords t) := (isLast5_iff t).mpr h1
    rw [show (dat5 V c).leavesExact 6 t = owns (c : Thread nD τ) (win5_6.stage (cfg5.slots t 6)) fullShare ((dat5 V c).after 6 t) from by
      unfold Dat.leavesExact; rw [live5_out 6 (Or.inl rfl) _ hL], after5_6]
    rw [show (dat5 V c).leavesExact 7 t = owns (c : Thread nD τ) (win5_7.stage (cfg5.slots t 7)) fullShare ((dat5 V c).after 7 t) from by
      unfold Dat.leavesExact; rw [live5_out 7 (Or.inr (Or.inl rfl)) _ hL], after5_7]
    rw [show (dat5 V c).leavesExact 8 t = owns (c : Thread nD τ) (win5_8.stage (cfg5.slots t 8)) fullShare ((dat5 V c).after 8 t) from by
      unfold Dat.leavesExact; rw [live5_out 8 (Or.inr (Or.inr rfl)) _ hL], after5_8]
    rw [accAt5_next V c t h0, PhiS5_pos V c _ _ hz]
    unfold stepAt5 accs5
    iintro ⟨⟨⟨⟨S0, S1, S2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run5_last (iblk5 V c 0 t) (iblk5 V c 1 t) (iblk5 V c 2 t) (iblk5 V c 3 t) (iblk5 V c 4 t) (iblk5 V c 5 t) ((dat5 V c).before 6 t d6) ((dat5 V c).before 7 t d7) ((dat5 V c).before 8 t d8) (accAt5 V c (t.val - 1) (Nat.lt_of_le_of_lt (Nat.sub_le _ _) t.isLt)) (fun h => h0 ((isFirst5_iff t).mp h)) hL Set.univ _)
    unfold held5
    iframe H0 H1 H2 H3 H4 H5 H6 H7 H8 S0 S1 S2
    iintro ⟨H0, H1, H2, H3, H4, H5, H6, H7, H8, S0, S1, S2⟩
    iframe
  · have hL : ¬isLast5 (grid5.coords t) := fun h => h1 ((isLast5_iff t).mp h)
    rw [Dat.leavesExact_idle (dat5 V c) 6 t (idle5_out 6 (Or.inl rfl) _ hL) (noFlush5 t h1).1, Dat.leavesExact_idle (dat5 V c) 7 t (idle5_out 7 (Or.inr (Or.inl rfl)) _ hL) (noFlush5 t h1).2.1,
      Dat.leavesExact_idle (dat5 V c) 8 t (idle5_out 8 (Or.inr (Or.inr rfl)) _ hL) (noFlush5 t h1).2.2]
    by_cases h0 : t.val % 25 = 0
    · rw [accAt5_first V c t h0]
      unfold stepAt5 accs5
      refine (sep_mono_left (PhiS5_forget V c _ _)).trans ?_
      rw [PhiA5_eq]
      iintro ⟨⟨⟨⟨⟨%a0, S0⟩, ⟨%a1, S1⟩, ⟨%a2, S2⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run5_first (iblk5 V c 0 t) (iblk5 V c 1 t) (iblk5 V c 2 t) (iblk5 V c 3 t) (iblk5 V c 4 t) (iblk5 V c 5 t) ((dat5 V c).before 6 t d6) ((dat5 V c).before 7 t d7) ((dat5 V c).before 8 t d8) a0 a1 a2 ((isFirst5_iff t).mpr h0) hL Set.univ _)
      unfold held5
      iframe H0 H1 H2 H3 H4 H5 H6 H7 H8 S0 S1 S2
      iintro ⟨H0, H1, H2, H3, H4, H5, H6, H7, H8, S0, S1, S2⟩
      iframe S0 S1 S2 HR Hg Ho H0 H1 H2 H3 H4 H5
      isplitl [H6]; · iexists _; iexact H6
      isplitl [H7]; · iexists _; iexact H7
      iexists _; iexact H8
    · have hz : t.val ≠ 0 := fun h => h0 (by rw [h])
      rw [accAt5_next V c t h0, PhiS5_pos V c _ _ hz]
      unfold stepAt5 accs5
      iintro ⟨⟨⟨⟨S0, S1, S2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run5_mid (iblk5 V c 0 t) (iblk5 V c 1 t) (iblk5 V c 2 t) (iblk5 V c 3 t) (iblk5 V c 4 t) (iblk5 V c 5 t) ((dat5 V c).before 6 t d6) ((dat5 V c).before 7 t d7) ((dat5 V c).before 8 t d8) (accAt5 V c (t.val - 1) (Nat.lt_of_le_of_lt (Nat.sub_le _ _) t.isLt)) (fun h => h0 ((isFirst5_iff t).mp h)) hL Set.univ _)
      unfold held5
      iframe H0 H1 H2 H3 H4 H5 H6 H7 H8 S0 S1 S2
      iintro ⟨H0, H1, H2, H3, H4, H5, H6, H7, H8, S0, S1, S2⟩
      iframe S0 S1 S2 HR Hg Ho H0 H1 H2 H3 H4 H5
      isplitl [H6]; · iexists _; iexact H6
      isplitl [H7]; · iexists _; iexact H7
      iexists _; iexact H8

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := Entails.refl _

theorem hout5 (c : Dev nD) : (dat5 V c).Φ (Fin.last cfg5.N) ⊢ (Pipeline.ΦA spec5 c : sProp 𝕄) :=
  PhiS5_forget V c _ (Nat.le_of_lt_succ (Fin.last cfg5.N).isLt)

end Cert.Kernel.Hand

end
-- ==== Proof.K.Reg6.lean ====
import proofs.«429521_j46961172414534_2_alg».proof.Proof.Gen.Kernel.Launch
import proofs.«429521_j46961172414534_2_alg».proof.Proof.Gen.Kernel.Skeleton
import proofs.«429521_j46961172414534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev clears6 (i : grid6.Coords) : Prop := (Scalar.cmpi .ne (Scalar.extui (Scalar.cmpi .eq (BitVec.ofNat 32 (i 1).val) 0#32)) 0#32) = 1#1
abbrev emits6 (i : grid6.Coords) : Prop := k6_cond2 i = 1#1

theorem zero2_eq : (![0, 0] : Fin 2 → ℕ) = fun _ => 0 := by
  funext a; fin_cases a <;> rfl

-- The last store, through the whole shape, is what the buffer reads back.
theorem read_of_whole_store {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  subst h
  funext y
  have e := View.read_writes_cons_emb (v := v) (f := f) (Rect.whole S) w L y
  rwa [Rect.emb_whole_apply] at e

set_option maxHeartbeats 1000000 in
-- One run of the body: the sums restart from zero where the first conditional holds, and the output is stored where the second does.
theorem run6 (c : Dev nD) {i : grid6.Coords}
    {m0 m1 : Memref sig .tc .vmem S2000x128 .f32} {m2 : Memref sig .tc .vmem S2000x1 .i32} {m3 m4 m5 m6 : Memref sig .tc .vmem S2000x128 .f32}
    {h0 : m0.IsWhole} {h1 : m1.IsWhole} {h2 : m2.IsWhole} {h3 : m3.IsWhole} {h4 : m4.IsWhole} {h5 : m5.IsWhole} {h6 : m6.IsWhole}
    (x0 x1 : Vec F S2000x128 .f32) (x2 : Vec F S2000x1 .i32) (x3 x4 a0 a1 : Vec F S2000x128 .f32) (hx : ¬(clears6 i ∧ emits6 i)) {E : Set ℕ} {K : PUnit → sProp 𝕄} :
    iprop(owns (c : Thread nD τ) m0 fullShare x0 ∗ owns (c : Thread nD τ) m1 fullShare x1 ∗ owns (c : Thread nD τ) m2 fullShare x2
        ∗ owns (c : Thread nD τ) m3 fullShare x3 ∗ owns (c : Thread nD τ) m4 fullShare x4
        ∗ owns (c : Thread nD τ) m5 fullShare a0 ∗ owns (c : Thread nD τ) m6 fullShare a1
        ∗ (iprop(owns (c : Thread nD τ) m0 fullShare x0 ∗ owns (c : Thread nD τ) m1 fullShare x1 ∗ owns (c : Thread nD τ) m2 fullShare x2
            ∗ owns (c : Thread nD τ) m3 fullShare x3
            ∗ owns (c : Thread nD τ) m4 fullShare (if emits6 i then k6_pay1 x3 (k6_pay5 i x2 x0 (if clears6 i then k6_pay2 else a0))
                (k6_pay6 i x2 x1 (if clears6 i then k6_pay3 else a1)) else x4)
            ∗ owns (c : Thread nD τ) m5 fullShare (k6_pay5 i x2 x0 (if clears6 i then k6_pay2 else a0))
            ∗ owns (c : Thread nD τ) m6 fullShare (k6_pay6 i x2 x1 (if clears6 i then k6_pay3 else a1))) -∗ K ⟨⟩))
      ⊢ wp frame (wpE (defs₀ (F := F)) Variants.none c none) E (cc6__scatter_kernel i m0 h0 m1 h1 m2 h2 m3 h3 m4 h4 m5 h5 m6 h6) K := by
  by_cases hc0 : clears6 i <;> by_cases hc1 : emits6 i
  · exact absurd ⟨hc0, hc1⟩ hx
  all_goals
    first | simp only [eq_false hc0, if_false] | simp only [if_pos hc0]
    first | simp only [eq_false hc1, if_false] | simp only [if_pos hc1]
    simp only [cc6__scatter_kernel_eq_skeleton]; unfold cc6__scatter_kernel_skel
    simp only [k6_part1_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, Hk⟩
    obtain rfl := h0.eq_unread e0; obtain rfl := h1.eq_unread e1; obtain rfl := h2.eq_unread e2; obtain rfl := h3.eq_unread e3
    obtain rfl := h4.eq_unread e4; obtain rfl := h5.eq_unread e5; obtain rfl := h6.eq_unread e6
    sl_exec (disch := first | exact hc0 | exact hc1)
    sl_step
    iapply Hk
    isplitl [H0]; swap; isplitl [H1]; swap; isplitl [H2]; swap; isplitl [H3]; swap; isplitl [H4]; swap; isplitl [H5]; swap
    all_goals
      iexists _; isplitr; swap; iassumption
      ipureintro
      try sl_unfold_run_names
      try rw [read_of_whole_store (S := S2000x128) _ _ zero2_eq]
      simp only [View.readAt_eq_ld, h0.read_unread, h1.read_unread, h2.read_unread, h3.read_unread, h4.read_unread, h5.read_unread,
        h6.read_unread, View.ld_unit_zero (S := S2000x128) zero2_eq, View.ld_unit_zero (S := S2000x1) zero2_eq,
        View.readCov_unit_zero (S := S2000x128) _ zero2_eq]

theorem clears6_iff : ∀ t : Fin cfg6.N, clears6 (grid6.coords t) ↔ t.val % 250 = 0 :=
  (by decide +kernel : ∀ t : Fin grid6.N, clears6 (grid6.coords t) ↔ t.val % 250 = 0)
theorem emits6_iff : ∀ t : Fin cfg6.N, emits6 (grid6.coords t) ↔ t.val % 250 = 249 :=
  (by decide +kernel : ∀ t : Fin grid6.N, emits6 (grid6.coords t) ↔ t.val % 250 = 249)

theorem out_idle6 (t : Fin cfg6.N) (h : ¬emits6 (grid6.coords t)) : cfg6.idle 4 (grid6.coords t) = true := by
  show (!(k6_cond2 (grid6.coords t) == 1#1)) = true
  rw [Bool.not_eq_true', beq_eq_false_iff_ne]; exact h

theorem out_live6 (t : Fin cfg6.N) (h : emits6 (grid6.coords t)) : cfg6.idle 4 (grid6.coords t) = false := by
  show (!(k6_cond2 (grid6.coords t) == 1#1)) = false
  rw [Bool.not_eq_false', beq_iff_eq]; exact h

theorem out_kept6 (t : Fin cfg6.N) (h : ¬t.val % 250 = 249) : (cfg6.win 4).flush t = false :=
  Bool.eq_false_iff.mpr fun hf => h ((flush6_4 t).mp hf)

abbrev buf6_0 (t : Fin cfg6.N) : Memref sig .tc .vmem S2000x128 .f32 := win6_0.stage (cfg6.slots t 0)
abbrev bufWhole6_0 (t : Fin cfg6.N) : (buf6_0 t).IsWhole := hstage6_0 ((cfg6.slots t 0).cast nbuf6_0)
abbrev buf6_1 (t : Fin cfg6.N) : Memref sig .tc .vmem S2000x128 .f32 := win6_1.stage (cfg6.slots t 1)
abbrev bufWhole6_1 (t : Fin cfg6.N) : (buf6_1 t).IsWhole := hstage6_1 ((cfg6.slots t 1).cast nbuf6_1)
abbrev buf6_2 (t : Fin cfg6.N) : Memref sig .tc .vmem S2000x1 .i32 := win6_2.stage (cfg6.slots t 2)
abbrev bufWhole6_2 (t : Fin cfg6.N) : (buf6_2 t).IsWhole := hstage6_2 ((cfg6.slots t 2).cast nbuf6_2)
abbrev buf6_3 (t : Fin cfg6.N) : Memref sig .tc .vmem S2000x128 .f32 := win6_3.stage (cfg6.slots t 3)
abbrev bufWhole6_3 (t : Fin cfg6.N) : (buf6_3 t).IsWhole := hstage6_3 ((cfg6.slots t 3).cast nbuf6_3)
abbrev buf6_4 (t : Fin cfg6.N) : Memref sig .tc .vmem S2000x128 .f32 := win6_4.stage (cfg6.slots t 4)
abbrev bufWhole6_4 (t : Fin cfg6.N) : (buf6_4 t).IsWhole := hstage6_4 ((cfg6.slots t 4).cast nbuf6_4)
abbrev accM6_0 : Memref sig .tc .vmem S2000x128 .f32 := Memref.whole cc6_scratch0
abbrev accM6_1 : Memref sig .tc .vmem S2000x128 .f32 := Memref.whole cc6_scratch1

abbrev others6 (c : Dev nD) : sProp 𝕄 :=
  Pipeline.scopedRestBut (Ix := Unit) (Name := ℕ) (U := UR sig nD τ) (Lvl := ℕ) (Val := Elt F) spec6 c [cc6_scratch0, cc6_scratch1]

-- The region's resources with the two accumulators at `a`.
abbrev held6 (c : Dev nD) (a : Vec F S2000x128 .f32 × Vec F S2000x128 .f32) : sProp 𝕄 :=
  iprop(iprop(iprop(owns (c : Thread nD τ) accM6_0 fullShare a.1 ∗ owns (c : Thread nD τ) accM6_1 fullShare a.2)
      ∗ others6 (F := F) c) ∗ (∃ r, prngReg c r))

theorem regionInv6_eq (c : Dev nD) :
    (Pipeline.ΦA spec6 c : sProp 𝕄)
      = iprop(iprop(iprop((∃ d, owns (c : Thread nD τ) accM6_0 fullShare d) ∗ (∃ d, owns (c : Thread nD τ) accM6_1 fullShare d))
          ∗ others6 (F := F) c) ∗ (∃ r, prngReg c r)) := by
  unfold Pipeline.ΦA; rw [scopedRest6_split]; simp only [accM6_0, accM6_1, owns_whole]; try rfl

-- Forgetting what the accumulators hold gives back the region's entry invariant.
theorem held6_forget (c : Dev nD) (a) : held6 (F := F) c a ⊢ (Pipeline.ΦA spec6 c : sProp 𝕄) := by
  rw [regionInv6_eq]; unfold held6
  iintro ⟨⟨⟨H0, H1⟩, HR⟩, Hg⟩
  iframe HR Hg
  isplitl [H0] <;> iexists _ <;> iassumption

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def step6 (c : Dev nD) (t : Fin cfg6.N) (a : Vec F S2000x128 .f32 × Vec F S2000x128 .f32) : Vec F S2000x128 .f32 × Vec F S2000x128 .f32 :=
  (k6_pay5 (grid6.coords t) (iblk6 V c 2 t) (iblk6 V c 0 t) a.1, k6_pay6 (grid6.coords t) (iblk6 V c 2 t) (iblk6 V c 1 t) a.2)

def acc6 (c : Dev nD) : (n : ℕ) → n < cfg6.N → Vec F S2000x128 .f32 × Vec F S2000x128 .f32
  | 0, hn => step6 V c ⟨0, hn⟩ (k6_pay2, k6_pay3)
  | n + 1, hn => step6 V c ⟨n + 1, hn⟩ (if (n + 1) % 250 = 0 then (k6_pay2, k6_pay3) else acc6 c n (Nat.lt_of_succ_lt hn))

theorem acc6_first (c : Dev nD) (t : Fin cfg6.N) (h : t.val % 250 = 0) :
    acc6 V c t.val t.isLt = step6 V c t (k6_pay2, k6_pay3) := by
  obtain ⟨n, hn⟩ := t
  cases n with
  | zero => rfl
  | succ n => exact congrArg (step6 V c ⟨n + 1, hn⟩) (if_pos h)

theorem acc6_next (c : Dev nD) (t : Fin cfg6.N) (h : t.val % 250 ≠ 0) :
    acc6 V c t.val t.isLt = step6 V c t (acc6 V c (t.val - 1) (Nat.lt_of_le_of_lt (Nat.sub_le _ _) t.isLt)) := by
  obtain ⟨n, hn⟩ := t
  cases n with
  | zero => exact absurd (Nat.zero_mod _) h
  | succ n => exact congrArg (step6 V c ⟨n + 1, hn⟩) (if_neg h)

def Inv6 (c : Dev nD) : (n : ℕ) → n ≤ cfg6.N → sProp 𝕄
  | 0, _ => Pipeline.ΦA spec6 c
  | n + 1, hn => held6 c (acc6 V c n hn)

theorem Inv6_pos (c : Dev nD) (n : ℕ) (h : n ≤ cfg6.N) (hz : n ≠ 0) : Inv6 V c n h = held6 c (acc6 V c (n - 1) (by omega)) := by
  cases n with
  | zero => exact absurd rfl hz
  | succ n => rfl

-- Whatever the point, the accumulators are owned at something.
theorem Inv6_some (c : Dev nD) (n : ℕ) (h : n ≤ cfg6.N) : Inv6 V c n h ⊢ iprop(∃ a, held6 (F := F) c a) := by
  cases n with
  | zero =>
    show (Pipeline.ΦA spec6 c : sProp 𝕄) ⊢ _
    rw [regionInv6_eq]; unfold held6
    iintro ⟨⟨⟨⟨%a0, H0⟩, ⟨%a1, H1⟩⟩, HR⟩, Hg⟩
    iexists (a0, a1); iframe H0 H1 HR Hg
  | succ n => show held6 c (acc6 V c n h) ⊢ _; iintro H; iexists _; iexact H

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => k6_pay1 (iblk6 V c 3 t) (acc6 V c t.val t.isLt).1 (acc6 V c t.val t.isLt).2
  Φ t := Inv6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem q_full6 (c : Dev nD) : ∀ w, (dat6 V c).q w = fullShare := fun _ => rfl
theorem owed_zero6 (c : Dev nD) : ∀ t, (dat6 V c).owed t = 0 := fun _ => rfl

theorem after6_4 (c : Dev nD) (t : Fin cfg6.N) :
    (dat6 V c).after 4 t = k6_pay1 (iblk6 V c 3 t) (acc6 V c t.val t.isLt).1 (acc6 V c t.val t.isLt).2 := by
  dsimp only [dat6]

theorem found6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem found6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem found6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl
theorem found6_3 (c : Dev nD) (t : Fin cfg6.N) (d) : (dat6 V c).before 3 t d = iblk6 V c 3 t :=
  ((dat6 V c).before_in_eq_fetched 3 rfl (fun _ => rfl) (fun _ _ _ => rfl) (fun _ => rfl) t d).trans rfl

set_option maxHeartbeats 1000000 in
-- The body at any point: its edge block says which conditionals hold; the accumulators go from what the point before left (from anything, at the first point of a sweep) to `acc6`.
theorem sound_body6 (c : Dev nD) (t : Fin cfg6.N) :
    iprop(Inv6 V c t.val (Nat.le_of_lt t.isLt) ∗ (dat6 V c).owesAt () t.castSucc
      ∗ (∃ d, owns (c : Thread nD τ) (buf6_0 t) fullShare ((dat6 V c).before 0 t d))
      ∗ (∃ d, owns (c : Thread nD τ) (buf6_1 t) fullShare ((dat6 V c).before 1 t d))
      ∗ (∃ d, owns (c : Thread nD τ) (buf6_2 t) fullShare ((dat6 V c).before 2 t d))
      ∗ (∃ d, owns (c : Thread nD τ) (buf6_3 t) fullShare ((dat6 V c).before 3 t d))
      ∗ (∃ d, owns (c : Thread nD τ) (buf6_4 t) fullShare ((dat6 V c).before 4 t d)))
    ⊢ wp frame (wpE (defs₀ (F := F)) Variants.none c none) Set.univ (bodyAt6 t) (fun _ =>
      iprop(held6 c (acc6 V c t.val t.isLt) ∗ (dat6 V c).owesAt () t.castSucc
        ∗ owns (c : Thread nD τ) (buf6_0 t) fullShare (iblk6 V c 0 t) ∗ owns (c : Thread nD τ) (buf6_1 t) fullShare (iblk6 V c 1 t)
        ∗ owns (c : Thread nD τ) (buf6_2 t) fullShare (iblk6 V c 2 t) ∗ owns (c : Thread nD τ) (buf6_3 t) fullShare (iblk6 V c 3 t)
        ∗ (dat6 V c).leavesExact 4 t)) := by
  unfold bodyAt6
  simp only [found6_0, found6_1, found6_2, found6_3]
  have R := fun a0 a1 d K => run6 (F := F) c (i := grid6.coords t) (h0 := bufWhole6_0 t) (h1 := bufWhole6_1 t) (h2 := bufWhole6_2 t)
    (h3 := bufWhole6_3 t) (h4 := bufWhole6_4 t) (m5 := accM6_0) (h5 := Memref.isWhole_whole _) (m6 := accM6_1) (h6 := Memref.isWhole_whole _)
    (E := Set.univ) (K := K) (iblk6 V c 0 t) (iblk6 V c 1 t) (iblk6 V c 2 t) (iblk6 V c 3 t) ((dat6 V c).before 4 t d) a0 a1
    (fun h => by have := (clears6_iff t).mp h.1; have := (emits6_iff t).mp h.2; omega)
  have hlt : t.val - 1 < cfg6.N := by omega
  by_cases h0 : t.val % 250 = 0
  on_goal 2 => by_cases h1 : t.val % 250 = 249
  on_goal 1 =>
    have h1 : ¬t.val % 250 = 249 := by omega
    have hc1 := fun h => h1 ((emits6_iff t).mp h)
    simp only [if_pos ((clears6_iff t).mpr h0), if_neg hc1] at R
    rw [Dat.leavesExact_idle (dat6 V c) 4 t (out_idle6 t hc1) (out_kept6 t h1), acc6_first V c t h0]
    refine ((sep_mono_left (Inv6_some V c _ _)).trans sep_exists_right.1).trans (exists_elim fun a => ?_)
  on_goal 2 =>
    have hc0 := fun h => h0 ((clears6_iff t).mp h)
    simp only [if_neg hc0, if_pos ((emits6_iff t).mpr h1)] at R
    rw [show (dat6 V c).leavesExact 4 t = owns (c : Thread nD τ) (buf6_4 t) fullShare ((dat6 V c).after 4 t) from by
      unfold Dat.leavesExact; rw [out_live6 t ((emits6_iff t).mpr h1)], after6_4, acc6_next V c t h0, Inv6_pos V c _ _ (fun e => h0 (by rw [e]))]
    generalize acc6 V c (t.val - 1) hlt = a
  on_goal 3 =>
    have hc0 := fun h => h0 ((clears6_iff t).mp h)
    have hc1 := fun h => h1 ((emits6_iff t).mp h)
    simp only [if_neg hc0, if_neg hc1] at R
    rw [Dat.leavesExact_idle (dat6 V c) 4 t (out_idle6 t hc1) (out_kept6 t h1), acc6_next V c t h0, Inv6_pos V c _ _ (fun e => h0 (by rw [e]))]
    generalize acc6 V c (t.val - 1) hlt = a
  all_goals
    unfold held6; dsimp only [step6]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (R a.1 a.2 d4 _)
    iframe H0 H1 H2 H3 H4 HS0 HS1
    iintro ⟨H0, H1, H2, H3, H4, HS0, HS1⟩
    iframe HS0 HS1 HR Hg Ho H0 H1 H2 H3
    first | iexact H4 | (iexists _; iexact H4)

theorem body_obligation6 (c : Dev nD) : BodyObligation (dat6 (F := F) V c) (defs₀ (F := F)) Variants.none () Set.univ := fun t => by
  rw [bigSep_W6, bigSep_W6]
  exact sound_body6 V c t

theorem hin6 (c : Dev nD) : (Pipeline.ΦA spec6 c : sProp 𝕄) ⊢ (dat6 V c).Φ 0 := Idealize.SL.BI.Entails.refl _

theorem hout6 (c : Dev nD) : (dat6 V c).Φ (Fin.last cfg6.N) ⊢ (Pipeline.ΦA spec6 c : sProp 𝕄) := by
  have hN : (Fin.last cfg6.N).val ≠ 0 := by rw [Fin.val_last]; have : cfg6.N = 6250 := N_6; omega
  rw [show (dat6 V c).Φ (Fin.last cfg6.N) = Inv6 V c (Fin.last cfg6.N).val (Nat.le_of_lt_succ (Fin.last cfg6.N).isLt) from rfl,
    Inv6_pos V c _ _ hN]
  exact held6_forget c _

end Cert.Kernel.Hand

end
-- ==== Proof.K.Reg7.lean ====
import proofs.«429521_j46961172414534_2_alg».proof.Proof.Gen.Kernel.Launch
import proofs.«429521_j46961172414534_2_alg».proof.Proof.Gen.Kernel.Skeleton
import proofs.«429521_j46961172414534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev tall7 : Rect S2000x128 := Rect.unit (s := S2000x128) ![0, 0] S2000x128.size inb_S2000x128_S2000x128_0_0
abbrev flat7 : Rect S1x128 := Rect.unit (s := S1x128) ![0, 0] S1x128.size inb_S1x128_S1x128_0_0

def out7_6 (x orig : Vec F S2000x128 .f32) (mu var gam bet : Vec F S1x128 .f32) : Vec F S2000x128 .f32 :=
  View.canon [⟨tall7, k7_pay1 (View.ld x tall7) (View.ld mu flat7) (View.ld var flat7) (View.ld gam flat7) (View.ld bet flat7)
    (View.ld orig tall7)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := rfl

theorem q_full7 (c : Dev nD) : ∀ w, (dat7 V c).q w = fullShare := fun _ => rfl

theorem owed_zero7 (c : Dev nD) : ∀ t, (dat7 V c).owed t = 0 := fun _ => rfl

theorem after7_6 (c : Dev nD) (t : Fin cfg7.N) : (dat7 V c).after 6 t =
    out7_6 (iblk7 V c 0 t) (iblk7 V c 1 t) (iblk7 V c 2 t) (iblk7 V c 3 t) (iblk7 V c 4 t) (iblk7 V c 5 t) := by
  dsimp only [dat7]

theorem before7 (c : Dev nD) (t : Fin cfg7.N) :
    (∀ d, (dat7 V c).before 0 t d = iblk7 V c 0 t) ∧ (∀ d, (dat7 V c).before 1 t d = iblk7 V c 1 t)
    ∧ (∀ d, (dat7 V c).before 2 t d = iblk7 V c 2 t) ∧ (∀ d, (dat7 V c).before 3 t d = iblk7 V c 3 t)
    ∧ (∀ d, (dat7 V c).before 4 t d = iblk7 V c 4 t) ∧ (∀ d, (dat7 V c).before 5 t d = iblk7 V c 5 t) := by
  refine ⟨?_, ?_, ?_, ?_, ?_, ?_⟩ <;> exact fun d =>
    (dat7 V c).before_in_eq_fetched _ rfl (fun _ => rfl) (fun _ _ _ => rfl) (fun _ => rfl) t d

set_option maxHeartbeats 1000000 in
-- The six inputs are returned unchanged; the output is the single store, which covers the whole block.
theorem body_obligation7 (c : Dev nD) : BodyObligation (dat7 (F := F) V c) (defs₀ (F := F)) Variants.none () Set.univ := fun t => by
  rw [bigSep_W7, bigSep_W7]
  simp only [before7 V c t]
  rw [show (dat7 V c).Φ t.succ = (dat7 V c).Φ t.castSucc from rfl,
    show (dat7 V c).owesAt () t.succ = (dat7 V c).owesAt () t.castSucc from rfl]
  show _ ⊢ wp frame _ _ (bodyAt7 t) _
  unfold bodyAt7
  rw [cc7__bn_relu_residual_kernel_eq_skeleton]; unfold cc7__bn_relu_residual_kernel_skel owns
  iintro ⟨Inv, Debt, ⟨%d1, %g1, %e1, B1⟩, ⟨%d2, %g2, %e2, B2⟩, ⟨%d3, %g3, %e3, B3⟩, ⟨%d4, %g4, %e4, B4⟩, ⟨%d5, %g5, %e5, B5⟩,
    ⟨%d6, %g6, %e6, B6⟩, ⟨%d7, %g7, -, B7⟩⟩
  sl_exec
  sl_step
  iframe Inv Debt
  isplitl [B1]; · iexists g1; isplitr; · ipureintro; exact e1
                  iexact B1
  isplitl [B2]; · iexists g2; isplitr; · ipureintro; exact e2
                  iexact B2
  isplitl [B3]; · iexists g3; isplitr; · ipureintro; exact e3
                  iexact B3
  isplitl [B4]; · iexists g4; isplitr; · ipureintro; exact e4
                  iexact B4
  isplitl [B5]; · iexists g5; isplitr; · ipureintro; exact e5
                  iexact B5
  isplitl [B6]; · iexists g6; isplitr; · ipureintro; exact e6
                  iexact B6
  iexists _
  isplitr
  rotate_left
  · iexact B7
  ipureintro
  rw [after7_6, ← e1, ← e2, ← e3, ← e4, ← e5, ← e6]
  exact View.read_writes_eq_canon _ _ _ (View.cover_of_tiled _ S2000x128.size (by rfl))

theorem hin7 (c : Dev nD) : (Pipeline.ΦA spec7 c : sProp 𝕄) ⊢ (dat7 V c).Φ 0 := Entails.refl _
theorem hout7 (c : Dev nD) : (dat7 V c).Φ (Fin.last cfg7.N) ⊢ (Pipeline.ΦA spec7 c : sProp 𝕄) := Entails.refl _

end Cert.Kernel.Hand

end
-- ==== Proof.K.Reg8.lean ====
import proofs.«429521_j46961172414534_2_alg».proof.Proof.K.Reg7

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev tall8 : Rect S5000x128 := Rect.unit (s := S5000x128) ![0, 0] S5000x128.size inb_S5000x128_S5000x128_0_0

def out8_6 (x orig : Vec F S5000x128 .f32) (mu var gam bet : Vec F S1x128 .f32) : Vec F S5000x128 .f32 :=
  View.canon [⟨tall8, k8_pay1 (View.ld x tall8) (View.ld mu flat7) (View.ld var flat7) (View.ld gam flat7) (View.ld bet flat7)
    (View.ld orig tall8)⟩]

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (c : Dev nD) (w : Fin cfg8.W) : (dat8 V c).A w = V c (Pipeline.arrRef spec8 w) := rfl

theorem q_full8 (c : Dev nD) : ∀ w, (dat8 V c).q w = fullShare := fun _ => rfl

theorem owed_zero8 (c : Dev nD) : ∀ t, (dat8 V c).owed t = 0 := fun _ => rfl

theorem after8_6 (c : Dev nD) (t : Fin cfg8.N) : (dat8 V c).after 6 t =
    out8_6 (iblk8 V c 0 t) (iblk8 V c 1 t) (iblk8 V c 2 t) (iblk8 V c 3 t) (iblk8 V c 4 t) (iblk8 V c 5 t) := by
  dsimp only [dat8]

theorem before8 (c : Dev nD) (t : Fin cfg8.N) :
    (∀ d, (dat8 V c).before 0 t d = iblk8 V c 0 t) ∧ (∀ d, (dat8 V c).before 1 t d = iblk8 V c 1 t)
    ∧ (∀ d, (dat8 V c).before 2 t d = iblk8 V c 2 t) ∧ (∀ d, (dat8 V c).before 3 t d = iblk8 V c 3 t)
    ∧ (∀ d, (dat8 V c).before 4 t d = iblk8 V c 4 t) ∧ (∀ d, (dat8 V c).before 5 t d = iblk8 V c 5 t) := by
  refine ⟨?_, ?_, ?_, ?_, ?_, ?_⟩ <;> exact fun d =>
    (dat8 V c).before_in_eq_fetched _ rfl (fun _ => rfl) (fun _ _ _ => rfl) (fun _ => rfl) t d

set_option maxHeartbeats 1000000 in
-- The six inputs are returned unchanged; the output is the single store, which covers the whole block.
theorem body_obligation8 (c : Dev nD) : BodyObligation (dat8 (F := F) V c) (defs₀ (F := F)) Variants.none () Set.univ := fun t => by
  rw [bigSep_W8, bigSep_W8]
  simp only [before8 V c t]
  rw [show (dat8 V c).Φ t.succ = (dat8 V c).Φ t.castSucc from rfl,
    show (dat8 V c).owesAt () t.succ = (dat8 V c).owesAt () t.castSucc from rfl]
  show _ ⊢ wp frame _ _ (bodyAt8 t) _
  unfold bodyAt8
  rw [cc8__bn_relu_residual_kernel_eq_skeleton]; unfold cc8__bn_relu_residual_kernel_skel owns
  iintro ⟨Inv, Debt, ⟨%d1, %g1, %e1, B1⟩, ⟨%d2, %g2, %e2, B2⟩, ⟨%d3, %g3, %e3, B3⟩, ⟨%d4, %g4, %e4, B4⟩, ⟨%d5, %g5, %e5, B5⟩,
    ⟨%d6, %g6, %e6, B6⟩, ⟨%d8, %g8, -, B8⟩⟩
  sl_exec
  sl_step
  iframe Inv Debt
  isplitl [B1]; · iexists g1; isplitr; · ipureintro; exact e1
                  iexact B1
  isplitl [B2]; · iexists g2; isplitr; · ipureintro; exact e2
                  iexact B2
  isplitl [B3]; · iexists g3; isplitr; · ipureintro; exact e3
                  iexact B3
  isplitl [B4]; · iexists g4; isplitr; · ipureintro; exact e4
                  iexact B4
  isplitl [B5]; · iexists g5; isplitr; · ipureintro; exact e5
                  iexact B5
  isplitl [B6]; · iexists g6; isplitr; · ipureintro; exact e6
                  iexact B6
  iexists _
  isplitr
  rotate_left
  · iexact B8
  ipureintro
  rw [after8_6, ← e1, ← e2, ← e3, ← e4, ← e5, ← e6]
  exact View.read_writes_eq_canon _ _ _ (View.cover_of_tiled _ S5000x128.size (by rfl))

theorem hin8 (c : Dev nD) : (Pipeline.ΦA spec8 c : sProp 𝕄) ⊢ (dat8 V c).Φ 0 := Entails.refl _
theorem hout8 (c : Dev nD) : (dat8 V c).Φ (Fin.last cfg8.N) ⊢ (Pipeline.ΦA spec8 c : sProp 𝕄) := Entails.refl _

end Cert.Kernel.Hand

end
-- ==== Proof.K.Run.lean ====
import proofs.«429521_j46961172414534_2_alg».proof.Proof.K.RegLin
import proofs.«429521_j46961172414534_2_alg».proof.Proof.K.Reg5
import proofs.«429521_j46961172414534_2_alg».proof.Proof.K.Reg6
import proofs.«429521_j46961172414534_2_alg».proof.Proof.K.Reg7
import proofs.«429521_j46961172414534_2_alg».proof.Proof.K.Reg8
import proofs.«429521_j46961172414534_2_alg».proof.Proof.Gen.Kernel.Regions

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem foldl_update_eq {α : Type} [DecidableEq α] {β : α → Type} (g : ∀ a, β a) :
    ∀ (l : List α) (f : ∀ a, β a), (∀ b, b ∉ l → f b = g b) → l.foldl (fun f a => Function.update f a (g a)) f = g
  | [], f, h => funext fun b => h b List.not_mem_nil
  | a :: l, f, h => foldl_update_eq g l _ fun b hb => by
    by_cases e : b = a
    · subst e; exact Function.update_self ..
    · exact (Function.update_of_ne e ..).trans (h b fun hm => (List.mem_cons.mp hm).elim e hb)

abbrev atTc (W : Dev nD → Valuation τ sig (Elt F)) (c : Dev nD) (b : Ref sig .tc) : Buf (Elt F) ((c : Thread nD τ).loc b) := W c b

def exitOf {cfg : Cfg sig Λ₀} (D : (c : Dev nD) → Dat τ (Elt F) Unit ℕ (UR sig nD τ) ℕ cfg c)
    (V : Dev nD → Valuation τ sig (Elt F)) (c : Dev nD) : Valuation τ sig (Elt F) :=
  Pipeline.withArrays cfg.spec c (V c) fun w => (D c).arrAt w cfg.N

theorem exit_eq {cfg : Cfg sig Λ₀} (D : (c : Dev nD) → Dat τ (Elt F) Unit ℕ (UR sig nD τ) ℕ cfg c) (hw : Pipeline.WinFacts cfg.spec)
    {V : Dev nD → Valuation τ sig (Elt F)} (c : Dev nD) {V' : Valuation τ sig (Elt F)} (hV : V' = V c)
    (hA : ∀ w, (D c).A w = V c (Pipeline.arrRef cfg.spec w)) (os : List (Fin cfg.W)) (hin : ∀ w, w ∉ os → (cfg.win w).isOut = false) :
    (os.map fun o => Proc.devRef .tc (Pipeline.arrRef cfg.spec o)).foldl (fun f a => Function.update f a (exitOf D V c a)) V' = exitOf D V c := by
  subst hV
  refine foldl_update_eq _ _ _ fun b hb => ?_
  unfold exitOf
  by_cases h : ∃ w, Proc.devRef .tc (Pipeline.arrRef cfg.spec w) = b
  · obtain ⟨w, rfl⟩ := h
    rw [Pipeline.withArrays_arr _ hw.arr_inj, (D c).arrAt_in w (hin w fun h => hb (List.mem_map_of_mem h)), hA]
  · unfold Pipeline.withArrays
    rw [dif_neg h]

variable (m : (ℓ : Loc nD τ sig) → Buf (Elt F) ℓ)

def W0 (c : Dev nD) : Valuation τ sig (Elt F) := fun b => m (c, b)
noncomputable def W1 (c : Dev nD) := StableHlo.after hostOps0 (W0 m c)
def W2 := exitOf (dat0 (atTc (W1 m))) (W1 m)
def W3 (c : Dev nD) := StableHlo.after hostOps1 (W2 m c)
def W4 := exitOf (dat1 (atTc (W3 m))) (W3 m)
def W5 (c : Dev nD) := StableHlo.after hostOps2 (W4 m c)
def W6 := exitOf (dat2 (atTc (W5 m))) (W5 m)
def W7 (c : Dev nD) := StableHlo.after hostOps3 (W6 m c)
def W8 := exitOf (dat3 (atTc (W7 m))) (W7 m)
def W9 (c : Dev nD) := StableHlo.after hostOps4 (W8 m c)
def W10 := exitOf (dat4 (atTc (W9 m))) (W9 m)
def W11 := exitOf (dat5 (atTc (W10 m))) (W10 m)
def W12 := exitOf (dat6 (atTc (W11 m))) (W11 m)
def W13 (c : Dev nD) := StableHlo.after hostOps7 (W12 m c)
def W14 (c : Dev nD) := StableHlo.after hostOps7_1 (W13 m c)
def W15 (c : Dev nD) := StableHlo.after hostOps7_2 (W14 m c)
def W16 := exitOf (dat7 (atTc (W15 m))) (W15 m)
def W17 (c : Dev nD) := StableHlo.after hostOps8 (W16 m c)
def W18 (c : Dev nD) := StableHlo.after hostOps8_1 (W17 m c)
def W19 (c : Dev nD) := StableHlo.after hostOps8_2 (W18 m c)
def W20 := exitOf (dat8 (atTc (W19 m))) (W19 m)

def Wb : ℕ → Dev nD → Valuation τ sig (Elt F)
  | 0 => W0 m | 1 => W1 m | 2 => W2 m | 3 => W3 m | 4 => W4 m | 5 => W5 m | 6 => W6 m | 7 => W7 m | 8 => W8 m
  | 9 => W9 m | 10 => W10 m | 11 => W11 m | 12 => W12 m | 13 => W13 m | 14 => W14 m | 15 => W15 m | 16 => W16 m
  | 17 => W17 m | 18 => W18 m | 19 => W19 m | _ => W20 m

def outsH : Outs (F := F) := fun J r c => Wb m J c r

theorem hV1 (c : Dev nD) : V1 m c = W1 m c := rfl
theorem hV2 (c : Dev nD) : V2 m (outsH m) c = W2 m c := exit_eq _ launch0.win c (hV1 m c) (A_eq0 _ c) [3] (by decide)
theorem hV3 (c : Dev nD) : V3 m (outsH m) c = W3 m c := congrArg (StableHlo.after hostOps1) (hV2 m c)
theorem hV4 (c : Dev nD) : V4 m (outsH m) c = W4 m c := exit_eq _ launch1.win c (hV3 m c) (A_eq1 _ c) [3] (by decide)
theorem hV5 (c : Dev nD) : V5 m (outsH m) c = W5 m c := congrArg (StableHlo.after hostOps2) (hV4 m c)
theorem hV6 (c : Dev nD) : V6 m (outsH m) c = W6 m c := exit_eq _ launch2.win c (hV5 m c) (A_eq2 _ c) [3] (by decide)
theorem hV7 (c : Dev nD) : V7 m (outsH m) c = W7 m c := congrArg (StableHlo.after hostOps3) (hV6 m c)
theorem hV8 (c : Dev nD) : V8 m (outsH m) c = W8 m c := exit_eq _ launch3.win c (hV7 m c) (A_eq3 _ c) [3] (by decide)
theorem hV9 (c : Dev nD) : V9 m (outsH m) c = W9 m c := congrArg (StableHlo.after hostOps4) (hV8 m c)
theorem hV10 (c : Dev nD) : V10 m (outsH m) c = W10 m c := exit_eq _ launch4.win c (hV9 m c) (A_eq4 _ c) [3] (by decide)
theorem hV11 (c : Dev nD) : V11 m (outsH m) c = W11 m c := exit_eq _ launch5.win c (hV10 m c) (A_eq5 _ c) [6, 7, 8] (by decide)
theorem hV12 (c : Dev nD) : V12 m (outsH m) c = W12 m c := exit_eq _ launch6.win c (hV11 m c) (A_eq6 _ c) [4] (by decide)
theorem hV15 (c : Dev nD) : V15 m (outsH m) c = W15 m c :=
  congrArg (fun V => StableHlo.after hostOps7_2 (StableHlo.after hostOps7_1 (StableHlo.after hostOps7 V))) (hV12 m c)
theorem hV16 (c : Dev nD) : V16 m (outsH m) c = W16 m c := exit_eq _ launch7.win c (hV15 m c) (A_eq7 _ c) [6] (by decide)
theorem hV19 (c : Dev nD) : V19 m (outsH m) c = W19 m c :=
  congrArg (fun V => StableHlo.after hostOps8_2 (StableHlo.after hostOps8_1 (StableHlo.after hostOps8 V))) (hV16 m c)
theorem hV20 (c : Dev nD) : V20 m (outsH m) c = W20 m c := exit_eq _ launch8.win c (hV19 m c) (A_eq8 _ c) [6] (by decide)

abbrev Ride (c : Dev nD) : sProp 𝕄 :=
  iprop((∃ r, prngReg c r) ∗ ∃ W, owes (c : Thread nD τ) (0 : CellTallies nD τ sig Unit) W)

abbrev St (W : Dev nD → Valuation τ sig (Elt F)) (c : Dev nD) : sProp 𝕄 :=
  iprop(StableHlo.held (c : Thread nD τ) (Pipeline.ucRefs τ sig) (W c) ∗ Ride c)
abbrev Lnone : GSem nD τ sig → Finset Unit := fun _ => ∅
abbrev lv0 : GSem nD τ sig → Unit → ℕ := fun _ _ => 0

set_option backward.isDefEq.respectTransparency.types false in

def regionOf (pdats : (p : Fin 9) → (c : Dev nD) → Dat τ (Elt F) Unit ℕ (UR sig nD τ) ℕ (cfgs p) c)
    (p : Fin 9) (lf : Pipeline.LaunchFacts (nD := nD) (τ := τ) cfgs p)
    {Wen' Wen Wex : Dev nD → Valuation τ sig (Elt F)} (hWen : ∀ c, Wen' c = Wen c) (hWex : ∀ c, Wex c = exitOf (pdats p) Wen c)
    (hbody : ∀ c, BodyObligation (pdats p c) (defs₀ (F := F)) Variants.none () Set.univ)
    (hq : ∀ c w, (pdats p c).q w = fullShare)
    (howed : ∀ c t, (pdats p c).owed t = 0)
    (hrec : ∀ c x, x ∈ (pdats p c).recorded 0)
    (hA : ∀ c w, (pdats p c).A w = atTc Wen c (Pipeline.arrRef (cfgs p).spec w))
    (hΦin : ∀ c, (Pipeline.ΦA (cfgs p).spec c : sProp 𝕄) ⊢ (pdats p c).Φ 0)
    (hΦout : ∀ c, (pdats p c).Φ (Fin.last (cfgs p).N) ⊢ (Pipeline.ΦA (cfgs p).spec c : sProp 𝕄)) :
    Pipeline.RegionSeg (pcfgs (F := F)) adm pdats () defs₀ Variants.none Lnone lv0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ Lnone lv0 p howed
  pre := St Wen'
  post := St Wex
  X c := iprop(∃ r, prngReg c r)
  Y c := iprop(∃ r, prngReg c r)
  Z c := Pipeline.unscopedRest (cfgs p).spec c (atTc Wen c)
  hentry c := by
    obtain rfl : Wen' = Wen := funext hWen
    rw [Pipeline.ownSems0_none]
    have hsplit := Pipeline.arrays_of_unscopedBufs (p := p) (pcfgs (F := F)) adm pdats lf.win lf.arr_whole c
      ((pdats p c).share_full (hq c)) (atTc _ c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl (hrec c x)
      iexact HO
    isplitl [Hp]; · iexact Hp
    iexact Hrest
  hin c := by
    refine (?_ : _ ⊢ (Pipeline.ΦA (cfgs p).spec c : sProp 𝕄)).trans (hΦin c)
    unfold Pipeline.ΦA
    iintro ⟨Hp, -, Hr⟩
    isplitl [Hr]; · iexact Hr
    iexact Hp
  hout c := by
    rw [Pipeline.ownSems0_none]
    refine (hΦout c).trans ?_
    unfold Pipeline.ΦA
    iintro ⟨Hr, Hp⟩
    isplitl [Hp]; · iexact Hp
    isplitr; · iempintro
    iexact Hr
  hexit c := by
    obtain rfl : Wex = exitOf (pdats p) Wen := funext hWex
    have hjoin := Pipeline.unscopedBufs_of_arrays (p := p) (pcfgs (F := F)) adm
      lf.win lf.arr_whole c pdats ((pdats p c).share_full (hq c)) (atTc Wen c) (atTc (exitOf (pdats p) Wen) c) ((pdats p c).arrAt · (cfgs p).N)
      (fun w => (Pipeline.withArrays_arr _ lf.win.arr_inj c (Wen c) ((pdats p c).arrAt · (cfgs p).N) w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def pdats : (p : Fin 9) → (c : Dev nD) → Dat τ (Elt F) Unit ℕ (UR sig nD τ) ℕ (cfgs p) c
  | ⟨0, _⟩ => dat0 (atTc (W1 m))
  | ⟨1, _⟩ => dat1 (atTc (W3 m))
  | ⟨2, _⟩ => dat2 (atTc (W5 m))
  | ⟨3, _⟩ => dat3 (atTc (W7 m))
  | ⟨4, _⟩ => dat4 (atTc (W9 m))
  | ⟨5, _⟩ => dat5 (atTc (W10 m))
  | ⟨6, _⟩ => dat6 (atTc (W11 m))
  | ⟨7, _⟩ => dat7 (atTc (W15 m))
  | ⟨8, _⟩ => dat8 (atTc (W19 m))

def regs : (p : Fin 9) → Pipeline.RegionSeg (pcfgs (F := F)) adm (pdats m) () defs₀ Variants.none Lnone lv0 p
  | ⟨0, _⟩ => regionOf _ 0 launch0 (hV1 m) (hV2 m) (body_obligation0 _) (q_full0 _) (owed_zero0 _) (fun _ _ => trivial) (A_eq0 _) (hin0 _) (hout0 _)
  | ⟨1, _⟩ => regionOf _ 1 launch1 (hV3 m) (hV4 m) (body_obligation1 _) (q_full1 _) (owed_zero1 _) (fun _ _ => trivial) (A_eq1 _) (hin1 _) (hout1 _)
  | ⟨2, _⟩ => regionOf _ 2 launch2 (hV5 m) (hV6 m) (body_obligation2 _) (q_full2 _) (owed_zero2 _) (fun _ _ => trivial) (A_eq2 _) (hin2 _) (hout2 _)
  | ⟨3, _⟩ => regionOf _ 3 launch3 (hV7 m) (hV8 m) (body_obligation3 _) (q_full3 _) (owed_zero3 _) (fun _ _ => trivial) (A_eq3 _) (hin3 _) (hout3 _)
  | ⟨4, _⟩ => regionOf _ 4 launch4 (hV9 m) (hV10 m) (body_obligation4 _) (q_full4 _) (owed_zero4 _) (fun _ _ => trivial) (A_eq4 _) (hin4 _) (hout4 _)
  | ⟨5, _⟩ => regionOf _ 5 launch5 (hV10 m) (hV11 m) (body_obligation5 _) (q_full5 _) (owed_zero5 _) (fun _ _ => trivial) (A_eq5 _) (hin5 _) (hout5 _)
  | ⟨6, _⟩ => regionOf _ 6 launch6 (hV11 m) (hV12 m) (body_obligation6 _) (q_full6 _) (owed_zero6 _) (fun _ _ => trivial) (A_eq6 _) (hin6 _) (hout6 _)
  | ⟨7, _⟩ => regionOf _ 7 launch7 (hV15 m) (hV16 m) (body_obligation7 _) (q_full7 _) (owed_zero7 _) (fun _ _ => trivial) (A_eq7 _) (hin7 _) (hout7 _)
  | ⟨8, _⟩ => regionOf _ 8 launch8 (hV19 m) (hV20 m) (body_obligation8 _) (q_full8 _) (owed_zero8 _) (fun _ _ => trivial) (A_eq8 _) (hin8 _) (hout8 _)

theorem launch_elt (u : UR sig nD τ) :
    (ownU u : sProp 𝕄) ⊢ |={Set.univ}=> iprop(BI.own (emb₁ u) ∗ bigSep Finset.univ fun _ : Dev nD => (BI.emp : sProp 𝕄)) := by
  rw [ownU_emb₁, BI.bigSep_emp_const]
  iintro Hu; imodintro
  isplitl [Hu]; · iexact Hu
  iempintro

theorem ride_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts Lnone lv0)
      ⊢ (|={Set.univ}=> bigSep Finset.univ (fun c : Dev nD => Ride c) : sProp 𝕄) := by
  refine Pipeline.initEach Lnone lv0 fun c => ?_
  iintro ⟨⟨-, HO, -, Hp, -⟩, -⟩
  imodintro
  isplitl [Hp]; · iexists _; iexact Hp
  iexists ∅; iexact HO

set_option backward.isDefEq.respectTransparency.types false in
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_cond m emb₁ () Variants.none Lnone lv0 (fun _ _ => rfl) ρ (outsH m) (pdats m) 0 (fun _ => iprop(emp)) _ (launch_elt _)
    (fun _ c => Ride c) (ride_init ρ) (fun c => by iintro ⟨-, H⟩; iexact H)
    (regs m 0) (fun _ => .rfl) (fun _ => .rfl) (regs m 1) (fun _ => .rfl) (fun _ => .rfl) (regs m 2) (fun _ => .rfl) (fun _ => .rfl)
    (regs m 3) (fun _ => .rfl) (fun _ => .rfl) (regs m 4) (fun _ => .rfl) (fun _ => .rfl) (regs m 5) (fun _ => .rfl) (fun _ => .rfl)
    (regs m 6) (fun _ => .rfl) (fun _ => .rfl) (regs m 7) (fun _ => .rfl) (fun _ => .rfl) (regs m 8) (fun _ => .rfl) (fun _ => .rfl)

end Cert.Kernel.Hand

end
-- ==== Proof.KI.RegLin.lean ====
import proofs.«429521_j46961172414534_2_alg».proof.Proof.Gen.KernelIdeal.Launch
import proofs.«429521_j46961172414534_2_alg».proof.Proof.Gen.KernelIdeal.Skeleton
import proofs.«429521_j46961172414534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation arrRef ΦA)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Every index of the block lies in the part that is moved, so refilling the block from its own cut gives it back.
theorem before_eq_after {cfg : Cfg sig Λ₀} {c : Dev nD} (dat : Dat τ (Elt F) Unit ℕ (UR sig nD τ) ℕ cfg c) (w : Fin cfg.W)
    (hk : ∀ t, (cfg.win w).cut (cfg.grid.coords t) (dat.after w t) = dat.blockOf w t := by exact fun _ => rfl)
    (hw : (cfg.win w).isOut = false := by rfl) (hl : ∀ i, cfg.idle w i = false := by exact fun _ => rfl)
    (hu : ∀ i j, (cfg.win w).moved i j = true := by exact fun _ _ => rfl)
    (hc : ∀ t t' : Fin cfg.N, (cfg.win w).index t = (cfg.win w).index t' →
      (cfg.win w).clip (cfg.grid.coords t) = (cfg.win w).clip (cfg.grid.coords t') := by exact fun _ _ _ => rfl)
    (t : Fin cfg.N) (d) : dat.before w t d = dat.after w t := by
  rw [dat.before_in_eq_fetched w hw hl hc hk]
  unfold Dat.fetched
  rw [← hk]
  funext j
  unfold Window.fill
  rw [dif_pos (hu _ j)]

abbrev rows2 : Rect S2000x128 := Rect.unit (s := S2000x128) ![0, 0] S2000x128.size inb_S2000x128_S2000x128_0_0
abbrev rows5 : Rect S5000x128 := Rect.unit (s := S5000x128) ![0, 0] S5000x128.size inb_S5000x128_S5000x128_0_0
abbrev weightAll : Rect S128x128 := Rect.unit (s := S128x128) ![0, 0] S128x128.size inb_S128x128_S128x128_0_0
abbrev biasAll : Rect S1x128 := Rect.unit (s := S1x128) ![0, 0] S1x128.size inb_S1x128_S1x128_0_0

def iblk0 (c : Dev nD) (w : Fin cfg0.W) (t : Fin cfg0.N) :
    ((cfg0.win w).xblock (cfg0.grid.coords t)).Idx → Elt F (cfg0.win w).elt :=
  ((cfg0.win w).blk t).view.read (Elt F) (V c (arrRef spec0 w))

def out0_3 (x : Vec F S2000x128 .f32) (W : Vec F S128x128 .f32) (b : Vec F S1x128 .f32) : Vec F S2000x128 .f32 :=
  View.canon [⟨rows2, k0_pay1 (View.ld x rows2) (View.ld W weightAll) (View.ld b biasAll)⟩]

def dat0 (c : Dev nD) : Dat τ (Elt F) Unit ℕ (UR sig nD τ) ℕ cfg0 c where
  A w := V c (arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := ΦA spec0 c
  q _ := fullShare
  owed _ := 0

theorem A_eq0 (c : Dev nD) (w : Fin cfg0.W) : (dat0 V c).A w = V c (arrRef spec0 w) := by
  dsimp only [dat0]

theorem q_full0 (c : Dev nD) : ∀ w, (dat0 V c).q w = fullShare := fun _ => rfl

theorem owed_zero0 (c : Dev nD) : ∀ t, (dat0 V c).owed t = 0 := fun _ => rfl

theorem after0_3 (c : Dev nD) (t : Fin cfg0.N) :
    (dat0 V c).after 3 t = out0_3 (iblk0 V c 0 t) (iblk0 V c 1 t) (iblk0 V c 2 t) := by dsimp only [dat0]

theorem hin0 (c : Dev nD) : (ΦA spec0 c : sProp 𝕄) ⊢ (dat0 V c).Φ 0 := .rfl

theorem hout0 (c : Dev nD) : (dat0 V c).Φ (Fin.last cfg0.N) ⊢ (ΦA spec0 c : sProp 𝕄) := .rfl

def iblk1 (c : Dev nD) (w : Fin cfg1.W) (t : Fin cfg1.N) :
    ((cfg1.win w).xblock (cfg1.grid.coords t)).Idx → Elt F (cfg1.win w).elt :=
  ((cfg1.win w).blk t).view.read (Elt F) (V c (arrRef spec1 w))

def out1_3 (x : Vec F S2000x128 .f32) (W : Vec F S128x128 .f32) (b : Vec F S1x128 .f32) : Vec F S2000x128 .f32 :=
  View.canon [⟨rows2, k1_pay1 (View.ld x rows2) (View.ld W weightAll) (View.ld b biasAll)⟩]

def dat1 (c : Dev nD) : Dat τ (Elt F) Unit ℕ (UR sig nD τ) ℕ cfg1 c where
  A w := V c (arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := ΦA spec1 c
  q _ := fullShare
  owed _ := 0

theorem A_eq1 (c : Dev nD) (w : Fin cfg1.W) : (dat1 V c).A w = V c (arrRef spec1 w) := by
  dsimp only [dat1]

theorem q_full1 (c : Dev nD) : ∀ w, (dat1 V c).q w = fullShare := fun _ => rfl

theorem owed_zero1 (c : Dev nD) : ∀ t, (dat1 V c).owed t = 0 := fun _ => rfl

theorem after1_3 (c : Dev nD) (t : Fin cfg1.N) :
    (dat1 V c).after 3 t = out1_3 (iblk1 V c 0 t) (iblk1 V c 1 t) (iblk1 V c 2 t) := by dsimp only [dat1]

theorem hin1 (c : Dev nD) : (ΦA spec1 c : sProp 𝕄) ⊢ (dat1 V c).Φ 0 := .rfl

theorem hout1 (c : Dev nD) : (dat1 V c).Φ (Fin.last cfg1.N) ⊢ (ΦA spec1 c : sProp 𝕄) := .rfl

def iblk2 (c : Dev nD) (w : Fin cfg2.W) (t : Fin cfg2.N) :
    ((cfg2.win w).xblock (cfg2.grid.coords t)).Idx → Elt F (cfg2.win w).elt :=
  ((cfg2.win w).blk t).view.read (Elt F) (V c (arrRef spec2 w))

def out2_3 (x : Vec F S2000x128 .f32) (W : Vec F S128x128 .f32) (b : Vec F S1x128 .f32) : Vec F S2000x128 .f32 :=
  View.canon [⟨rows2, k2_pay1 (View.ld x rows2) (View.ld W weightAll) (View.ld b biasAll)⟩]

def dat2 (c : Dev nD) : Dat τ (Elt F) Unit ℕ (UR sig nD τ) ℕ cfg2 c where
  A w := V c (arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := ΦA spec2 c
  q _ := fullShare
  owed _ := 0

theorem A_eq2 (c : Dev nD) (w : Fin cfg2.W) : (dat2 V c).A w = V c (arrRef spec2 w) := by
  dsimp only [dat2]

theorem q_full2 (c : Dev nD) : ∀ w, (dat2 V c).q w = fullShare := fun _ => rfl

theorem owed_zero2 (c : Dev nD) : ∀ t, (dat2 V c).owed t = 0 := fun _ => rfl

theorem after2_3 (c : Dev nD) (t : Fin cfg2.N) :
    (dat2 V c).after 3 t = out2_3 (iblk2 V c 0 t) (iblk2 V c 1 t) (iblk2 V c 2 t) := by dsimp only [dat2]

theorem hin2 (c : Dev nD) : (ΦA spec2 c : sProp 𝕄) ⊢ (dat2 V c).Φ 0 := .rfl

theorem hout2 (c : Dev nD) : (dat2 V c).Φ (Fin.last cfg2.N) ⊢ (ΦA spec2 c : sProp 𝕄) := .rfl

def iblk3 (c : Dev nD) (w : Fin cfg3.W) (t : Fin cfg3.N) :
    ((cfg3.win w).xblock (cfg3.grid.coords t)).Idx → Elt F (cfg3.win w).elt :=
  ((cfg3.win w).blk t).view.read (Elt F) (V c (arrRef spec3 w))

def out3_3 (x : Vec F S2000x128 .f32) (W : Vec F S128x128 .f32) (b : Vec F S1x128 .f32) : Vec F S2000x128 .f32 :=
  View.canon [⟨rows2, k3_pay1 (View.ld x rows2) (View.ld W weightAll) (View.ld b biasAll)⟩]

def dat3 (c : Dev nD) : Dat τ (Elt F) Unit ℕ (UR sig nD τ) ℕ cfg3 c where
  A w := V c (arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := ΦA spec3 c
  q _ := fullShare
  owed _ := 0

theorem A_eq3 (c : Dev nD) (w : Fin cfg3.W) : (dat3 V c).A w = V c (arrRef spec3 w) := by
  dsimp only [dat3]

theorem q_full3 (c : Dev nD) : ∀ w, (dat3 V c).q w = fullShare := fun _ => rfl

theorem owed_zero3 (c : Dev nD) : ∀ t, (dat3 V c).owed t = 0 := fun _ => rfl

theorem after3_3 (c : Dev nD) (t : Fin cfg3.N) :
    (dat3 V c).after 3 t = out3_3 (iblk3 V c 0 t) (iblk3 V c 1 t) (iblk3 V c 2 t) := by dsimp only [dat3]

theorem hin3 (c : Dev nD) : (ΦA spec3 c : sProp 𝕄) ⊢ (dat3 V c).Φ 0 := .rfl

theorem hout3 (c : Dev nD) : (dat3 V c).Φ (Fin.last cfg3.N) ⊢ (ΦA spec3 c : sProp 𝕄) := .rfl

def iblk4 (c : Dev nD) (w : Fin cfg4.W) (t : Fin cfg4.N) :
    ((cfg4.win w).xblock (cfg4.grid.coords t)).Idx → Elt F (cfg4.win w).elt :=
  ((cfg4.win w).blk t).view.read (Elt F) (V c (arrRef spec4 w))

def out4_3 (x : Vec F S5000x128 .f32) (W : Vec F S128x128 .f32) (b : Vec F S1x128 .f32) : Vec F S5000x128 .f32 :=
  View.canon [⟨rows5, k4_pay1 (View.ld x rows5) (View.ld W weightAll) (View.ld b biasAll)⟩]

def dat4 (c : Dev nD) : Dat τ (Elt F) Unit ℕ (UR sig nD τ) ℕ cfg4 c where
  A w := V c (arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := ΦA spec4 c
  q _ := fullShare
  owed _ := 0

theorem A_eq4 (c : Dev nD) (w : Fin cfg4.W) : (dat4 V c).A w = V c (arrRef spec4 w) := by
  dsimp only [dat4]

theorem q_full4 (c : Dev nD) : ∀ w, (dat4 V c).q w = fullShare := fun _ => rfl

theorem owed_zero4 (c : Dev nD) : ∀ t, (dat4 V c).owed t = 0 := fun _ => rfl

theorem after4_3 (c : Dev nD) (t : Fin cfg4.N) :
    (dat4 V c).after 3 t = out4_3 (iblk4 V c 0 t) (iblk4 V c 1 t) (iblk4 V c 2 t) := by dsimp only [dat4]

theorem hin4 (c : Dev nD) : (ΦA spec4 c : sProp 𝕄) ⊢ (dat4 V c).Φ 0 := .rfl

theorem hout4 (c : Dev nD) : (dat4 V c).Φ (Fin.last cfg4.N) ⊢ (ΦA spec4 c : sProp 𝕄) := .rfl

set_option maxHeartbeats 1000000 in
-- One store over the whole rectangle, so reading back gives the stored value.
theorem lin_body0 (c : Dev nD) (k) (hk : k = cc0__linear_kernel (F := F)) (o) (ho : o = out0_3 (F := F)) {i} {mx : Memref sig .tc .vmem S2000x128 .f32} {hmx : mx.IsWhole} {mw : Memref sig .tc .vmem S128x128 .f32} {hmw : mw.IsWhole}
    {mb : Memref sig .tc .vmem S1x128 .f32} {hmb : mb.IsWhole} {mo : Memref sig .tc .vmem S2000x128 .f32} {hmo : mo.IsWhole}
    {x : Vec F S2000x128 .f32} {W : Vec F S128x128 .f32} {b : Vec F S1x128 .f32} {T0 T1 T2 T3 : Type} {g : T3 → Vec F S2000x128 .f32} {R Q : sProp 𝕄} :
    iprop(R ∗ Q ∗ (∃ _ : T0, owns c.tc mx fullShare x) ∗ (∃ _ : T1, owns c.tc mw fullShare W)
        ∗ (∃ _ : T2, owns c.tc mb fullShare b) ∗ (∃ d, owns c.tc mo fullShare (g d)))
      ⊢ wp frame (wpE (defs₀ (F := F)) Variants.none c none) Set.univ (k i mx hmx mw hmw mb hmb mo hmo) fun _ =>
        iprop(R ∗ Q ∗ owns c.tc mx fullShare x ∗ owns c.tc mw fullShare W
          ∗ owns c.tc mb fullShare b ∗ owns c.tc mo fullShare (o x W b)) := by
  subst hk ho
  simp only [cc0__linear_kernel_eq_skeleton]; unfold cc0__linear_kernel_skel
  unfold owns
  iintro ⟨HR, HQ, ⟨%_, %fx, %hx, Hx⟩, ⟨%_, %fw, %hw, Hw⟩, ⟨%_, %fb, %hb, Hb⟩, ⟨%d, %fo, -, Ho⟩⟩
  subst hx; subst hw; subst hb
  sl_exec
  sl_step
  isplitl [HR]; · iexact HR
  isplitl [HQ]; · iexact HQ
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  iexists _; isplitr
  swap; · iexact Ho
  ipureintro
  exact View.read_writes_eq_canon _ _ _ (View.cover_of_tiled _ S2000x128.size (by rfl))

set_option maxHeartbeats 1000000 in
-- One store over the whole rectangle, so reading back gives the stored value.
theorem lin_body4 (c : Dev nD) (k) (hk : k = cc4__linear_kernel (F := F)) (o) (ho : o = out4_3 (F := F)) {i} {mx : Memref sig .tc .vmem S5000x128 .f32} {hmx : mx.IsWhole} {mw : Memref sig .tc .vmem S128x128 .f32} {hmw : mw.IsWhole}
    {mb : Memref sig .tc .vmem S1x128 .f32} {hmb : mb.IsWhole} {mo : Memref sig .tc .vmem S5000x128 .f32} {hmo : mo.IsWhole}
    {x : Vec F S5000x128 .f32} {W : Vec F S128x128 .f32} {b : Vec F S1x128 .f32} {T0 T1 T2 T3 : Type} {g : T3 → Vec F S5000x128 .f32} {R Q : sProp 𝕄} :
    iprop(R ∗ Q ∗ (∃ _ : T0, owns c.tc mx fullShare x) ∗ (∃ _ : T1, owns c.tc mw fullShare W)
        ∗ (∃ _ : T2, owns c.tc mb fullShare b) ∗ (∃ d, owns c.tc mo fullShare (g d)))
      ⊢ wp frame (wpE (defs₀ (F := F)) Variants.none c none) Set.univ (k i mx hmx mw hmw mb hmb mo hmo) fun _ =>
        iprop(R ∗ Q ∗ owns c.tc mx fullShare x ∗ owns c.tc mw fullShare W
          ∗ owns c.tc mb fullShare b ∗ owns c.tc mo fullShare (o x W b)) := by
  subst hk ho
  simp only [cc4__linear_kernel_eq_skeleton]; unfold cc4__linear_kernel_skel
  unfold owns
  iintro ⟨HR, HQ, ⟨%_, %fx, %hx, Hx⟩, ⟨%_, %fw, %hw, Hw⟩, ⟨%_, %fb, %hb, Hb⟩, ⟨%d, %fo, -, Ho⟩⟩
  subst hx; subst hw; subst hb
  sl_exec
  sl_step
  isplitl [HR]; · iexact HR
  isplitl [HQ]; · iexact HQ
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  iexists _; isplitr
  swap; · iexact Ho
  ipureintro
  exact View.read_writes_eq_canon _ _ _ (View.cover_of_tiled _ S5000x128.size (by rfl))

theorem body_obligation0 (c : Dev nD) : BodyObligation (dat0 (F := F) V c) (defs₀ (F := F)) Variants.none () Set.univ := fun t => by
  rw [bigSep_W0, bigSep_W0]
  simp only [before_eq_after (dat0 V c) 0, before_eq_after (dat0 V c) 1, before_eq_after (dat0 V c) 2]
  dsimp only [dat0]
  show _ ⊢ wp _ _ _ (bodyAt0 t) _
  exact lin_body0 c cc0__linear_kernel rfl out0_3 rfl

theorem body_obligation1 (c : Dev nD) : BodyObligation (dat1 (F := F) V c) (defs₀ (F := F)) Variants.none () Set.univ := fun t => by
  rw [bigSep_W1, bigSep_W1]
  simp only [before_eq_after (dat1 V c) 0, before_eq_after (dat1 V c) 1, before_eq_after (dat1 V c) 2]
  dsimp only [dat1]
  show _ ⊢ wp _ _ _ (bodyAt1 t) _
  exact lin_body0 c cc1__linear_kernel rfl out1_3 rfl

theorem body_obligation2 (c : Dev nD) : BodyObligation (dat2 (F := F) V c) (defs₀ (F := F)) Variants.none () Set.univ := fun t => by
  rw [bigSep_W2, bigSep_W2]
  simp only [before_eq_after (dat2 V c) 0, before_eq_after (dat2 V c) 1, before_eq_after (dat2 V c) 2]
  dsimp only [dat2]
  show _ ⊢ wp _ _ _ (bodyAt2 t) _
  exact lin_body0 c cc2__linear_kernel rfl out2_3 rfl

theorem body_obligation3 (c : Dev nD) : BodyObligation (dat3 (F := F) V c) (defs₀ (F := F)) Variants.none () Set.univ := fun t => by
  rw [bigSep_W3, bigSep_W3]
  simp only [before_eq_after (dat3 V c) 0, before_eq_after (dat3 V c) 1, before_eq_after (dat3 V c) 2]
  dsimp only [dat3]
  show _ ⊢ wp _ _ _ (bodyAt3 t) _
  exact lin_body0 c cc3__linear_kernel rfl out3_3 rfl

theorem body_obligation4 (c : Dev nD) : BodyObligation (dat4 (F := F) V c) (defs₀ (F := F)) Variants.none () Set.univ := fun t => by
  rw [bigSep_W4, bigSep_W4]
  simp only [before_eq_after (dat4 V c) 0, before_eq_after (dat4 V c) 1, before_eq_after (dat4 V c) 2]
  dsimp only [dat4]
  show _ ⊢ wp _ _ _ (bodyAt4 t) _
  exact lin_body4 c cc4__linear_kernel rfl out4_3 rfl

end Cert.KernelIdeal.Hand

end
-- ==== Proof.KI.Reg5.lean ====
import proofs.«429521_j46961172414534_2_alg».proof.Proof.Gen.KernelIdeal.Launch
import proofs.«429521_j46961172414534_2_alg».proof.Proof.Gen.KernelIdeal.Skeleton
import proofs.«429521_j46961172414534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev isFirst5 (i : grid5.Coords) : Prop :=
  (Scalar.cmpi .ne (Scalar.extui (Scalar.cmpi .eq (BitVec.ofNat 32 (i 1).val) 0#32)) 0#32) = 1#1

theorem isFirst5_iff : ∀ t : Fin cfg5.N, isFirst5 (grid5.coords t) ↔ t.val % 25 = 0 :=
  (by decide +kernel : ∀ t : Fin grid5.N, isFirst5 (grid5.coords t) ↔ t.val % 25 = 0)

abbrev isLast5 (i : grid5.Coords) : Prop := k5_cond2 i = 1#1

theorem isLast5_iff : ∀ t : Fin cfg5.N, isLast5 (grid5.coords t) ↔ t.val % 25 = 24 :=
  (by decide +kernel : ∀ t : Fin grid5.N, isLast5 (grid5.coords t) ↔ t.val % 25 = 24)

abbrev Acc5 (F : FTy → Type) : Type := Vec F S2000x128 .f32 × Vec F S2000x128 .f32 × Vec F S2000x128 .f32

-- One point's accumulation onto `a`: (a₀ + P·Dh, a₁ + P·Bh, a₂ + Q·Eh), P and Q the one-hot matrices of the edge block's sources and destinations against the node block.
def accStep5 (i : grid5.Coords) (xD xB xE : Vec F S2000x128 .f32) (xs xd : Vec F S2000x1 .i32) (a : Acc5 F) : Acc5 F :=
  (k5_pay14 i xs xD a.1, k5_pay1 (k5_pay10 i xs) (k5_pay12 xB) a.2.1, k5_pay2 (k5_pay11 i xd) (k5_pay13 xE) a.2.2)

def accZero5 : Acc5 F := (k5_pay6, k5_pay7, k5_pay8)

theorem off00 : (![0, 0] : Fin 2 → Nat) = fun _ => 0 := funext fun a => by fin_cases a <;> rfl

-- What a last point stores from the accumulators `a` and the block `xC` of Ce: e = (a₀ + a₂) + Ce, σ(e), a₁ · σ(e).
def outE5 (a : Acc5 F) (xC : Vec F S2000x128 .f32) : Vec F S2000x128 .f32 := k5_pay3 a.1 a.2.2 xC
def outG5 (a : Acc5 F) (xC : Vec F S2000x128 .f32) : Vec F S2000x128 .f32 := k5_pay5 a.1 a.2.2 xC a.2.1
def outS5 (a : Acc5 F) (xC : Vec F S2000x128 .f32) : Vec F S2000x128 .f32 := k5_pay4 a.1 a.2.2 xC

section Body

variable (c : Dev nD) (arg2 arg3 arg4 arg5 : Memref sig .tc .vmem S2000x128 .f32) (arg6 arg7 : Memref sig .tc .vmem S2000x1 .i32)
  (arg8 arg9 arg10 arg11 arg12 arg13 : Memref sig .tc .vmem S2000x128 .f32)
  (x0 x1 x2 x3 : Vec F S2000x128 .f32) (x4 x5 : Vec F S2000x1 .i32) (o6 o7 o8 a0 a1 a2 : Vec F S2000x128 .f32)

-- The body's twelve operands owned whole: six inputs, three outputs, three accumulators.
def held5 : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
    ∗ owns (c : Thread nD τ) arg8 fullShare o6 ∗ owns (c : Thread nD τ) arg9 fullShare o7 ∗ owns (c : Thread nD τ) arg10 fullShare o8
    ∗ owns (c : Thread nD τ) arg11 fullShare a0 ∗ owns (c : Thread nD τ) arg12 fullShare a1 ∗ owns (c : Thread nD τ) arg13 fullShare a2)

variable {c arg2 arg3 arg4 arg5 arg6 arg7 arg8 arg9 arg10 arg11 arg12 arg13} {i : grid5.Coords}
  {harg2 : arg2.IsWhole} {harg3 : arg3.IsWhole} {harg4 : arg4.IsWhole} {harg5 : arg5.IsWhole} {harg6 : arg6.IsWhole} {harg7 : arg7.IsWhole}
  {harg8 : arg8.IsWhole} {harg9 : arg9.IsWhole} {harg10 : arg10.IsWhole} {harg11 : arg11.IsWhole} {harg12 : arg12.IsWhole} {harg13 : arg13.IsWhole}

set_option maxHeartbeats 4000000 in
-- At a first point the accumulators, whatever they held, are zeroed and accumulated onto once.
theorem run5_first (hc0 : isFirst5 i) (hc1 : ¬isLast5 i) (E : Set ℕ) (K : PUnit → sProp 𝕄) :
    iprop(held5 c arg2 arg3 arg4 arg5 arg6 arg7 arg8 arg9 arg10 arg11 arg12 arg13 x0 x1 x2 x3 x4 x5 o6 o7 o8 a0 a1 a2 ∗ (held5 c arg2 arg3 arg4 arg5 arg6 arg7 arg8 arg9 arg10 arg11 arg12 arg13 x0 x1 x2 x3 x4 x5 o6 o7 o8 (accStep5 i x0 x1 x2 x4 x5 accZero5).1 (accStep5 i x0 x1 x2 x4 x5 accZero5).2.1 (accStep5 i x0 x1 x2 x4 x5 accZero5).2.2 -∗ K ⟨⟩))
      ⊢ wp frame (wpE (defs₀ (F := F)) Variants.none c none) E (cc5__gather_kernel i arg2 harg2 arg3 harg3 arg4 harg4 arg5 harg5 arg6 harg6 arg7 harg7 arg8 harg8 arg9 harg9 arg10 harg10 arg11 harg11 arg12 harg12 arg13 harg13) K := by
  simp only [cc5__gather_kernel_eq_skeleton]; unfold cc5__gather_kernel_skel
  simp only [k5_part1_eq_skeleton]
  unfold held5 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%g0, -, G0⟩, ⟨%g1, -, G1⟩, ⟨%g2, -, G2⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hf7; obtain rfl := harg10.eq_unread hf8
  sl_exec (disch := first | exact hc0 | exact hc1)
  sl_step
  iapply Hk
  isplitl [H0]; swap; isplitl [H1]; swap; isplitl [H2]; swap; isplitl [H3]; swap; isplitl [H4]; swap; isplitl [H5]; swap
  isplitl [H6]; swap; isplitl [H7]; swap; isplitl [H8]; swap; isplitl [G0]; swap; isplitl [G1]; swap
  all_goals
    iexists _; isplitr; swap; · first | iexact H0 | iexact H1 | iexact H2 | iexact H3 | iexact H4 | iexact H5 | iexact H6 | iexact H7 | iexact H8 | iexact G0 | iexact G1 | iexact G2
    ipureintro
  iterate 3
    sl_unfold_run_names
    rw [View.read_writes_eq_canon _ _ _ (fun y => ⟨_, List.mem_cons_self, View.mem_set_unit_zero off00 inb_S2000x128_S2000x128_0_0 y⟩), View.canon_cons_unit_zero off00]
    simp only [View.readCov_unit_zero (S := S2000x128) _ off00, View.readAt_eq_ld, Memref.IsWhole.read_unread, View.ld_unit_zero (S := S2000x128) off00, View.ld_unit_zero (S := S2000x1) off00]
    rfl
  all_goals exact Memref.IsWhole.read_unread _ _

set_option maxHeartbeats 4000000 in
-- At a middle point there is one accumulation onto `a`.
theorem run5_mid (a : Acc5 F) (hc0 : ¬isFirst5 i) (hc1 : ¬isLast5 i) (E : Set ℕ) (K : PUnit → sProp 𝕄) :
    iprop(held5 c arg2 arg3 arg4 arg5 arg6 arg7 arg8 arg9 arg10 arg11 arg12 arg13 x0 x1 x2 x3 x4 x5 o6 o7 o8 a.1 a.2.1 a.2.2 ∗ (held5 c arg2 arg3 arg4 arg5 arg6 arg7 arg8 arg9 arg10 arg11 arg12 arg13 x0 x1 x2 x3 x4 x5 o6 o7 o8 (accStep5 i x0 x1 x2 x4 x5 a).1 (accStep5 i x0 x1 x2 x4 x5 a).2.1 (accStep5 i x0 x1 x2 x4 x5 a).2.2 -∗ K ⟨⟩))
      ⊢ wp frame (wpE (defs₀ (F := F)) Variants.none c none) E (cc5__gather_kernel i arg2 harg2 arg3 harg3 arg4 harg4 arg5 harg5 arg6 harg6 arg7 harg7 arg8 harg8 arg9 harg9 arg10 harg10 arg11 harg11 arg12 harg12 arg13 harg13) K := by
  simp only [cc5__gather_kernel_eq_skeleton]; unfold cc5__gather_kernel_skel
  simp only [k5_part1_eq_skeleton]
  unfold held5 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%g0, %hg0, G0⟩, ⟨%g1, %hg1, G1⟩, ⟨%g2, %hg2, G2⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hg0; obtain rfl := harg12.eq_unread hg1; obtain rfl := harg13.eq_unread hg2
  sl_exec (disch := first | exact hc0 | exact hc1)
  sl_step
  iapply Hk
  isplitl [H0]; swap; isplitl [H1]; swap; isplitl [H2]; swap; isplitl [H3]; swap; isplitl [H4]; swap; isplitl [H5]; swap
  isplitl [H6]; swap; isplitl [H7]; swap; isplitl [H8]; swap; isplitl [G0]; swap; isplitl [G1]; swap
  all_goals
    iexists _; isplitr; swap; · first | iexact H0 | iexact H1 | iexact H2 | iexact H3 | iexact H4 | iexact H5 | iexact H6 | iexact H7 | iexact H8 | iexact G0 | iexact G1 | iexact G2
    ipureintro
  iterate 3
    sl_unfold_run_names
    rw [View.read_writes_eq_canon _ _ _ (fun y => ⟨_, List.mem_cons_self, View.mem_set_unit_zero off00 inb_S2000x128_S2000x128_0_0 y⟩), View.canon_cons_unit_zero off00]
    simp only [View.readCov_unit_zero (S := S2000x128) _ off00, View.readAt_eq_ld, Memref.IsWhole.read_unread, View.ld_unit_zero (S := S2000x128) off00, View.ld_unit_zero (S := S2000x1) off00]
    rfl
  all_goals exact Memref.IsWhole.read_unread _ _

set_option maxHeartbeats 4000000 in
-- At a last point there is one accumulation onto `a`, then the three outputs are stored whole.
theorem run5_last (a : Acc5 F) (hc0 : ¬isFirst5 i) (hc1 : isLast5 i) (E : Set ℕ) (K : PUnit → sProp 𝕄) :
    iprop(held5 c arg2 arg3 arg4 arg5 arg6 arg7 arg8 arg9 arg10 arg11 arg12 arg13 x0 x1 x2 x3 x4 x5 o6 o7 o8 a.1 a.2.1 a.2.2 ∗ (held5 c arg2 arg3 arg4 arg5 arg6 arg7 arg8 arg9 arg10 arg11 arg12 arg13 x0 x1 x2 x3 x4 x5 (outE5 (accStep5 i x0 x1 x2 x4 x5 a) x3) (outG5 (accStep5 i x0 x1 x2 x4 x5 a) x3) (outS5 (accStep5 i x0 x1 x2 x4 x5 a) x3) (accStep5 i x0 x1 x2 x4 x5 a).1 (accStep5 i x0 x1 x2 x4 x5 a).2.1 (accStep5 i x0 x1 x2 x4 x5 a).2.2 -∗ K ⟨⟩))
      ⊢ wp frame (wpE (defs₀ (F := F)) Variants.none c none) E (cc5__gather_kernel i arg2 harg2 arg3 harg3 arg4 harg4 arg5 harg5 arg6 harg6 arg7 harg7 arg8 harg8 arg9 harg9 arg10 harg10 arg11 harg11 arg12 harg12 arg13 harg13) K := by
  simp only [cc5__gather_kernel_eq_skeleton]; unfold cc5__gather_kernel_skel
  simp only [k5_part1_eq_skeleton]
  unfold held5 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%f7, -, H7⟩, ⟨%f8, -, H8⟩, ⟨%g0, %hg0, G0⟩, ⟨%g1, %hg1, G1⟩, ⟨%g2, %hg2, G2⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg11.eq_unread hg0; obtain rfl := harg12.eq_unread hg1; obtain rfl := harg13.eq_unread hg2
  sl_exec (disch := first | exact hc0 | exact hc1)
  sl_step
  iapply Hk
  isplitl [H0]; swap; isplitl [H1]; swap; isplitl [H2]; swap; isplitl [H3]; swap; isplitl [H4]; swap; isplitl [H5]; swap
  isplitl [H6]; swap; isplitl [H7]; swap; isplitl [H8]; swap; isplitl [G0]; swap; isplitl [G1]; swap
  all_goals
    iexists _; isplitr; swap; · first | iexact H0 | iexact H1 | iexact H2 | iexact H3 | iexact H4 | iexact H5 | iexact H6 | iexact H7 | iexact H8 | iexact G0 | iexact G1 | iexact G2
    ipureintro
  iterate 6
    sl_unfold_run_names
    rw [View.read_writes_eq_canon _ _ _ (fun y => ⟨_, List.mem_cons_self, View.mem_set_unit_zero off00 inb_S2000x128_S2000x128_0_0 y⟩), View.canon_cons_unit_zero off00]
    simp only [View.readCov_unit_zero (S := S2000x128) _ off00, View.readAt_eq_ld, Memref.IsWhole.read_unread, View.ld_unit_zero (S := S2000x128) off00, View.ld_unit_zero (S := S2000x1) off00]
    rfl
  all_goals exact Memref.IsWhole.read_unread _ _

end Body

variable (V : (c : Dev nD) → (b : Ref sig .tc) → Buf (Elt F) ((c : Thread nD τ).loc b))

-- Window `w`'s block at point `t`, read off its array as the region finds it.
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def stepAt5 (c : Dev nD) (t : Fin cfg5.N) (a : Acc5 F) : Acc5 F :=
  accStep5 (grid5.coords t) (iblk5 V c 0 t) (iblk5 V c 1 t) (iblk5 V c 2 t) (iblk5 V c 4 t) (iblk5 V c 5 t) a

-- The accumulators after point `n`: one accumulation onto zero at the first point of a run of 25, onto what the point before left elsewhere.
def accAt5 (c : Dev nD) : (n : ℕ) → n < cfg5.N → Acc5 F
  | 0, hn => stepAt5 V c ⟨0, hn⟩ accZero5
  | n + 1, hn => stepAt5 V c ⟨n + 1, hn⟩ (if (n + 1) % 25 = 0 then accZero5 else accAt5 c n (Nat.lt_of_succ_lt hn))

theorem accAt5_first (c : Dev nD) (t : Fin cfg5.N) (h : t.val % 25 = 0) :
    accAt5 V c t.val t.isLt = stepAt5 V c t accZero5 := by
  obtain ⟨n, hn⟩ := t
  cases n with
  | zero => rfl
  | succ n => exact congrArg (stepAt5 V c ⟨n + 1, hn⟩) (if_pos h)

theorem accAt5_next (c : Dev nD) (t : Fin cfg5.N) (h : ¬t.val % 25 = 0) :
    accAt5 V c t.val t.isLt = stepAt5 V c t (accAt5 V c (t.val - 1) (Nat.lt_of_le_of_lt (Nat.sub_le _ _) t.isLt)) := by
  obtain ⟨n, hn⟩ := t
  cases n with
  | zero => exact absurd (Nat.zero_mod _) h
  | succ n => exact congrArg (stepAt5 V c ⟨n + 1, hn⟩) (if_neg h)

abbrev scM5_0 : Memref sig .tc .vmem S2000x128 .f32 := Memref.whole cc5_scratch0
abbrev scM5_1 : Memref sig .tc .vmem S2000x128 .f32 := Memref.whole cc5_scratch1
abbrev scM5_2 : Memref sig .tc .vmem S2000x128 .f32 := Memref.whole cc5_scratch2

theorem idle5_out (w : Fin 9) (hw : w = 6 ∨ w = 7 ∨ w = 8) (i : grid5.Coords) (h : ¬isLast5 i) : cfg5.idle w i = true := by
  rcases hw with rfl | rfl | rfl <;> simpa [isLast5] using h

theorem live5_out (w : Fin 9) (hw : w = 6 ∨ w = 7 ∨ w = 8) (i : grid5.Coords) (h : isLast5 i) : cfg5.idle w i = false := by
  rcases hw with rfl | rfl | rfl <;> simpa [isLast5] using h

theorem noFlush5 (t : Fin cfg5.N) (h : ¬t.val % 25 = 24) : (cfg5.win 6).flush t = false ∧ (cfg5.win 7).flush t = false ∧ (cfg5.win 8).flush t = false :=
  ⟨Bool.eq_false_iff.mpr fun hf => h ((flush5_6 t).mp hf), Bool.eq_false_iff.mpr fun hf => h ((flush5_7 t).mp hf), Bool.eq_false_iff.mpr fun hf => h ((flush5_8 t).mp hf)⟩

def rest5 (c : Dev nD) : sProp 𝕄 :=
  Pipeline.scopedRestBut (Ix := Unit) (Name := ℕ) (U := UR sig nD τ) (Lvl := ℕ) (Val := Elt F) spec5 c [cc5_scratch0, cc5_scratch1, cc5_scratch2]

-- The three accumulators owned at `a`, with the remainder of the region's invariant.
def accs5 (c : Dev nD) (a : Acc5 F) : sProp 𝕄 :=
  iprop(iprop(iprop(owns (c : Thread nD τ) scM5_0 fullShare a.1 ∗ owns (c : Thread nD τ) scM5_1 fullShare a.2.1 ∗ owns (c : Thread nD τ) scM5_2 fullShare a.2.2) ∗ rest5 c) ∗ (∃ r, prngReg c r))

theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d) ∗ (∃ d, owns (c : Thread nD τ) scM5_2 fullShare d)) ∗ rest5 c) ∗ (∃ r, prngReg c r)) := by
  unfold Pipeline.ΦA rest5; rw [scopedRest5_split]; simp only [scM5_0, scM5_1, scM5_2, owns_whole]; try rfl

-- The invariant before position `n`: from the second position on, the accumulators hold what the point before left.
def PhiS5 (c : Dev nD) : (n : ℕ) → n ≤ cfg5.N → sProp 𝕄
  | 0, _ => Pipeline.ΦA spec5 c
  | n + 1, hn => accs5 c (accAt5 V c n hn)

theorem PhiS5_pos (c : Dev nD) (n : ℕ) (h : n ≤ cfg5.N) (hz : n ≠ 0) :
    PhiS5 V c n h = accs5 c (accAt5 V c (n - 1) (by omega)) := by
  cases n with
  | zero => exact absurd rfl hz
  | succ n => rfl

-- At any position the accumulators' contents can be forgotten.
theorem PhiS5_forget (c : Dev nD) (n : ℕ) (h : n ≤ cfg5.N) : PhiS5 V c n h ⊢ (Pipeline.ΦA spec5 c : sProp 𝕄) := by
  cases n with
  | zero => exact Entails.refl _
  | succ n =>
    rw [PhiA5_eq]; unfold PhiS5 accs5
    iintro ⟨⟨⟨S0, S1, S2⟩, HR⟩, Hg⟩
    iframe HR Hg
    isplitl [S0]; · iexists _; iexact S0
    isplitl [S1]; · iexists _; iexact S1
    iexists _; iexact S2

def dat5 (V : (c : Dev nD) → (b : Ref sig .tc) → Buf (Elt F) ((c : Thread nD τ).loc b)) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => outE5 (accAt5 V c t.val t.isLt) (iblk5 V c 3 t)
    | ⟨7, _⟩ => outG5 (accAt5 V c t.val t.isLt) (iblk5 V c 3 t)
    | ⟨8, _⟩ => outS5 (accAt5 V c t.val t.isLt) (iblk5 V c 3 t)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem q_full5 (c : Dev nD) : ∀ w, (dat5 V c).q w = fullShare := fun _ => rfl
theorem owed_zero5 (c : Dev nD) : ∀ t, (dat5 V c).owed t = 0 := fun _ => rfl

theorem after5_6 (c : Dev nD) (t : Fin cfg5.N) : (dat5 V c).after 6 t = outE5 (accAt5 V c t.val t.isLt) (iblk5 V c 3 t) := by dsimp only [dat5]
theorem after5_7 (c : Dev nD) (t : Fin cfg5.N) : (dat5 V c).after 7 t = outG5 (accAt5 V c t.val t.isLt) (iblk5 V c 3 t) := by dsimp only [dat5]
theorem after5_8 (c : Dev nD) (t : Fin cfg5.N) : (dat5 V c).after 8 t = outS5 (accAt5 V c t.val t.isLt) (iblk5 V c 3 t) := by dsimp only [dat5]

-- The body only reads its inputs, so each is found at its block.
theorem before5 (c : Dev nD) (t : Fin cfg5.N) :
    (∀ d, (dat5 V c).before 0 t d = iblk5 V c 0 t) ∧ (∀ d, (dat5 V c).before 1 t d = iblk5 V c 1 t) ∧ (∀ d, (dat5 V c).before 2 t d = iblk5 V c 2 t)
      ∧ (∀ d, (dat5 V c).before 3 t d = iblk5 V c 3 t) ∧ (∀ d, (dat5 V c).before 4 t d = iblk5 V c 4 t) ∧ (∀ d, (dat5 V c).before 5 t d = iblk5 V c 5 t) := by
  refine ⟨?_, ?_, ?_, ?_, ?_, ?_⟩ <;>
    exact fun d => ((dat5 V c).before_in_eq_fetched _ rfl (fun _ => rfl) (fun _ _ _ => rfl) (fun _ => rfl) t d).trans rfl

def bodyPre5 (c : Dev nD) (t : Fin cfg5.N) : sProp 𝕄 :=
  iprop(PhiS5 V c t.val (Nat.le_of_lt t.isLt) ∗ (dat5 V c).owesAt () t.castSucc
    ∗ (∃ d, owns (c : Thread nD τ) (win5_0.stage (cfg5.slots t 0)) fullShare ((dat5 V c).before 0 t d))
    ∗ (∃ d, owns (c : Thread nD τ) (win5_1.stage (cfg5.slots t 1)) fullShare ((dat5 V c).before 1 t d))
    ∗ (∃ d, owns (c : Thread nD τ) (win5_2.stage (cfg5.slots t 2)) fullShare ((dat5 V c).before 2 t d))
    ∗ (∃ d, owns (c : Thread nD τ) (win5_3.stage (cfg5.slots t 3)) fullShare ((dat5 V c).before 3 t d))
    ∗ (∃ d, owns (c : Thread nD τ) (win5_4.stage (cfg5.slots t 4)) fullShare ((dat5 V c).before 4 t d))
    ∗ (∃ d, owns (c : Thread nD τ) (win5_5.stage (cfg5.slots t 5)) fullShare ((dat5 V c).before 5 t d))
    ∗ (∃ d, owns (c : Thread nD τ) (win5_6.stage (cfg5.slots t 6)) fullShare ((dat5 V c).before 6 t d))
    ∗ (∃ d, owns (c : Thread nD τ) (win5_7.stage (cfg5.slots t 7)) fullShare ((dat5 V c).before 7 t d))
    ∗ (∃ d, owns (c : Thread nD τ) (win5_8.stage (cfg5.slots t 8)) fullShare ((dat5 V c).before 8 t d)))

def bodyPost5 (c : Dev nD) (t : Fin cfg5.N) : sProp 𝕄 :=
  iprop(accs5 c (accAt5 V c t.val t.isLt) ∗ (dat5 V c).owesAt () t.castSucc
    ∗ owns (c : Thread nD τ) (win5_0.stage (cfg5.slots t 0)) fullShare (iblk5 V c 0 t)
    ∗ owns (c : Thread nD τ) (win5_1.stage (cfg5.slots t 1)) fullShare (iblk5 V c 1 t)
    ∗ owns (c : Thread nD τ) (win5_2.stage (cfg5.slots t 2)) fullShare (iblk5 V c 2 t)
    ∗ owns (c : Thread nD τ) (win5_3.stage (cfg5.slots t 3)) fullShare (iblk5 V c 3 t)
    ∗ owns (c : Thread nD τ) (win5_4.stage (cfg5.slots t 4)) fullShare (iblk5 V c 4 t)
    ∗ owns (c : Thread nD τ) (win5_5.stage (cfg5.slots t 5)) fullShare (iblk5 V c 5 t)
    ∗ (dat5 V c).leavesExact 6 t ∗ (dat5 V c).leavesExact 7 t ∗ (dat5 V c).leavesExact 8 t)

set_option maxHeartbeats 4800000 in
-- The position in the run of 25 says which of the three cases the point is in; at a first point the accumulators' contents are not read.
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  obtain ⟨b0, b1, b2, b3, b4, b5⟩ := before5 V c t
  simp only [b0, b1, b2, b3, b4, b5]
  by_cases h1 : t.val % 25 = 24
  · have h0 : ¬t.val % 25 = 0 := by omega
    have hz : t.val ≠ 0 := fun h => h0 (by rw [h])
    have hL : isLast5 (grid5.coords t) := (isLast5_iff t).mpr h1
    rw [show (dat5 V c).leavesExact 6 t = owns (c : Thread nD τ) (win5_6.stage (cfg5.slots t 6)) fullShare ((dat5 V c).after 6 t) from by
      unfold Dat.leavesExact; rw [live5_out 6 (Or.inl rfl) _ hL], after5_6]
    rw [show (dat5 V c).leavesExact 7 t = owns (c : Thread nD τ) (win5_7.stage (cfg5.slots t 7)) fullShare ((dat5 V c).after 7 t) from by
      unfold Dat.leavesExact; rw [live5_out 7 (Or.inr (Or.inl rfl)) _ hL], after5_7]
    rw [show (dat5 V c).leavesExact 8 t = owns (c : Thread nD τ) (win5_8.stage (cfg5.slots t 8)) fullShare ((dat5 V c).after 8 t) from by
      unfold Dat.leavesExact; rw [live5_out 8 (Or.inr (Or.inr rfl)) _ hL], after5_8]
    rw [accAt5_next V c t h0, PhiS5_pos V c _ _ hz]
    unfold stepAt5 accs5
    iintro ⟨⟨⟨⟨S0, S1, S2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run5_last (iblk5 V c 0 t) (iblk5 V c 1 t) (iblk5 V c 2 t) (iblk5 V c 3 t) (iblk5 V c 4 t) (iblk5 V c 5 t) ((dat5 V c).before 6 t d6) ((dat5 V c).before 7 t d7) ((dat5 V c).before 8 t d8) (accAt5 V c (t.val - 1) (Nat.lt_of_le_of_lt (Nat.sub_le _ _) t.isLt)) (fun h => h0 ((isFirst5_iff t).mp h)) hL Set.univ _)
    unfold held5
    iframe H0 H1 H2 H3 H4 H5 H6 H7 H8 S0 S1 S2
    iintro ⟨H0, H1, H2, H3, H4, H5, H6, H7, H8, S0, S1, S2⟩
    iframe
  · have hL : ¬isLast5 (grid5.coords t) := fun h => h1 ((isLast5_iff t).mp h)
    rw [Dat.leavesExact_idle (dat5 V c) 6 t (idle5_out 6 (Or.inl rfl) _ hL) (noFlush5 t h1).1, Dat.leavesExact_idle (dat5 V c) 7 t (idle5_out 7 (Or.inr (Or.inl rfl)) _ hL) (noFlush5 t h1).2.1,
      Dat.leavesExact_idle (dat5 V c) 8 t (idle5_out 8 (Or.inr (Or.inr rfl)) _ hL) (noFlush5 t h1).2.2]
    by_cases h0 : t.val % 25 = 0
    · rw [accAt5_first V c t h0]
      unfold stepAt5 accs5
      refine (sep_mono_left (PhiS5_forget V c _ _)).trans ?_
      rw [PhiA5_eq]
      iintro ⟨⟨⟨⟨⟨%a0, S0⟩, ⟨%a1, S1⟩, ⟨%a2, S2⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run5_first (iblk5 V c 0 t) (iblk5 V c 1 t) (iblk5 V c 2 t) (iblk5 V c 3 t) (iblk5 V c 4 t) (iblk5 V c 5 t) ((dat5 V c).before 6 t d6) ((dat5 V c).before 7 t d7) ((dat5 V c).before 8 t d8) a0 a1 a2 ((isFirst5_iff t).mpr h0) hL Set.univ _)
      unfold held5
      iframe H0 H1 H2 H3 H4 H5 H6 H7 H8 S0 S1 S2
      iintro ⟨H0, H1, H2, H3, H4, H5, H6, H7, H8, S0, S1, S2⟩
      iframe S0 S1 S2 HR Hg Ho H0 H1 H2 H3 H4 H5
      isplitl [H6]; · iexists _; iexact H6
      isplitl [H7]; · iexists _; iexact H7
      iexists _; iexact H8
    · have hz : t.val ≠ 0 := fun h => h0 (by rw [h])
      rw [accAt5_next V c t h0, PhiS5_pos V c _ _ hz]
      unfold stepAt5 accs5
      iintro ⟨⟨⟨⟨S0, S1, S2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run5_mid (iblk5 V c 0 t) (iblk5 V c 1 t) (iblk5 V c 2 t) (iblk5 V c 3 t) (iblk5 V c 4 t) (iblk5 V c 5 t) ((dat5 V c).before 6 t d6) ((dat5 V c).before 7 t d7) ((dat5 V c).before 8 t d8) (accAt5 V c (t.val - 1) (Nat.lt_of_le_of_lt (Nat.sub_le _ _) t.isLt)) (fun h => h0 ((isFirst5_iff t).mp h)) hL Set.univ _)
      unfold held5
      iframe H0 H1 H2 H3 H4 H5 H6 H7 H8 S0 S1 S2
      iintro ⟨H0, H1, H2, H3, H4, H5, H6, H7, H8, S0, S1, S2⟩
      iframe S0 S1 S2 HR Hg Ho H0 H1 H2 H3 H4 H5
      isplitl [H6]; · iexists _; iexact H6
      isplitl [H7]; · iexists _; iexact H7
      iexists _; iexact H8

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := Entails.refl _

theorem hout5 (c : Dev nD) : (dat5 V c).Φ (Fin.last cfg5.N) ⊢ (Pipeline.ΦA spec5 c : sProp 𝕄) :=
  PhiS5_forget V c _ (Nat.le_of_lt_succ (Fin.last cfg5.N).isLt)

end Cert.KernelIdeal.Hand

end
-- ==== Proof.KI.Reg6.lean ====
import proofs.«429521_j46961172414534_2_alg».proof.Proof.Gen.KernelIdeal.Launch
import proofs.«429521_j46961172414534_2_alg».proof.Proof.Gen.KernelIdeal.Skeleton
import proofs.«429521_j46961172414534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev clears6 (i : grid6.Coords) : Prop := (Scalar.cmpi .ne (Scalar.extui (Scalar.cmpi .eq (BitVec.ofNat 32 (i 1).val) 0#32)) 0#32) = 1#1
abbrev emits6 (i : grid6.Coords) : Prop := k6_cond2 i = 1#1

theorem zero2_eq : (![0, 0] : Fin 2 → ℕ) = fun _ => 0 := by
  funext a; fin_cases a <;> rfl

-- The last store, through the whole shape, is what the buffer reads back.
theorem read_of_whole_store {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  subst h
  funext y
  have e := View.read_writes_cons_emb (v := v) (f := f) (Rect.whole S) w L y
  rwa [Rect.emb_whole_apply] at e

set_option maxHeartbeats 1000000 in
-- One run of the body: the sums restart from zero where the first conditional holds, and the output is stored where the second does.
theorem run6 (c : Dev nD) {i : grid6.Coords}
    {m0 m1 : Memref sig .tc .vmem S2000x128 .f32} {m2 : Memref sig .tc .vmem S2000x1 .i32} {m3 m4 m5 m6 : Memref sig .tc .vmem S2000x128 .f32}
    {h0 : m0.IsWhole} {h1 : m1.IsWhole} {h2 : m2.IsWhole} {h3 : m3.IsWhole} {h4 : m4.IsWhole} {h5 : m5.IsWhole} {h6 : m6.IsWhole}
    (x0 x1 : Vec F S2000x128 .f32) (x2 : Vec F S2000x1 .i32) (x3 x4 a0 a1 : Vec F S2000x128 .f32) (hx : ¬(clears6 i ∧ emits6 i)) {E : Set ℕ} {K : PUnit → sProp 𝕄} :
    iprop(owns (c : Thread nD τ) m0 fullShare x0 ∗ owns (c : Thread nD τ) m1 fullShare x1 ∗ owns (c : Thread nD τ) m2 fullShare x2
        ∗ owns (c : Thread nD τ) m3 fullShare x3 ∗ owns (c : Thread nD τ) m4 fullShare x4
        ∗ owns (c : Thread nD τ) m5 fullShare a0 ∗ owns (c : Thread nD τ) m6 fullShare a1
        ∗ (iprop(owns (c : Thread nD τ) m0 fullShare x0 ∗ owns (c : Thread nD τ) m1 fullShare x1 ∗ owns (c : Thread nD τ) m2 fullShare x2
            ∗ owns (c : Thread nD τ) m3 fullShare x3
            ∗ owns (c : Thread nD τ) m4 fullShare (if emits6 i then k6_pay1 x3 (k6_pay5 i x2 x0 (if clears6 i then k6_pay2 else a0))
                (k6_pay6 i x2 x1 (if clears6 i then k6_pay3 else a1)) else x4)
            ∗ owns (c : Thread nD τ) m5 fullShare (k6_pay5 i x2 x0 (if clears6 i then k6_pay2 else a0))
            ∗ owns (c : Thread nD τ) m6 fullShare (k6_pay6 i x2 x1 (if clears6 i then k6_pay3 else a1))) -∗ K ⟨⟩))
      ⊢ wp frame (wpE (defs₀ (F := F)) Variants.none c none) E (cc6__scatter_kernel i m0 h0 m1 h1 m2 h2 m3 h3 m4 h4 m5 h5 m6 h6) K := by
  by_cases hc0 : clears6 i <;> by_cases hc1 : emits6 i
  · exact absurd ⟨hc0, hc1⟩ hx
  all_goals
    first | simp only [eq_false hc0, if_false] | simp only [if_pos hc0]
    first | simp only [eq_false hc1, if_false] | simp only [if_pos hc1]
    simp only [cc6__scatter_kernel_eq_skeleton]; unfold cc6__scatter_kernel_skel
    simp only [k6_part1_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, Hk⟩
    obtain rfl := h0.eq_unread e0; obtain rfl := h1.eq_unread e1; obtain rfl := h2.eq_unread e2; obtain rfl := h3.eq_unread e3
    obtain rfl := h4.eq_unread e4; obtain rfl := h5.eq_unread e5; obtain rfl := h6.eq_unread e6
    sl_exec (disch := first | exact hc0 | exact hc1)
    sl_step
    iapply Hk
    isplitl [H0]; swap; isplitl [H1]; swap; isplitl [H2]; swap; isplitl [H3]; swap; isplitl [H4]; swap; isplitl [H5]; swap
    all_goals
      iexists _; isplitr; swap; iassumption
      ipureintro
      try sl_unfold_run_names
      try rw [read_of_whole_store (S := S2000x128) _ _ zero2_eq]
      simp only [View.readAt_eq_ld, h0.read_unread, h1.read_unread, h2.read_unread, h3.read_unread, h4.read_unread, h5.read_unread,
        h6.read_unread, View.ld_unit_zero (S := S2000x128) zero2_eq, View.ld_unit_zero (S := S2000x1) zero2_eq,
        View.readCov_unit_zero (S := S2000x128) _ zero2_eq]

theorem clears6_iff : ∀ t : Fin cfg6.N, clears6 (grid6.coords t) ↔ t.val % 250 = 0 :=
  (by decide +kernel : ∀ t : Fin grid6.N, clears6 (grid6.coords t) ↔ t.val % 250 = 0)
theorem emits6_iff : ∀ t : Fin cfg6.N, emits6 (grid6.coords t) ↔ t.val % 250 = 249 :=
  (by decide +kernel : ∀ t : Fin grid6.N, emits6 (grid6.coords t) ↔ t.val % 250 = 249)

theorem out_idle6 (t : Fin cfg6.N) (h : ¬emits6 (grid6.coords t)) : cfg6.idle 4 (grid6.coords t) = true := by
  show (!(k6_cond2 (grid6.coords t) == 1#1)) = true
  rw [Bool.not_eq_true', beq_eq_false_iff_ne]; exact h

theorem out_live6 (t : Fin cfg6.N) (h : emits6 (grid6.coords t)) : cfg6.idle 4 (grid6.coords t) = false := by
  show (!(k6_cond2 (grid6.coords t) == 1#1)) = false
  rw [Bool.not_eq_false', beq_iff_eq]; exact h

theorem out_kept6 (t : Fin cfg6.N) (h : ¬t.val % 250 = 249) : (cfg6.win 4).flush t = false :=
  Bool.eq_false_iff.mpr fun hf => h ((flush6_4 t).mp hf)

abbrev buf6_0 (t : Fin cfg6.N) : Memref sig .tc .vmem S2000x128 .f32 := win6_0.stage (cfg6.slots t 0)
abbrev bufWhole6_0 (t : Fin cfg6.N) : (buf6_0 t).IsWhole := hstage6_0 ((cfg6.slots t 0).cast nbuf6_0)
abbrev buf6_1 (t : Fin cfg6.N) : Memref sig .tc .vmem S2000x128 .f32 := win6_1.stage (cfg6.slots t 1)
abbrev bufWhole6_1 (t : Fin cfg6.N) : (buf6_1 t).IsWhole := hstage6_1 ((cfg6.slots t 1).cast nbuf6_1)
abbrev buf6_2 (t : Fin cfg6.N) : Memref sig .tc .vmem S2000x1 .i32 := win6_2.stage (cfg6.slots t 2)
abbrev bufWhole6_2 (t : Fin cfg6.N) : (buf6_2 t).IsWhole := hstage6_2 ((cfg6.slots t 2).cast nbuf6_2)
abbrev buf6_3 (t : Fin cfg6.N) : Memref sig .tc .vmem S2000x128 .f32 := win6_3.stage (cfg6.slots t 3)
abbrev bufWhole6_3 (t : Fin cfg6.N) : (buf6_3 t).IsWhole := hstage6_3 ((cfg6.slots t 3).cast nbuf6_3)
abbrev buf6_4 (t : Fin cfg6.N) : Memref sig .tc .vmem S2000x128 .f32 := win6_4.stage (cfg6.slots t 4)
abbrev bufWhole6_4 (t : Fin cfg6.N) : (buf6_4 t).IsWhole := hstage6_4 ((cfg6.slots t 4).cast nbuf6_4)
abbrev accM6_0 : Memref sig .tc .vmem S2000x128 .f32 := Memref.whole cc6_scratch0
abbrev accM6_1 : Memref sig .tc .vmem S2000x128 .f32 := Memref.whole cc6_scratch1

abbrev others6 (c : Dev nD) : sProp 𝕄 :=
  Pipeline.scopedRestBut (Ix := Unit) (Name := ℕ) (U := UR sig nD τ) (Lvl := ℕ) (Val := Elt F) spec6 c [cc6_scratch0, cc6_scratch1]

-- The region's resources with the two accumulators at `a`.
abbrev held6 (c : Dev nD) (a : Vec F S2000x128 .f32 × Vec F S2000x128 .f32) : sProp 𝕄 :=
  iprop(iprop(iprop(owns (c : Thread nD τ) accM6_0 fullShare a.1 ∗ owns (c : Thread nD τ) accM6_1 fullShare a.2)
      ∗ others6 (F := F) c) ∗ (∃ r, prngReg c r))

theorem regionInv6_eq (c : Dev nD) :
    (Pipeline.ΦA spec6 c : sProp 𝕄)
      = iprop(iprop(iprop((∃ d, owns (c : Thread nD τ) accM6_0 fullShare d) ∗ (∃ d, owns (c : Thread nD τ) accM6_1 fullShare d))
          ∗ others6 (F := F) c) ∗ (∃ r, prngReg c r)) := by
  unfold Pipeline.ΦA; rw [scopedRest6_split]; simp only [accM6_0, accM6_1, owns_whole]; try rfl

-- Forgetting what the accumulators hold gives back the region's entry invariant.
theorem held6_forget (c : Dev nD) (a) : held6 (F := F) c a ⊢ (Pipeline.ΦA spec6 c : sProp 𝕄) := by
  rw [regionInv6_eq]; unfold held6
  iintro ⟨⟨⟨H0, H1⟩, HR⟩, Hg⟩
  iframe HR Hg
  isplitl [H0] <;> iexists _ <;> iassumption

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def step6 (c : Dev nD) (t : Fin cfg6.N) (a : Vec F S2000x128 .f32 × Vec F S2000x128 .f32) : Vec F S2000x128 .f32 × Vec F S2000x128 .f32 :=
  (k6_pay5 (grid6.coords t) (iblk6 V c 2 t) (iblk6 V c 0 t) a.1, k6_pay6 (grid6.coords t) (iblk6 V c 2 t) (iblk6 V c 1 t) a.2)

def acc6 (c : Dev nD) : (n : ℕ) → n < cfg6.N → Vec F S2000x128 .f32 × Vec F S2000x128 .f32
  | 0, hn => step6 V c ⟨0, hn⟩ (k6_pay2, k6_pay3)
  | n + 1, hn => step6 V c ⟨n + 1, hn⟩ (if (n + 1) % 250 = 0 then (k6_pay2, k6_pay3) else acc6 c n (Nat.lt_of_succ_lt hn))

theorem acc6_first (c : Dev nD) (t : Fin cfg6.N) (h : t.val % 250 = 0) :
    acc6 V c t.val t.isLt = step6 V c t (k6_pay2, k6_pay3) := by
  obtain ⟨n, hn⟩ := t
  cases n with
  | zero => rfl
  | succ n => exact congrArg (step6 V c ⟨n + 1, hn⟩) (if_pos h)

theorem acc6_next (c : Dev nD) (t : Fin cfg6.N) (h : t.val % 250 ≠ 0) :
    acc6 V c t.val t.isLt = step6 V c t (acc6 V c (t.val - 1) (Nat.lt_of_le_of_lt (Nat.sub_le _ _) t.isLt)) := by
  obtain ⟨n, hn⟩ := t
  cases n with
  | zero => exact absurd (Nat.zero_mod _) h
  | succ n => exact congrArg (step6 V c ⟨n + 1, hn⟩) (if_neg h)

def Inv6 (c : Dev nD) : (n : ℕ) → n ≤ cfg6.N → sProp 𝕄
  | 0, _ => Pipeline.ΦA spec6 c
  | n + 1, hn => held6 c (acc6 V c n hn)

theorem Inv6_pos (c : Dev nD) (n : ℕ) (h : n ≤ cfg6.N) (hz : n ≠ 0) : Inv6 V c n h = held6 c (acc6 V c (n - 1) (by omega)) := by
  cases n with
  | zero => exact absurd rfl hz
  | succ n => rfl

-- Whatever the point, the accumulators are owned at something.
theorem Inv6_some (c : Dev nD) (n : ℕ) (h : n ≤ cfg6.N) : Inv6 V c n h ⊢ iprop(∃ a, held6 (F := F) c a) := by
  cases n with
  | zero =>
    show (Pipeline.ΦA spec6 c : sProp 𝕄) ⊢ _
    rw [regionInv6_eq]; unfold held6
    iintro ⟨⟨⟨⟨%a0, H0⟩, ⟨%a1, H1⟩⟩, HR⟩, Hg⟩
    iexists (a0, a1); iframe H0 H1 HR Hg
  | succ n => show held6 c (acc6 V c n h) ⊢ _; iintro H; iexists _; iexact H

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => k6_pay1 (iblk6 V c 3 t) (acc6 V c t.val t.isLt).1 (acc6 V c t.val t.isLt).2
  Φ t := Inv6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem q_full6 (c : Dev nD) : ∀ w, (dat6 V c).q w = fullShare := fun _ => rfl
theorem owed_zero6 (c : Dev nD) : ∀ t, (dat6 V c).owed t = 0 := fun _ => rfl

theorem after6_4 (c : Dev nD) (t : Fin cfg6.N) :
    (dat6 V c).after 4 t = k6_pay1 (iblk6 V c 3 t) (acc6 V c t.val t.isLt).1 (acc6 V c t.val t.isLt).2 := by
  dsimp only [dat6]

theorem found6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem found6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem found6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl
theorem found6_3 (c : Dev nD) (t : Fin cfg6.N) (d) : (dat6 V c).before 3 t d = iblk6 V c 3 t :=
  ((dat6 V c).before_in_eq_fetched 3 rfl (fun _ => rfl) (fun _ _ _ => rfl) (fun _ => rfl) t d).trans rfl

set_option maxHeartbeats 1000000 in
-- The body at any point: its edge block says which conditionals hold; the accumulators go from what the point before left (from anything, at the first point of a sweep) to `acc6`.
theorem sound_body6 (c : Dev nD) (t : Fin cfg6.N) :
    iprop(Inv6 V c t.val (Nat.le_of_lt t.isLt) ∗ (dat6 V c).owesAt () t.castSucc
      ∗ (∃ d, owns (c : Thread nD τ) (buf6_0 t) fullShare ((dat6 V c).before 0 t d))
      ∗ (∃ d, owns (c : Thread nD τ) (buf6_1 t) fullShare ((dat6 V c).before 1 t d))
      ∗ (∃ d, owns (c : Thread nD τ) (buf6_2 t) fullShare ((dat6 V c).before 2 t d))
      ∗ (∃ d, owns (c : Thread nD τ) (buf6_3 t) fullShare ((dat6 V c).before 3 t d))
      ∗ (∃ d, owns (c : Thread nD τ) (buf6_4 t) fullShare ((dat6 V c).before 4 t d)))
    ⊢ wp frame (wpE (defs₀ (F := F)) Variants.none c none) Set.univ (bodyAt6 t) (fun _ =>
      iprop(held6 c (acc6 V c t.val t.isLt) ∗ (dat6 V c).owesAt () t.castSucc
        ∗ owns (c : Thread nD τ) (buf6_0 t) fullShare (iblk6 V c 0 t) ∗ owns (c : Thread nD τ) (buf6_1 t) fullShare (iblk6 V c 1 t)
        ∗ owns (c : Thread nD τ) (buf6_2 t) fullShare (iblk6 V c 2 t) ∗ owns (c : Thread nD τ) (buf6_3 t) fullShare (iblk6 V c 3 t)
        ∗ (dat6 V c).leavesExact 4 t)) := by
  unfold bodyAt6
  simp only [found6_0, found6_1, found6_2, found6_3]
  have R := fun a0 a1 d K => run6 (F := F) c (i := grid6.coords t) (h0 := bufWhole6_0 t) (h1 := bufWhole6_1 t) (h2 := bufWhole6_2 t)
    (h3 := bufWhole6_3 t) (h4 := bufWhole6_4 t) (m5 := accM6_0) (h5 := Memref.isWhole_whole _) (m6 := accM6_1) (h6 := Memref.isWhole_whole _)
    (E := Set.univ) (K := K) (iblk6 V c 0 t) (iblk6 V c 1 t) (iblk6 V c 2 t) (iblk6 V c 3 t) ((dat6 V c).before 4 t d) a0 a1
    (fun h => by have := (clears6_iff t).mp h.1; have := (emits6_iff t).mp h.2; omega)
  have hlt : t.val - 1 < cfg6.N := by omega
  by_cases h0 : t.val % 250 = 0
  on_goal 2 => by_cases h1 : t.val % 250 = 249
  on_goal 1 =>
    have h1 : ¬t.val % 250 = 249 := by omega
    have hc1 := fun h => h1 ((emits6_iff t).mp h)
    simp only [if_pos ((clears6_iff t).mpr h0), if_neg hc1] at R
    rw [Dat.leavesExact_idle (dat6 V c) 4 t (out_idle6 t hc1) (out_kept6 t h1), acc6_first V c t h0]
    refine ((sep_mono_left (Inv6_some V c _ _)).trans sep_exists_right.1).trans (exists_elim fun a => ?_)
  on_goal 2 =>
    have hc0 := fun h => h0 ((clears6_iff t).mp h)
    simp only [if_neg hc0, if_pos ((emits6_iff t).mpr h1)] at R
    rw [show (dat6 V c).leavesExact 4 t = owns (c : Thread nD τ) (buf6_4 t) fullShare ((dat6 V c).after 4 t) from by
      unfold Dat.leavesExact; rw [out_live6 t ((emits6_iff t).mpr h1)], after6_4, acc6_next V c t h0, Inv6_pos V c _ _ (fun e => h0 (by rw [e]))]
    generalize acc6 V c (t.val - 1) hlt = a
  on_goal 3 =>
    have hc0 := fun h => h0 ((clears6_iff t).mp h)
    have hc1 := fun h => h1 ((emits6_iff t).mp h)
    simp only [if_neg hc0, if_neg hc1] at R
    rw [Dat.leavesExact_idle (dat6 V c) 4 t (out_idle6 t hc1) (out_kept6 t h1), acc6_next V c t h0, Inv6_pos V c _ _ (fun e => h0 (by rw [e]))]
    generalize acc6 V c (t.val - 1) hlt = a
  all_goals
    unfold held6; dsimp only [step6]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (R a.1 a.2 d4 _)
    iframe H0 H1 H2 H3 H4 HS0 HS1
    iintro ⟨H0, H1, H2, H3, H4, HS0, HS1⟩
    iframe HS0 HS1 HR Hg Ho H0 H1 H2 H3
    first | iexact H4 | (iexists _; iexact H4)

theorem body_obligation6 (c : Dev nD) : BodyObligation (dat6 (F := F) V c) (defs₀ (F := F)) Variants.none () Set.univ := fun t => by
  rw [bigSep_W6, bigSep_W6]
  exact sound_body6 V c t

theorem hin6 (c : Dev nD) : (Pipeline.ΦA spec6 c : sProp 𝕄) ⊢ (dat6 V c).Φ 0 := Idealize.SL.BI.Entails.refl _

theorem hout6 (c : Dev nD) : (dat6 V c).Φ (Fin.last cfg6.N) ⊢ (Pipeline.ΦA spec6 c : sProp 𝕄) := by
  have hN : (Fin.last cfg6.N).val ≠ 0 := by rw [Fin.val_last]; have : cfg6.N = 6250 := N_6; omega
  rw [show (dat6 V c).Φ (Fin.last cfg6.N) = Inv6 V c (Fin.last cfg6.N).val (Nat.le_of_lt_succ (Fin.last cfg6.N).isLt) from rfl,
    Inv6_pos V c _ _ hN]
  exact held6_forget c _

end Cert.KernelIdeal.Hand

end
-- ==== Proof.KI.Reg7.lean ====
import proofs.«429521_j46961172414534_2_alg».proof.Proof.Gen.KernelIdeal.Launch
import proofs.«429521_j46961172414534_2_alg».proof.Proof.Gen.KernelIdeal.Skeleton
import proofs.«429521_j46961172414534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev tall7 : Rect S2000x128 := Rect.unit (s := S2000x128) ![0, 0] S2000x128.size inb_S2000x128_S2000x128_0_0
abbrev flat7 : Rect S1x128 := Rect.unit (s := S1x128) ![0, 0] S1x128.size inb_S1x128_S1x128_0_0

def out7_6 (x orig : Vec F S2000x128 .f32) (mu var gam bet : Vec F S1x128 .f32) : Vec F S2000x128 .f32 :=
  View.canon [⟨tall7, k7_pay1 (View.ld x tall7) (View.ld mu flat7) (View.ld var flat7) (View.ld gam flat7) (View.ld bet flat7)
    (View.ld orig tall7)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := rfl

theorem q_full7 (c : Dev nD) : ∀ w, (dat7 V c).q w = fullShare := fun _ => rfl

theorem owed_zero7 (c : Dev nD) : ∀ t, (dat7 V c).owed t = 0 := fun _ => rfl

theorem after7_6 (c : Dev nD) (t : Fin cfg7.N) : (dat7 V c).after 6 t =
    out7_6 (iblk7 V c 0 t) (iblk7 V c 1 t) (iblk7 V c 2 t) (iblk7 V c 3 t) (iblk7 V c 4 t) (iblk7 V c 5 t) := by
  dsimp only [dat7]

theorem before7 (c : Dev nD) (t : Fin cfg7.N) :
    (∀ d, (dat7 V c).before 0 t d = iblk7 V c 0 t) ∧ (∀ d, (dat7 V c).before 1 t d = iblk7 V c 1 t)
    ∧ (∀ d, (dat7 V c).before 2 t d = iblk7 V c 2 t) ∧ (∀ d, (dat7 V c).before 3 t d = iblk7 V c 3 t)
    ∧ (∀ d, (dat7 V c).before 4 t d = iblk7 V c 4 t) ∧ (∀ d, (dat7 V c).before 5 t d = iblk7 V c 5 t) := by
  refine ⟨?_, ?_, ?_, ?_, ?_, ?_⟩ <;> exact fun d =>
    (dat7 V c).before_in_eq_fetched _ rfl (fun _ => rfl) (fun _ _ _ => rfl) (fun _ => rfl) t d

set_option maxHeartbeats 1000000 in
-- The six inputs are returned unchanged; the output is the single store, which covers the whole block.
theorem body_obligation7 (c : Dev nD) : BodyObligation (dat7 (F := F) V c) (defs₀ (F := F)) Variants.none () Set.univ := fun t => by
  rw [bigSep_W7, bigSep_W7]
  simp only [before7 V c t]
  rw [show (dat7 V c).Φ t.succ = (dat7 V c).Φ t.castSucc from rfl,
    show (dat7 V c).owesAt () t.succ = (dat7 V c).owesAt () t.castSucc from rfl]
  show _ ⊢ wp frame _ _ (bodyAt7 t) _
  unfold bodyAt7
  rw [cc7__bn_relu_residual_kernel_eq_skeleton]; unfold cc7__bn_relu_residual_kernel_skel owns
  iintro ⟨Inv, Debt, ⟨%d1, %g1, %e1, B1⟩, ⟨%d2, %g2, %e2, B2⟩, ⟨%d3, %g3, %e3, B3⟩, ⟨%d4, %g4, %e4, B4⟩, ⟨%d5, %g5, %e5, B5⟩,
    ⟨%d6, %g6, %e6, B6⟩, ⟨%d7, %g7, -, B7⟩⟩
  sl_exec
  sl_step
  iframe Inv Debt
  isplitl [B1]; · iexists g1; isplitr; · ipureintro; exact e1
                  iexact B1
  isplitl [B2]; · iexists g2; isplitr; · ipureintro; exact e2
                  iexact B2
  isplitl [B3]; · iexists g3; isplitr; · ipureintro; exact e3
                  iexact B3
  isplitl [B4]; · iexists g4; isplitr; · ipureintro; exact e4
                  iexact B4
  isplitl [B5]; · iexists g5; isplitr; · ipureintro; exact e5
                  iexact B5
  isplitl [B6]; · iexists g6; isplitr; · ipureintro; exact e6
                  iexact B6
  iexists _
  isplitr
  rotate_left
  · iexact B7
  ipureintro
  rw [after7_6, ← e1, ← e2, ← e3, ← e4, ← e5, ← e6]
  exact View.read_writes_eq_canon _ _ _ (View.cover_of_tiled _ S2000x128.size (by rfl))

theorem hin7 (c : Dev nD) : (Pipeline.ΦA spec7 c : sProp 𝕄) ⊢ (dat7 V c).Φ 0 := Entails.refl _
theorem hout7 (c : Dev nD) : (dat7 V c).Φ (Fin.last cfg7.N) ⊢ (Pipeline.ΦA spec7 c : sProp 𝕄) := Entails.refl _

end Cert.KernelIdeal.Hand

end
-- ==== Proof.KI.Reg8.lean ====
import proofs.«429521_j46961172414534_2_alg».proof.Proof.KI.Reg7

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev tall8 : Rect S5000x128 := Rect.unit (s := S5000x128) ![0, 0] S5000x128.size inb_S5000x128_S5000x128_0_0

def out8_6 (x orig : Vec F S5000x128 .f32) (mu var gam bet : Vec F S1x128 .f32) : Vec F S5000x128 .f32 :=
  View.canon [⟨tall8, k8_pay1 (View.ld x tall8) (View.ld mu flat7) (View.ld var flat7) (View.ld gam flat7) (View.ld bet flat7)
    (View.ld orig tall8)⟩]

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (c : Dev nD) (w : Fin cfg8.W) : (dat8 V c).A w = V c (Pipeline.arrRef spec8 w) := rfl

theorem q_full8 (c : Dev nD) : ∀ w, (dat8 V c).q w = fullShare := fun _ => rfl

theorem owed_zero8 (c : Dev nD) : ∀ t, (dat8 V c).owed t = 0 := fun _ => rfl

theorem after8_6 (c : Dev nD) (t : Fin cfg8.N) : (dat8 V c).after 6 t =
    out8_6 (iblk8 V c 0 t) (iblk8 V c 1 t) (iblk8 V c 2 t) (iblk8 V c 3 t) (iblk8 V c 4 t) (iblk8 V c 5 t) := by
  dsimp only [dat8]

theorem before8 (c : Dev nD) (t : Fin cfg8.N) :
    (∀ d, (dat8 V c).before 0 t d = iblk8 V c 0 t) ∧ (∀ d, (dat8 V c).before 1 t d = iblk8 V c 1 t)
    ∧ (∀ d, (dat8 V c).before 2 t d = iblk8 V c 2 t) ∧ (∀ d, (dat8 V c).before 3 t d = iblk8 V c 3 t)
    ∧ (∀ d, (dat8 V c).before 4 t d = iblk8 V c 4 t) ∧ (∀ d, (dat8 V c).before 5 t d = iblk8 V c 5 t) := by
  refine ⟨?_, ?_, ?_, ?_, ?_, ?_⟩ <;> exact fun d =>
    (dat8 V c).before_in_eq_fetched _ rfl (fun _ => rfl) (fun _ _ _ => rfl) (fun _ => rfl) t d

set_option maxHeartbeats 1000000 in
-- The six inputs are returned unchanged; the output is the single store, which covers the whole block.
theorem body_obligation8 (c : Dev nD) : BodyObligation (dat8 (F := F) V c) (defs₀ (F := F)) Variants.none () Set.univ := fun t => by
  rw [bigSep_W8, bigSep_W8]
  simp only [before8 V c t]
  rw [show (dat8 V c).Φ t.succ = (dat8 V c).Φ t.castSucc from rfl,
    show (dat8 V c).owesAt () t.succ = (dat8 V c).owesAt () t.castSucc from rfl]
  show _ ⊢ wp frame _ _ (bodyAt8 t) _
  unfold bodyAt8
  rw [cc8__bn_relu_residual_kernel_eq_skeleton]; unfold cc8__bn_relu_residual_kernel_skel owns
  iintro ⟨Inv, Debt, ⟨%d1, %g1, %e1, B1⟩, ⟨%d2, %g2, %e2, B2⟩, ⟨%d3, %g3, %e3, B3⟩, ⟨%d4, %g4, %e4, B4⟩, ⟨%d5, %g5, %e5, B5⟩,
    ⟨%d6, %g6, %e6, B6⟩, ⟨%d8, %g8, -, B8⟩⟩
  sl_exec
  sl_step
  iframe Inv Debt
  isplitl [B1]; · iexists g1; isplitr; · ipureintro; exact e1
                  iexact B1
  isplitl [B2]; · iexists g2; isplitr; · ipureintro; exact e2
                  iexact B2
  isplitl [B3]; · iexists g3; isplitr; · ipureintro; exact e3
                  iexact B3
  isplitl [B4]; · iexists g4; isplitr; · ipureintro; exact e4
                  iexact B4
  isplitl [B5]; · iexists g5; isplitr; · ipureintro; exact e5
                  iexact B5
  isplitl [B6]; · iexists g6; isplitr; · ipureintro; exact e6
                  iexact B6
  iexists _
  isplitr
  rotate_left
  · iexact B8
  ipureintro
  rw [after8_6, ← e1, ← e2, ← e3, ← e4, ← e5, ← e6]
  exact View.read_writes_eq_canon _ _ _ (View.cover_of_tiled _ S5000x128.size (by rfl))

theorem hin8 (c : Dev nD) : (Pipeline.ΦA spec8 c : sProp 𝕄) ⊢ (dat8 V c).Φ 0 := Entails.refl _
theorem hout8 (c : Dev nD) : (dat8 V c).Φ (Fin.last cfg8.N) ⊢ (Pipeline.ΦA spec8 c : sProp 𝕄) := Entails.refl _

end Cert.KernelIdeal.Hand

end
-- ==== Proof.KI.Run.lean ====
import proofs.«429521_j46961172414534_2_alg».proof.Proof.KI.RegLin
import proofs.«429521_j46961172414534_2_alg».proof.Proof.KI.Reg5
import proofs.«429521_j46961172414534_2_alg».proof.Proof.KI.Reg6
import proofs.«429521_j46961172414534_2_alg».proof.Proof.KI.Reg7
import proofs.«429521_j46961172414534_2_alg».proof.Proof.KI.Reg8
import proofs.«429521_j46961172414534_2_alg».proof.Proof.Gen.KernelIdeal.Regions

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem foldl_update_eq {α : Type} [DecidableEq α] {β : α → Type} (g : ∀ a, β a) :
    ∀ (l : List α) (f : ∀ a, β a), (∀ b, b ∉ l → f b = g b) → l.foldl (fun f a => Function.update f a (g a)) f = g
  | [], f, h => funext fun b => h b List.not_mem_nil
  | a :: l, f, h => foldl_update_eq g l _ fun b hb => by
    by_cases e : b = a
    · subst e; exact Function.update_self ..
    · exact (Function.update_of_ne e ..).trans (h b fun hm => (List.mem_cons.mp hm).elim e hb)

abbrev atTc (W : Dev nD → Valuation τ sig (Elt F)) (c : Dev nD) (b : Ref sig .tc) : Buf (Elt F) ((c : Thread nD τ).loc b) := W c b

def exitOf {cfg : Cfg sig Λ₀} (D : (c : Dev nD) → Dat τ (Elt F) Unit ℕ (UR sig nD τ) ℕ cfg c)
    (V : Dev nD → Valuation τ sig (Elt F)) (c : Dev nD) : Valuation τ sig (Elt F) :=
  Pipeline.withArrays cfg.spec c (V c) fun w => (D c).arrAt w cfg.N

theorem exit_eq {cfg : Cfg sig Λ₀} (D : (c : Dev nD) → Dat τ (Elt F) Unit ℕ (UR sig nD τ) ℕ cfg c) (hw : Pipeline.WinFacts cfg.spec)
    {V : Dev nD → Valuation τ sig (Elt F)} (c : Dev nD) {V' : Valuation τ sig (Elt F)} (hV : V' = V c)
    (hA : ∀ w, (D c).A w = V c (Pipeline.arrRef cfg.spec w)) (os : List (Fin cfg.W)) (hin : ∀ w, w ∉ os → (cfg.win w).isOut = false) :
    (os.map fun o => Proc.devRef .tc (Pipeline.arrRef cfg.spec o)).foldl (fun f a => Function.update f a (exitOf D V c a)) V' = exitOf D V c := by
  subst hV
  refine foldl_update_eq _ _ _ fun b hb => ?_
  unfold exitOf
  by_cases h : ∃ w, Proc.devRef .tc (Pipeline.arrRef cfg.spec w) = b
  · obtain ⟨w, rfl⟩ := h
    rw [Pipeline.withArrays_arr _ hw.arr_inj, (D c).arrAt_in w (hin w fun h => hb (List.mem_map_of_mem h)), hA]
  · unfold Pipeline.withArrays
    rw [dif_neg h]

variable (m : (ℓ : Loc nD τ sig) → Buf (Elt F) ℓ)

def W0 (c : Dev nD) : Valuation τ sig (Elt F) := fun b => m (c, b)
noncomputable def W1 (c : Dev nD) := StableHlo.after hostOps0 (W0 m c)
def W2 := exitOf (dat0 (atTc (W1 m))) (W1 m)
def W3 (c : Dev nD) := StableHlo.after hostOps1 (W2 m c)
def W4 := exitOf (dat1 (atTc (W3 m))) (W3 m)
def W5 (c : Dev nD) := StableHlo.after hostOps2 (W4 m c)
def W6 := exitOf (dat2 (atTc (W5 m))) (W5 m)
def W7 (c : Dev nD) := StableHlo.after hostOps3 (W6 m c)
def W8 := exitOf (dat3 (atTc (W7 m))) (W7 m)
def W9 (c : Dev nD) := StableHlo.after hostOps4 (W8 m c)
def W10 := exitOf (dat4 (atTc (W9 m))) (W9 m)
def W11 := exitOf (dat5 (atTc (W10 m))) (W10 m)
def W12 := exitOf (dat6 (atTc (W11 m))) (W11 m)
def W13 (c : Dev nD) := StableHlo.after hostOps7 (W12 m c)
def W14 (c : Dev nD) := StableHlo.after hostOps7_1 (W13 m c)
def W15 (c : Dev nD) := StableHlo.after hostOps7_2 (W14 m c)
def W16 := exitOf (dat7 (atTc (W15 m))) (W15 m)
def W17 (c : Dev nD) := StableHlo.after hostOps8 (W16 m c)
def W18 (c : Dev nD) := StableHlo.after hostOps8_1 (W17 m c)
def W19 (c : Dev nD) := StableHlo.after hostOps8_2 (W18 m c)
def W20 := exitOf (dat8 (atTc (W19 m))) (W19 m)

def Wb : ℕ → Dev nD → Valuation τ sig (Elt F)
  | 0 => W0 m | 1 => W1 m | 2 => W2 m | 3 => W3 m | 4 => W4 m | 5 => W5 m | 6 => W6 m | 7 => W7 m | 8 => W8 m
  | 9 => W9 m | 10 => W10 m | 11 => W11 m | 12 => W12 m | 13 => W13 m | 14 => W14 m | 15 => W15 m | 16 => W16 m
  | 17 => W17 m | 18 => W18 m | 19 => W19 m | _ => W20 m

def outsH : Outs (F := F) := fun J r c => Wb m J c r

theorem hV1 (c : Dev nD) : V1 m c = W1 m c := rfl
theorem hV2 (c : Dev nD) : V2 m (outsH m) c = W2 m c := exit_eq _ launch0.win c (hV1 m c) (A_eq0 _ c) [3] (by decide)
theorem hV3 (c : Dev nD) : V3 m (outsH m) c = W3 m c := congrArg (StableHlo.after hostOps1) (hV2 m c)
theorem hV4 (c : Dev nD) : V4 m (outsH m) c = W4 m c := exit_eq _ launch1.win c (hV3 m c) (A_eq1 _ c) [3] (by decide)
theorem hV5 (c : Dev nD) : V5 m (outsH m) c = W5 m c := congrArg (StableHlo.after hostOps2) (hV4 m c)
theorem hV6 (c : Dev nD) : V6 m (outsH m) c = W6 m c := exit_eq _ launch2.win c (hV5 m c) (A_eq2 _ c) [3] (by decide)
theorem hV7 (c : Dev nD) : V7 m (outsH m) c = W7 m c := congrArg (StableHlo.after hostOps3) (hV6 m c)
theorem hV8 (c : Dev nD) : V8 m (outsH m) c = W8 m c := exit_eq _ launch3.win c (hV7 m c) (A_eq3 _ c) [3] (by decide)
theorem hV9 (c : Dev nD) : V9 m (outsH m) c = W9 m c := congrArg (StableHlo.after hostOps4) (hV8 m c)
theorem hV10 (c : Dev nD) : V10 m (outsH m) c = W10 m c := exit_eq _ launch4.win c (hV9 m c) (A_eq4 _ c) [3] (by decide)
theorem hV11 (c : Dev nD) : V11 m (outsH m) c = W11 m c := exit_eq _ launch5.win c (hV10 m c) (A_eq5 _ c) [6, 7, 8] (by decide)
theorem hV12 (c : Dev nD) : V12 m (outsH m) c = W12 m c := exit_eq _ launch6.win c (hV11 m c) (A_eq6 _ c) [4] (by decide)
theorem hV15 (c : Dev nD) : V15 m (outsH m) c = W15 m c :=
  congrArg (fun V => StableHlo.after hostOps7_2 (StableHlo.after hostOps7_1 (StableHlo.after hostOps7 V))) (hV12 m c)
theorem hV16 (c : Dev nD) : V16 m (outsH m) c = W16 m c := exit_eq _ launch7.win c (hV15 m c) (A_eq7 _ c) [6] (by decide)
theorem hV19 (c : Dev nD) : V19 m (outsH m) c = W19 m c :=
  congrArg (fun V => StableHlo.after hostOps8_2 (StableHlo.after hostOps8_1 (StableHlo.after hostOps8 V))) (hV16 m c)
theorem hV20 (c : Dev nD) : V20 m (outsH m) c = W20 m c := exit_eq _ launch8.win c (hV19 m c) (A_eq8 _ c) [6] (by decide)

abbrev Ride (c : Dev nD) : sProp 𝕄 :=
  iprop((∃ r, prngReg c r) ∗ ∃ W, owes (c : Thread nD τ) (0 : CellTallies nD τ sig Unit) W)

abbrev St (W : Dev nD → Valuation τ sig (Elt F)) (c : Dev nD) : sProp 𝕄 :=
  iprop(StableHlo.held (c : Thread nD τ) (Pipeline.ucRefs τ sig) (W c) ∗ Ride c)
abbrev Lnone : GSem nD τ sig → Finset Unit := fun _ => ∅
abbrev lv0 : GSem nD τ sig → Unit → ℕ := fun _ _ => 0

set_option backward.isDefEq.respectTransparency.types false in

def regionOf (pdats : (p : Fin 9) → (c : Dev nD) → Dat τ (Elt F) Unit ℕ (UR sig nD τ) ℕ (cfgs p) c)
    (p : Fin 9) (lf : Pipeline.LaunchFacts (nD := nD) (τ := τ) cfgs p)
    {Wen' Wen Wex : Dev nD → Valuation τ sig (Elt F)} (hWen : ∀ c, Wen' c = Wen c) (hWex : ∀ c, Wex c = exitOf (pdats p) Wen c)
    (hbody : ∀ c, BodyObligation (pdats p c) (defs₀ (F := F)) Variants.none () Set.univ)
    (hq : ∀ c w, (pdats p c).q w = fullShare)
    (howed : ∀ c t, (pdats p c).owed t = 0)
    (hrec : ∀ c x, x ∈ (pdats p c).recorded 0)
    (hA : ∀ c w, (pdats p c).A w = atTc Wen c (Pipeline.arrRef (cfgs p).spec w))
    (hΦin : ∀ c, (Pipeline.ΦA (cfgs p).spec c : sProp 𝕄) ⊢ (pdats p c).Φ 0)
    (hΦout : ∀ c, (pdats p c).Φ (Fin.last (cfgs p).N) ⊢ (Pipeline.ΦA (cfgs p).spec c : sProp 𝕄)) :
    Pipeline.RegionSeg (pcfgs (F := F)) adm pdats () defs₀ Variants.none Lnone lv0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ Lnone lv0 p howed
  pre := St Wen'
  post := St Wex
  X c := iprop(∃ r, prngReg c r)
  Y c := iprop(∃ r, prngReg c r)
  Z c := Pipeline.unscopedRest (cfgs p).spec c (atTc Wen c)
  hentry c := by
    obtain rfl : Wen' = Wen := funext hWen
    rw [Pipeline.ownSems0_none]
    have hsplit := Pipeline.arrays_of_unscopedBufs (p := p) (pcfgs (F := F)) adm pdats lf.win lf.arr_whole c
      ((pdats p c).share_full (hq c)) (atTc _ c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl (hrec c x)
      iexact HO
    isplitl [Hp]; · iexact Hp
    iexact Hrest
  hin c := by
    refine (?_ : _ ⊢ (Pipeline.ΦA (cfgs p).spec c : sProp 𝕄)).trans (hΦin c)
    unfold Pipeline.ΦA
    iintro ⟨Hp, -, Hr⟩
    isplitl [Hr]; · iexact Hr
    iexact Hp
  hout c := by
    rw [Pipeline.ownSems0_none]
    refine (hΦout c).trans ?_
    unfold Pipeline.ΦA
    iintro ⟨Hr, Hp⟩
    isplitl [Hp]; · iexact Hp
    isplitr; · iempintro
    iexact Hr
  hexit c := by
    obtain rfl : Wex = exitOf (pdats p) Wen := funext hWex
    have hjoin := Pipeline.unscopedBufs_of_arrays (p := p) (pcfgs (F := F)) adm
      lf.win lf.arr_whole c pdats ((pdats p c).share_full (hq c)) (atTc Wen c) (atTc (exitOf (pdats p) Wen) c) ((pdats p c).arrAt · (cfgs p).N)
      (fun w => (Pipeline.withArrays_arr _ lf.win.arr_inj c (Wen c) ((pdats p c).arrAt · (cfgs p).N) w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def pdats : (p : Fin 9) → (c : Dev nD) → Dat τ (Elt F) Unit ℕ (UR sig nD τ) ℕ (cfgs p) c
  | ⟨0, _⟩ => dat0 (atTc (W1 m))
  | ⟨1, _⟩ => dat1 (atTc (W3 m))
  | ⟨2, _⟩ => dat2 (atTc (W5 m))
  | ⟨3, _⟩ => dat3 (atTc (W7 m))
  | ⟨4, _⟩ => dat4 (atTc (W9 m))
  | ⟨5, _⟩ => dat5 (atTc (W10 m))
  | ⟨6, _⟩ => dat6 (atTc (W11 m))
  | ⟨7, _⟩ => dat7 (atTc (W15 m))
  | ⟨8, _⟩ => dat8 (atTc (W19 m))

def regs : (p : Fin 9) → Pipeline.RegionSeg (pcfgs (F := F)) adm (pdats m) () defs₀ Variants.none Lnone lv0 p
  | ⟨0, _⟩ => regionOf _ 0 launch0 (hV1 m) (hV2 m) (body_obligation0 _) (q_full0 _) (owed_zero0 _) (fun _ _ => trivial) (A_eq0 _) (hin0 _) (hout0 _)
  | ⟨1, _⟩ => regionOf _ 1 launch1 (hV3 m) (hV4 m) (body_obligation1 _) (q_full1 _) (owed_zero1 _) (fun _ _ => trivial) (A_eq1 _) (hin1 _) (hout1 _)
  | ⟨2, _⟩ => regionOf _ 2 launch2 (hV5 m) (hV6 m) (body_obligation2 _) (q_full2 _) (owed_zero2 _) (fun _ _ => trivial) (A_eq2 _) (hin2 _) (hout2 _)
  | ⟨3, _⟩ => regionOf _ 3 launch3 (hV7 m) (hV8 m) (body_obligation3 _) (q_full3 _) (owed_zero3 _) (fun _ _ => trivial) (A_eq3 _) (hin3 _) (hout3 _)
  | ⟨4, _⟩ => regionOf _ 4 launch4 (hV9 m) (hV10 m) (body_obligation4 _) (q_full4 _) (owed_zero4 _) (fun _ _ => trivial) (A_eq4 _) (hin4 _) (hout4 _)
  | ⟨5, _⟩ => regionOf _ 5 launch5 (hV10 m) (hV11 m) (body_obligation5 _) (q_full5 _) (owed_zero5 _) (fun _ _ => trivial) (A_eq5 _) (hin5 _) (hout5 _)
  | ⟨6, _⟩ => regionOf _ 6 launch6 (hV11 m) (hV12 m) (body_obligation6 _) (q_full6 _) (owed_zero6 _) (fun _ _ => trivial) (A_eq6 _) (hin6 _) (hout6 _)
  | ⟨7, _⟩ => regionOf _ 7 launch7 (hV15 m) (hV16 m) (body_obligation7 _) (q_full7 _) (owed_zero7 _) (fun _ _ => trivial) (A_eq7 _) (hin7 _) (hout7 _)
  | ⟨8, _⟩ => regionOf _ 8 launch8 (hV19 m) (hV20 m) (body_obligation8 _) (q_full8 _) (owed_zero8 _) (fun _ _ => trivial) (A_eq8 _) (hin8 _) (hout8 _)

theorem launch_elt (u : UR sig nD τ) :
    (ownU u : sProp 𝕄) ⊢ |={Set.univ}=> iprop(BI.own (emb₁ u) ∗ bigSep Finset.univ fun _ : Dev nD => (BI.emp : sProp 𝕄)) := by
  rw [ownU_emb₁, BI.bigSep_emp_const]
  iintro Hu; imodintro
  isplitl [Hu]; · iexact Hu
  iempintro

theorem ride_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts Lnone lv0)
      ⊢ (|={Set.univ}=> bigSep Finset.univ (fun c : Dev nD => Ride c) : sProp 𝕄) := by
  refine Pipeline.initEach Lnone lv0 fun c => ?_
  iintro ⟨⟨-, HO, -, Hp, -⟩, -⟩
  imodintro
  isplitl [Hp]; · iexists _; iexact Hp
  iexists ∅; iexact HO

set_option backward.isDefEq.respectTransparency.types false in
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_cond m emb₁ () Variants.none Lnone lv0 (fun _ _ => rfl) ρ (outsH m) (pdats m) 0 (fun _ => iprop(emp)) _ (launch_elt _)
    (fun _ c => Ride c) (ride_init ρ) (fun c => by iintro ⟨-, H⟩; iexact H)
    (regs m 0) (fun _ => .rfl) (fun _ => .rfl) (regs m 1) (fun _ => .rfl) (fun _ => .rfl) (regs m 2) (fun _ => .rfl) (fun _ => .rfl)
    (regs m 3) (fun _ => .rfl) (fun _ => .rfl) (regs m 4) (fun _ => .rfl) (fun _ => .rfl) (regs m 5) (fun _ => .rfl) (fun _ => .rfl)
    (regs m 6) (fun _ => .rfl) (fun _ => .rfl) (regs m 7) (fun _ => .rfl) (fun _ => .rfl) (regs m 8) (fun _ => .rfl) (fun _ => .rfl)

end Cert.KernelIdeal.Hand

end
-- ==== Proof.KI.RunAll.lean ====
import proofs.«429521_j46961172414534_2_alg».proof.Proof.KI.Run
import proofs.«429521_j46961172414534_2_alg».proof.Proof.KI.RunCond

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V20 m (outsH m) c b) :=
  run_cond m emb₁ () Variants.none Lnone lv0 (fun _ _ => rfl) ρ (outsH m) (pdats m) 0 (fun _ => iprop(emp)) _ (launch_elt _)
    (fun _ c => Ride c) (ride_init ρ) (fun c => by iintro ⟨-, H⟩; iexact H)
    (regs m 0) (fun _ => .rfl) (fun _ => .rfl) (regs m 1) (fun _ => .rfl) (fun _ => .rfl) (regs m 2) (fun _ => .rfl) (fun _ => .rfl)
    (regs m 3) (fun _ => .rfl) (fun _ => .rfl) (regs m 4) (fun _ => .rfl) (fun _ => .rfl) (regs m 5) (fun _ => .rfl) (fun _ => .rfl)
    (regs m 6) (fun _ => .rfl) (fun _ => .rfl) (regs m 7) (fun _ => .rfl) (fun _ => .rfl) (regs m 8) (fun _ => .rfl) (fun _ => .rfl)

theorem out_arr {cfg : Cfg sig Λ₀}
    (D : ((c : Dev nD) → (b : Ref sig .tc) → Buf (Elt F) ((c : Thread nD τ).loc b)) → (c : Dev nD) → Dat τ (Elt F) Unit ℕ (UR sig nD τ) ℕ cfg c)
    (hw : Pipeline.WinFacts cfg.spec) {V' V : Dev nD → Valuation τ sig (Elt F)} (h : ∀ c, V' c = V c) (c : Dev nD) (w : Fin cfg.W) :
    exitOf (D (atTc V)) V c (Proc.devRef .tc (Pipeline.arrRef cfg.spec w)) = (D (fun c b => V' c b) c).arrAt w cfg.N := by
  obtain rfl : V' = V := funext h
  exact Pipeline.withArrays_arr _ hw.arr_inj c _ _ w

theorem outs_v3 (c : Dev nD) : outsH m 2 main_v3 c = (dat0 (fun c b => V1 m c b) c).arrAt 3 cfg0.N := out_arr dat0 launch0.win (hV1 m) c 3
theorem outs_v5 (c : Dev nD) : outsH m 4 main_v5 c = (dat1 (fun c b => V3 m (outsH m) c b) c).arrAt 3 cfg1.N := out_arr dat1 launch1.win (hV3 m) c 3
theorem outs_v7 (c : Dev nD) : outsH m 6 main_v7 c = (dat2 (fun c b => V5 m (outsH m) c b) c).arrAt 3 cfg2.N := out_arr dat2 launch2.win (hV5 m) c 3
theorem outs_v9 (c : Dev nD) : outsH m 8 main_v9 c = (dat3 (fun c b => V7 m (outsH m) c b) c).arrAt 3 cfg3.N := out_arr dat3 launch3.win (hV7 m) c 3
theorem outs_v11 (c : Dev nD) : outsH m 10 main_v11 c = (dat4 (fun c b => V9 m (outsH m) c b) c).arrAt 3 cfg4.N := out_arr dat4 launch4.win (hV9 m) c 3
theorem outs_v12_0 (c : Dev nD) : outsH m 11 main_v12_0 c = (dat5 (fun c b => V10 m (outsH m) c b) c).arrAt 6 cfg5.N := out_arr dat5 launch5.win (hV10 m) c 6
theorem outs_v12_1 (c : Dev nD) : outsH m 11 main_v12_1 c = (dat5 (fun c b => V10 m (outsH m) c b) c).arrAt 7 cfg5.N := out_arr dat5 launch5.win (hV10 m) c 7
theorem outs_v12_2 (c : Dev nD) : outsH m 11 main_v12_2 c = (dat5 (fun c b => V10 m (outsH m) c b) c).arrAt 8 cfg5.N := out_arr dat5 launch5.win (hV10 m) c 8
theorem outs_v13 (c : Dev nD) : outsH m 12 main_v13 c = (dat6 (fun c b => V11 m (outsH m) c b) c).arrAt 4 cfg6.N := out_arr dat6 launch6.win (hV11 m) c 4
theorem outs_v21 (c : Dev nD) : outsH m 16 main_v21 c = (dat7 (fun c b => V15 m (outsH m) c b) c).arrAt 6 cfg7.N := out_arr dat7 launch7.win (hV15 m) c 6
theorem outs_v29 (c : Dev nD) : outsH m 20 main_v29 c = (dat8 (fun c b => V19 m (outsH m) c b) c).arrAt 6 cfg8.N := out_arr dat8 launch8.win (hV19 m) c 6

end Cert.KernelIdeal.Hand

end
-- ==== Proof.KI.Transport.lean ====
/- Which item of @main last wrote a buffer. Between two items core c's unscoped buffers are a valuation: the launch memory,
  then each host stretch's writes, then what a kernel region leaves in its output arrays. A buffer nobody writes between
  item i and item j holds at boundary j what it held at boundary i; every result array is written by exactly one region
  and every argument by nobody. The lemmas below read each array a later region takes in back to the region (or the
  launch) that produced it.
-/
import proofs.«429521_j46961172414534_2_alg».proof.Proof.Gen.KernelIdeal.Regions

set_option maxRecDepth 4096

noncomputable section

namespace Cert.KernelIdeal.Hand

open Idealize.ShloMosaic Idealize.ShloMosaic.TcCoe
open Cert.KernelIdeal Cert.KernelIdeal.Gen

variable {F : FTy → Type} [FloatOps F]
variable (m : (ℓ : Loc nD τ sig) → Buf (Elt F) ℓ) (outs : Outs (F := F))

theorem V2_v3 (c : Dev nD) : V2 m outs c main_v3 = outs 2 main_v3 c := by
  simp only [V2, Function.update_self]

theorem V4_v5 (c : Dev nD) : V4 m outs c main_v5 = outs 4 main_v5 c := by
  simp only [V4, Function.update_self]

theorem V6_v7 (c : Dev nD) : V6 m outs c main_v7 = outs 6 main_v7 c := by
  simp only [V6, Function.update_self]

theorem V8_v9 (c : Dev nD) : V8 m outs c main_v9 = outs 8 main_v9 c := by
  simp only [V8, Function.update_self]

theorem V10_v11 (c : Dev nD) : V10 m outs c main_v11 = outs 10 main_v11 c := by
  simp only [V10, Function.update_self]

theorem V12_v13 (c : Dev nD) : V12 m outs c main_v13 = outs 12 main_v13 c := by
  simp only [V12, Function.update_self]

theorem V16_v21 (c : Dev nD) : V16 m outs c main_v21 = outs 16 main_v21 c := by
  simp only [V16, Function.update_self]

theorem V20_v29 (c : Dev nD) : V20 m outs c main_v29 = outs 20 main_v29 c := by
  simp only [V20, Function.update_self]

theorem V11_v12_2 (c : Dev nD) : V11 m outs c main_v12_2 = outs 11 main_v12_2 c := by
  simp only [V11, Function.update_self]

theorem V11_v12_1 (c : Dev nD) : V11 m outs c main_v12_1 = outs 11 main_v12_1 c := by
  simp only [V11]
  rw [Function.update_of_ne (by exact StableHlo.devRef_ne_of_ne (by decide)), Function.update_self]

theorem V11_v12_0 (c : Dev nD) : V11 m outs c main_v12_0 = outs 11 main_v12_0 c := by
  simp only [V11]
  rw [Function.update_of_ne (by exact StableHlo.devRef_ne_of_ne (by decide)),
    Function.update_of_ne (by exact StableHlo.devRef_ne_of_ne (by decide)), Function.update_self]

theorem V10_v7 (c : Dev nD) : V10 m outs c main_v7 = outs 6 main_v7 c :=
  (V10_of m outs c main_v7 (by decide)).trans <| (V9_of m outs c main_v7 (by decide)).trans <| (V8_of m outs c main_v7 (by decide)).trans <| (V7_of m outs c main_v7 (by decide)).trans (V6_v7 m outs c)

theorem V10_v5 (c : Dev nD) : V10 m outs c main_v5 = outs 4 main_v5 c :=
  (V10_of m outs c main_v5 (by decide)).trans <| (V9_of m outs c main_v5 (by decide)).trans <| (V8_of m outs c main_v5 (by decide)).trans <| (V7_of m outs c main_v5 (by decide)).trans <| (V6_of m outs c main_v5 (by decide)).trans <| (V5_of m outs c main_v5 (by decide)).trans (V4_v5 m outs c)

theorem V10_v9 (c : Dev nD) : V10 m outs c main_v9 = outs 8 main_v9 c :=
  (V10_of m outs c main_v9 (by decide)).trans <| (V9_of m outs c main_v9 (by decide)).trans (V8_v9 m outs c)

theorem V11_v3 (c : Dev nD) : V11 m outs c main_v3 = outs 2 main_v3 c :=
  (V11_of m outs c main_v3 (by decide)).trans <| (V10_of m outs c main_v3 (by decide)).trans <| (V9_of m outs c main_v3 (by decide)).trans <| (V8_of m outs c main_v3 (by decide)).trans <| (V7_of m outs c main_v3 (by decide)).trans <| (V6_of m outs c main_v3 (by decide)).trans <| (V5_of m outs c main_v3 (by decide)).trans <| (V4_of m outs c main_v3 (by decide)).trans <| (V3_of m outs c main_v3 (by decide)).trans (V2_v3 m outs c)

theorem V15_v13 (c : Dev nD) : V15 m outs c main_v13 = outs 12 main_v13 c :=
  (V15_of m outs c main_v13 (by decide)).trans <| (V14_of m outs c main_v13 (by decide)).trans <| (V13_of m outs c main_v13 (by decide)).trans (V12_v13 m outs c)

theorem V19_v12_0 (c : Dev nD) : V19 m outs c main_v12_0 = outs 11 main_v12_0 c :=
  (V19_of m outs c main_v12_0 (by decide)).trans <| (V18_of m outs c main_v12_0 (by decide)).trans <| (V17_of m outs c main_v12_0 (by decide)).trans <| (V16_of m outs c main_v12_0 (by decide)).trans <| (V15_of m outs c main_v12_0 (by decide)).trans <| (V14_of m outs c main_v12_0 (by decide)).trans <| (V13_of m outs c main_v12_0 (by decide)).trans <| (V12_of m outs c main_v12_0 (by decide)).trans (V11_v12_0 m outs c)

theorem V16_v12_0 (c : Dev nD) : V16 m outs c main_v12_0 = outs 11 main_v12_0 c :=
  (V16_of m outs c main_v12_0 (by decide)).trans <| (V15_of m outs c main_v12_0 (by decide)).trans <| (V14_of m outs c main_v12_0 (by decide)).trans <| (V13_of m outs c main_v12_0 (by decide)).trans <| (V12_of m outs c main_v12_0 (by decide)).trans (V11_v12_0 m outs c)

theorem V20_v21 (c : Dev nD) : V20 m outs c main_v21 = outs 16 main_v21 c :=
  (V20_of m outs c main_v21 (by decide)).trans <| (V19_of m outs c main_v21 (by decide)).trans <| (V18_of m outs c main_v21 (by decide)).trans <| (V17_of m outs c main_v21 (by decide)).trans (V16_v21 m outs c)

theorem V10_v0 (c : Dev nD) : V10 m outs c main_v0 = V1 m c main_v0 :=
  (V10_of m outs c main_v0 (by decide)).trans <| (V9_of m outs c main_v0 (by decide)).trans <| (V8_of m outs c main_v0 (by decide)).trans <| (V7_of m outs c main_v0 (by decide)).trans <| (V6_of m outs c main_v0 (by decide)).trans <| (V5_of m outs c main_v0 (by decide)).trans <| (V4_of m outs c main_v0 (by decide)).trans <| (V3_of m outs c main_v0 (by decide)).trans <| (V2_of m outs c main_v0 (by decide))

theorem V10_v1 (c : Dev nD) : V10 m outs c main_v1 = V1 m c main_v1 :=
  (V10_of m outs c main_v1 (by decide)).trans <| (V9_of m outs c main_v1 (by decide)).trans <| (V8_of m outs c main_v1 (by decide)).trans <| (V7_of m outs c main_v1 (by decide)).trans <| (V6_of m outs c main_v1 (by decide)).trans <| (V5_of m outs c main_v1 (by decide)).trans <| (V4_of m outs c main_v1 (by decide)).trans <| (V3_of m outs c main_v1 (by decide)).trans <| (V2_of m outs c main_v1 (by decide))

theorem V11_v1 (c : Dev nD) : V11 m outs c main_v1 = V1 m c main_v1 :=
  (V11_of m outs c main_v1 (by decide)).trans <| (V10_of m outs c main_v1 (by decide)).trans <| (V9_of m outs c main_v1 (by decide)).trans <| (V8_of m outs c main_v1 (by decide)).trans <| (V7_of m outs c main_v1 (by decide)).trans <| (V6_of m outs c main_v1 (by decide)).trans <| (V5_of m outs c main_v1 (by decide)).trans <| (V4_of m outs c main_v1 (by decide)).trans <| (V3_of m outs c main_v1 (by decide)).trans <| (V2_of m outs c main_v1 (by decide))

theorem V0_arg5 (c : Dev nD) : V0 m c main_arg5 = m ((c : Thread nD τ).loc main_arg5) :=
  rfl

theorem V1_arg0 (c : Dev nD) : V1 m c main_arg0 = m ((c : Thread nD τ).loc main_arg0) :=
  (V1_of m c main_arg0 (by decide)).trans rfl

theorem V1_arg4 (c : Dev nD) : V1 m c main_arg4 = m ((c : Thread nD τ).loc main_arg4) :=
  (V1_of m c main_arg4 (by decide)).trans rfl

theorem V2_arg7 (c : Dev nD) : V2 m outs c main_arg7 = m ((c : Thread nD τ).loc main_arg7) :=
  (V2_of m outs c main_arg7 (by decide)).trans <| (V1_of m c main_arg7 (by decide)).trans rfl

theorem V3_arg0 (c : Dev nD) : V3 m outs c main_arg0 = m ((c : Thread nD τ).loc main_arg0) :=
  (V3_of m outs c main_arg0 (by decide)).trans <| (V2_of m outs c main_arg0 (by decide)).trans <| (V1_of m c main_arg0 (by decide)).trans rfl

theorem V3_arg6 (c : Dev nD) : V3 m outs c main_arg6 = m ((c : Thread nD τ).loc main_arg6) :=
  (V3_of m outs c main_arg6 (by decide)).trans <| (V2_of m outs c main_arg6 (by decide)).trans <| (V1_of m c main_arg6 (by decide)).trans rfl

theorem V4_arg11 (c : Dev nD) : V4 m outs c main_arg11 = m ((c : Thread nD τ).loc main_arg11) :=
  (V4_of m outs c main_arg11 (by decide)).trans <| (V3_of m outs c main_arg11 (by decide)).trans <| (V2_of m outs c main_arg11 (by decide)).trans <| (V1_of m c main_arg11 (by decide)).trans rfl

theorem V5_arg0 (c : Dev nD) : V5 m outs c main_arg0 = m ((c : Thread nD τ).loc main_arg0) :=
  (V5_of m outs c main_arg0 (by decide)).trans <| (V4_of m outs c main_arg0 (by decide)).trans <| (V3_of m outs c main_arg0 (by decide)).trans <| (V2_of m outs c main_arg0 (by decide)).trans <| (V1_of m c main_arg0 (by decide)).trans rfl

theorem V5_arg10 (c : Dev nD) : V5 m outs c main_arg10 = m ((c : Thread nD τ).loc main_arg10) :=
  (V5_of m outs c main_arg10 (by decide)).trans <| (V4_of m outs c main_arg10 (by decide)).trans <| (V3_of m outs c main_arg10 (by decide)).trans <| (V2_of m outs c main_arg10 (by decide)).trans <| (V1_of m c main_arg10 (by decide)).trans rfl

theorem V6_arg13 (c : Dev nD) : V6 m outs c main_arg13 = m ((c : Thread nD τ).loc main_arg13) :=
  (V6_of m outs c main_arg13 (by decide)).trans <| (V5_of m outs c main_arg13 (by decide)).trans <| (V4_of m outs c main_arg13 (by decide)).trans <| (V3_of m outs c main_arg13 (by decide)).trans <| (V2_of m outs c main_arg13 (by decide)).trans <| (V1_of m c main_arg13 (by decide)).trans rfl

theorem V7_arg0 (c : Dev nD) : V7 m outs c main_arg0 = m ((c : Thread nD τ).loc main_arg0) :=
  (V7_of m outs c main_arg0 (by decide)).trans <| (V6_of m outs c main_arg0 (by decide)).trans <| (V5_of m outs c main_arg0 (by decide)).trans <| (V4_of m outs c main_arg0 (by decide)).trans <| (V3_of m outs c main_arg0 (by decide)).trans <| (V2_of m outs c main_arg0 (by decide)).trans <| (V1_of m c main_arg0 (by decide)).trans rfl

theorem V7_arg12 (c : Dev nD) : V7 m outs c main_arg12 = m ((c : Thread nD τ).loc main_arg12) :=
  (V7_of m outs c main_arg12 (by decide)).trans <| (V6_of m outs c main_arg12 (by decide)).trans <| (V5_of m outs c main_arg12 (by decide)).trans <| (V4_of m outs c main_arg12 (by decide)).trans <| (V3_of m outs c main_arg12 (by decide)).trans <| (V2_of m outs c main_arg12 (by decide)).trans <| (V1_of m c main_arg12 (by decide)).trans rfl

theorem V8_arg9 (c : Dev nD) : V8 m outs c main_arg9 = m ((c : Thread nD τ).loc main_arg9) :=
  (V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m outs c main_arg9 (by decide)).trans <| (V2_of m outs c main_arg9 (by decide)).trans <| (V1_of m c main_arg9 (by decide)).trans rfl

theorem V9_arg1 (c : Dev nD) : V9 m outs c main_arg1 = m ((c : Thread nD τ).loc main_arg1) :=
  (V9_of m outs c main_arg1 (by decide)).trans <| (V8_of m outs c main_arg1 (by decide)).trans <| (V7_of m outs c main_arg1 (by decide)).trans <| (V6_of m outs c main_arg1 (by decide)).trans <| (V5_of m outs c main_arg1 (by decide)).trans <| (V4_of m outs c main_arg1 (by decide)).trans <| (V3_of m outs c main_arg1 (by decide)).trans <| (V2_of m outs c main_arg1 (by decide)).trans <| (V1_of m c main_arg1 (by decide)).trans rfl

theorem V9_arg8 (c : Dev nD) : V9 m outs c main_arg8 = m ((c : Thread nD τ).loc main_arg8) :=
  (V9_of m outs c main_arg8 (by decide)).trans <| (V8_of m outs c main_arg8 (by decide)).trans <| (V7_of m outs c main_arg8 (by decide)).trans <| (V6_of m outs c main_arg8 (by decide)).trans <| (V5_of m outs c main_arg8 (by decide)).trans <| (V4_of m outs c main_arg8 (by decide)).trans <| (V3_of m outs c main_arg8 (by decide)).trans <| (V2_of m outs c main_arg8 (by decide)).trans <| (V1_of m c main_arg8 (by decide)).trans rfl

theorem V12_arg14 (c : Dev nD) : V12 m outs c main_arg14 = m ((c : Thread nD τ).loc main_arg14) :=
  (V12_of m outs c main_arg14 (by decide)).trans <| (V11_of m outs c main_arg14 (by decide)).trans <| (V10_of m outs c main_arg14 (by decide)).trans <| (V9_of m outs c main_arg14 (by decide)).trans <| (V8_of m outs c main_arg14 (by decide)).trans <| (V7_of m outs c main_arg14 (by decide)).trans <| (V6_of m outs c main_arg14 (by decide)).trans <| (V5_of m outs c main_arg14 (by decide)).trans <| (V4_of m outs c main_arg14 (by decide)).trans <| (V3_of m outs c main_arg14 (by decide)).trans <| (V2_of m outs c main_arg14 (by decide)).trans <| (V1_of m c main_arg14 (by decide)).trans rfl

theorem V12_arg15 (c : Dev nD) : V12 m outs c main_arg15 = m ((c : Thread nD τ).loc main_arg15) :=
  (V12_of m outs c main_arg15 (by decide)).trans <| (V11_of m outs c main_arg15 (by decide)).trans <| (V10_of m outs c main_arg15 (by decide)).trans <| (V9_of m outs c main_arg15 (by decide)).trans <| (V8_of m outs c main_arg15 (by decide)).trans <| (V7_of m outs c main_arg15 (by decide)).trans <| (V6_of m outs c main_arg15 (by decide)).trans <| (V5_of m outs c main_arg15 (by decide)).trans <| (V4_of m outs c main_arg15 (by decide)).trans <| (V3_of m outs c main_arg15 (by decide)).trans <| (V2_of m outs c main_arg15 (by decide)).trans <| (V1_of m c main_arg15 (by decide)).trans rfl

theorem V15_arg0 (c : Dev nD) : V15 m outs c main_arg0 = m ((c : Thread nD τ).loc main_arg0) :=
  (V15_of m outs c main_arg0 (by decide)).trans <| (V14_of m outs c main_arg0 (by decide)).trans <| (V13_of m outs c main_arg0 (by decide)).trans <| (V12_of m outs c main_arg0 (by decide)).trans <| (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m outs c main_arg0 (by decide)).trans <| (V4_of m outs c main_arg0 (by decide)).trans <| (V3_of m outs c main_arg0 (by decide)).trans <| (V2_of m outs c main_arg0 (by decide)).trans <| (V1_of m c main_arg0 (by decide)).trans rfl

theorem V16_arg16 (c : Dev nD) : V16 m outs c main_arg16 = m ((c : Thread nD τ).loc main_arg16) :=
  (V16_of m outs c main_arg16 (by decide)).trans <| (V15_of m outs c main_arg16 (by decide)).trans <| (V14_of m outs c main_arg16 (by decide)).trans <| (V13_of m outs c main_arg16 (by decide)).trans <| (V12_of m outs c main_arg16 (by decide)).trans <| (V11_of m outs c main_arg16 (by decide)).trans <| (V10_of m outs c main_arg16 (by decide)).trans <| (V9_of m outs c main_arg16 (by decide)).trans <| (V8_of m outs c main_arg16 (by decide)).trans <| (V7_of m outs c main_arg16 (by decide)).trans <| (V6_of m outs c main_arg16 (by decide)).trans <| (V5_of m outs c main_arg16 (by decide)).trans <| (V4_of m outs c main_arg16 (by decide)).trans <| (V3_of m outs c main_arg16 (by decide)).trans <| (V2_of m outs c main_arg16 (by decide)).trans <| (V1_of m c main_arg16 (by decide)).trans rfl

theorem V16_arg17 (c : Dev nD) : V16 m outs c main_arg17 = m ((c : Thread nD τ).loc main_arg17) :=
  (V16_of m outs c main_arg17 (by decide)).trans <| (V15_of m outs c main_arg17 (by decide)).trans <| (V14_of m outs c main_arg17 (by decide)).trans <| (V13_of m outs c main_arg17 (by decide)).trans <| (V12_of m outs c main_arg17 (by decide)).trans <| (V11_of m outs c main_arg17 (by decide)).trans <| (V10_of m outs c main_arg17 (by decide)).trans <| (V9_of m outs c main_arg17 (by decide)).trans <| (V8_of m outs c main_arg17 (by decide)).trans <| (V7_of m outs c main_arg17 (by decide)).trans <| (V6_of m outs c main_arg17 (by decide)).trans <| (V5_of m outs c main_arg17 (by decide)).trans <| (V4_of m outs c main_arg17 (by decide)).trans <| (V3_of m outs c main_arg17 (by decide)).trans <| (V2_of m outs c main_arg17 (by decide)).trans <| (V1_of m c main_arg17 (by decide)).trans rfl

theorem V19_arg1 (c : Dev nD) : V19 m outs c main_arg1 = m ((c : Thread nD τ).loc main_arg1) :=
  (V19_of m outs c main_arg1 (by decide)).trans <| (V18_of m outs c main_arg1 (by decide)).trans <| (V17_of m outs c main_arg1 (by decide)).trans <| (V16_of m outs c main_arg1 (by decide)).trans <| (V15_of m outs c main_arg1 (by decide)).trans <| (V14_of m outs c main_arg1 (by decide)).trans <| (V13_of m outs c main_arg1 (by decide)).trans <| (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m outs c main_arg1 (by decide)).trans <| (V4_of m outs c main_arg1 (by decide)).trans <| (V3_of m outs c main_arg1 (by decide)).trans <| (V2_of m outs c main_arg1 (by decide)).trans <| (V1_of m c main_arg1 (by decide)).trans rfl

end Cert.KernelIdeal.Hand

end
-- ==== Proof.KI.HostReshape.lean ====
import proofs.«429521_j46961172414534_2_alg».proof.Proof.Gen.KernelIdeal.Regions
import Idealize.ShloMosaic.Lib.StableHlo.Run
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Cert.KernelIdeal Cert.KernelIdeal.Gen

variable {F : FTy → Type} [FloatOps F]

theorem col_of_vec {α : Type} (x : S500000.Idx → α) (e : Fin 500000) :
    shapeCast S500000x1 x shapeCasts_S500000_S500000x1 (ix2 e 0) = x (ix1 e) := by
  refine shapeCast_apply x _ (ix2 e 0) (ix1 e) ?_
  rw [Shape.rowMajor_val_one, Shape.rowMajor_val_two]
  show e.val = e.val * 1 + 0
  omega

theorem row_of_vec {α : Type} (x : S128.Idx → α) (q : Fin 128) :
    shapeCast S1x128 x shapeCasts_S128_S1x128 (ix2 0 q) = x (ix1 q) := by
  refine shapeCast_apply x _ (ix2 0 q) (ix1 q) ?_
  rw [Shape.rowMajor_val_one, Shape.rowMajor_val_two]
  show q.val = 0 * 128 + q.val
  omega

theorem main_v0_col (W : Valuation τ sig (Elt F)) (e : Fin 500000) :
    StableHlo.after hostOps0 W main_v0 (ix2 e 0) = W main_arg2 (ix1 e) := by
  have h : StableHlo.after hostOps0 W main_v0 = shapeCast S500000x1 (W main_arg2) shapeCasts_S500000_S500000x1 := by
    after_results; rfl
  rw [h]; exact col_of_vec _ e

theorem main_v1_col (W : Valuation τ sig (Elt F)) (e : Fin 500000) :
    StableHlo.after hostOps0 W main_v1 (ix2 e 0) = W main_arg3 (ix1 e) := by
  have h : StableHlo.after hostOps0 W main_v1 = shapeCast S500000x1 (W main_arg3) shapeCasts_S500000_S500000x1 := by
    after_results; rfl
  rw [h]; exact col_of_vec _ e

theorem main_v2_row (W : Valuation τ sig (Elt F)) (q : Fin 128) :
    StableHlo.after hostOps0 W main_v2 (ix2 0 q) = W main_arg5 (ix1 q) := by
  have e : StableHlo.after hostOps0 W main_v2 = shapeCast S1x128 (W main_arg5) shapeCasts_S128_S1x128 := by
    after_results; rfl
  rw [e]; exact row_of_vec _ q

theorem main_v4_row (W : Valuation τ sig (Elt F)) (q : Fin 128) :
    StableHlo.after hostOps1 W main_v4 (ix2 0 q) = W main_arg7 (ix1 q) := by
  have e : StableHlo.after hostOps1 W main_v4 = shapeCast S1x128 (W main_arg7) shapeCasts_S128_S1x128 := by
    after_results; rfl
  rw [e]; exact row_of_vec _ q

theorem main_v6_row (W : Valuation τ sig (Elt F)) (q : Fin 128) :
    StableHlo.after hostOps2 W main_v6 (ix2 0 q) = W main_arg11 (ix1 q) := by
  have e : StableHlo.after hostOps2 W main_v6 = shapeCast S1x128 (W main_arg11) shapeCasts_S128_S1x128 := by
    after_results; rfl
  rw [e]; exact row_of_vec _ q

theorem main_v8_row (W : Valuation τ sig (Elt F)) (q : Fin 128) :
    StableHlo.after hostOps3 W main_v8 (ix2 0 q) = W main_arg13 (ix1 q) := by
  have e : StableHlo.after hostOps3 W main_v8 = shapeCast S1x128 (W main_arg13) shapeCasts_S128_S1x128 := by
    after_results; rfl
  rw [e]; exact row_of_vec _ q

theorem main_v10_row (W : Valuation τ sig (Elt F)) (q : Fin 128) :
    StableHlo.after hostOps4 W main_v10 (ix2 0 q) = W main_arg9 (ix1 q) := by
  have e : StableHlo.after hostOps4 W main_v10 = shapeCast S1x128 (W main_arg9) shapeCasts_S128_S1x128 := by
    after_results; rfl
  rw [e]; exact row_of_vec _ q

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

abbrev Cur (M C : ℕ) : Type := Fin M → Fin C → EReal

def cur {M C : ℕ} (a : (⟨2, ![M, C]⟩ : Shape).Idx → EReal) : Cur M C := fun p q => a (ix2 p q)

def cur1 {C : ℕ} (a : (⟨1, ![C]⟩ : Shape).Idx → EReal) : Fin C → EReal := fun q => a (ix1 q)

def curRow {C : ℕ} (a : (⟨2, ![1, C]⟩ : Shape).Idx → EReal) : Fin C → EReal := fun q => a (ix2 0 q)

def uncur {M C : ℕ} (f : Cur M C) : (⟨2, ![M, C]⟩ : Shape).Idx → EReal := fun i => f (i 0) (i 1)

theorem cur_uncur {M C : ℕ} (f : Cur M C) : cur (uncur f) = f := rfl

theorem uncur_cur {M C : ℕ} (a : (⟨2, ![M, C]⟩ : Shape).Idx → EReal) : uncur (cur a) = a := by
  funext i; exact congrArg a (eq_ix2 i).symm

def eps6 : EReal := Ideal.ofBits .f32 0x358637BD#32
def eps5 : EReal := Ideal.ofBits .f32 0x3727C5AC#32
def cntN : EReal := Ideal.ofBits .f32 0x47435000#32
def cntE : EReal := Ideal.ofBits .f32 0x48F42400#32

def lin {M : ℕ} (x : Cur M 128) (W : Cur 128 128) (b : Fin 128 → EReal) : Cur M 128 :=
  fun p q => (∑ k : Fin 128, x p k * W q k) + b q

def enew (Dh Eh : Cur 50000 128) (Ce : Cur 500000 128) (src dst : Fin 500000 → Fin 50000) : Cur 500000 128 :=
  fun e q => Dh (src e) q + Eh (dst e) q + Ce e q

def sig (x : EReal) : EReal := Ideal.div 1 (1 + Ideal.exp (-x))

def sigma (en : Cur 500000 128) : Cur 500000 128 := fun e q => sig (en e q)

def gated (Bh : Cur 50000 128) (src : Fin 500000 → Fin 50000) (sg : Cur 500000 128) : Cur 500000 128 :=
  fun e q => Bh (src e) q * sg e q

def segsum (dst : Fin 500000 → Fin 50000) (u : Cur 500000 128) : Cur 50000 128 :=
  fun n q => ∑ e ∈ Finset.univ.filter (fun e => dst e = n), u e q

def hnew (Ah ssh ss : Cur 50000 128) : Cur 50000 128 :=
  fun n q => Ah n q + Ideal.div (ssh n q) (ss n q + eps6)

def colmean {M : ℕ} (cnt : EReal) (x : Cur M 128) : Fin 128 → EReal :=
  fun q => Ideal.div (∑ p : Fin M, x p q) cnt

def colvar {M : ℕ} (cnt : EReal) (x : Cur M 128) : Fin 128 → EReal :=
  fun q => Ideal.div (∑ p : Fin M, (x p q - colmean cnt x q) * (x p q - colmean cnt x q)) cnt

def bn {M : ℕ} (x : Cur M 128) (mu var gam bet : Fin 128 → EReal) : Cur M 128 :=
  fun p q => (x p q - mu q) * Ideal.rsqrt (var q + eps5) * gam q + bet q

def resid {M : ℕ} (orig y : Cur M 128) : Cur M 128 := fun p q => orig p q + max (y p q) 0

def enewOf (h : Cur 50000 128) (e : Cur 500000 128) (src dst : Fin 500000 → Fin 50000)
    (W_C W_D W_E : Cur 128 128) (b_C b_D b_E : Fin 128 → EReal) : Cur 500000 128 :=
  enew (lin h W_D b_D) (lin h W_E b_E) (lin e W_C b_C) src dst

def hnewOf (h : Cur 50000 128) (e : Cur 500000 128) (src dst : Fin 500000 → Fin 50000)
    (W_A W_B W_C W_D W_E : Cur 128 128) (b_A b_B b_C b_D b_E : Fin 128 → EReal) : Cur 50000 128 :=
  let en := enewOf h e src dst W_C W_D W_E b_C b_D b_E
  let sg := sigma en
  hnew (lin h W_A b_A) (segsum dst (gated (lin h W_B b_B) src sg)) (segsum dst sg)

def normRes {M : ℕ} (cnt : EReal) (x orig : Cur M 128) (gam bet : Fin 128 → EReal) : Cur M 128 :=
  resid orig (bn x (colmean cnt x) (colvar cnt x) gam bet)

def outH (h : Cur 50000 128) (e : Cur 500000 128) (src dst : Fin 500000 → Fin 50000)
    (W_A W_B W_C W_D W_E : Cur 128 128) (b_A b_B b_C b_D b_E gamma_h beta_h : Fin 128 → EReal) : Cur 50000 128 :=
  normRes cntN (hnewOf h e src dst W_A W_B W_C W_D W_E b_A b_B b_C b_D b_E) h gamma_h beta_h

def outE (h : Cur 50000 128) (e : Cur 500000 128) (src dst : Fin 500000 → Fin 50000)
    (W_C W_D W_E : Cur 128 128) (b_C b_D b_E gamma_e beta_e : Fin 128 → EReal) : Cur 500000 128 :=
  normRes cntE (enewOf h e src dst W_C W_D W_E b_C b_D b_E) e gamma_e beta_e

end Cert.Spec

end
-- ==== Proof.KI.HostStats.lean ====
import proofs.«429521_j46961172414534_2_alg».proof.Proof.Gen.KernelIdeal
import proofs.«429521_j46961172414534_2_alg».proof.Proof.Spec
import Idealize.ShloMosaic.Lib.IdealHost
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen
open scoped BigOperators

namespace ColStats

abbrev Rows128 (M : ℕ) : Shape := ⟨2, ![M, 128]⟩

theorem count_nodes : Ideal.ofBits .f32 0x47435000#32 = ((50000 : ℝ) : EReal) := by
  simp [Ideal.ofBits, Ideal.ieee, -EReal.coe_mul]; norm_num

theorem count_edges : Ideal.ofBits .f32 0x48F42400#32 = ((500000 : ℝ) : EReal) := by
  simp [Ideal.ofBits, Ideal.ieee, -EReal.coe_mul]; norm_num

theorem count_nodes_pos : 0 < Ideal.ofBits .f32 0x47435000#32 := by
  rw [count_nodes]; exact EReal.coe_pos.mpr (by norm_num)

theorem count_edges_pos : 0 < Ideal.ofBits .f32 0x48F42400#32 := by
  rw [count_edges]; exact EReal.coe_pos.mpr (by norm_num)

section
variable {M : ℕ} (hT : (Rows128 M).ReducesTo [0] S128) (hR : (Rows128 M).Reduces [0] S128)
  (hB : S1x128.BroadcastsInDim (Rows128 M) (![0, 1] : Fin 2 → Fin (Rows128 M).rank))

theorem row_inserted (q : Fin 128) (p : Fin M) : hR.lift (ix1 q) p = ix2 p q := by
  funext c
  match c with
  | ⟨0, _⟩ => rfl
  | ⟨1, _⟩ => rfl

include hR in

theorem sum_down_rows (X : FVec Ideal (Rows128 M) .f32) (q : Fin 128) :
    Host.reduceAdd X (constant S_ .f32 0x00000000#32) hT h_S_ (ix1 q) = ∑ p : Fin M, X (ix2 p q) := by
  rw [hostReduceAdd_apply, Ideal.hostReduceAdd_single hT hR]
  show Ideal.ofBits .f32 0x00000000#32 + _ = _
  rw [Ideal.ofBits_zero_f32, zero_add]
  exact Finset.sum_congr rfl fun p _ => congrArg X (row_inserted hR q p)

theorem vector_as_row {α : Type} (v : S128.Idx → α) (u : Fin 1) (q : Fin 128) :
    broadcastInDim S1x128 ![1] bcast_S128_S1x128_1 v (ix2 u q) = v (ix1 q) :=
  broadcastInDim_apply _ _ v (ix2 u q) (ix1 q) fun a => by
    match a with
    | ⟨0, _⟩ => rfl

theorem row_down_rows {α : Type} (r : S1x128.Idx → α) (p : Fin M) (q : Fin 128) :
    broadcastInDim (Rows128 M) ![0, 1] hB r (ix2 p q) = r (ix2 (0 : Fin 1) q) :=
  broadcastInDim_apply _ _ r (ix2 p q) (ix2 (0 : Fin 1) q) fun a => by
    match a with
    | ⟨0, _⟩ => rfl
    | ⟨1, _⟩ => rfl

def meanRow (cnt : BitVec 32) (X : FVec Ideal (Rows128 M) .f32) : FVec Ideal S1x128 .f32 :=
  Host.divf (broadcastInDim S1x128 ![1] bcast_S128_S1x128_1 (Host.reduceAdd X (constant S_ .f32 0x00000000#32) hT h_S_))
    (broadcastInDim S1x128 ![] bcast_S_S1x128 (constant S_ .f32 cnt))

include hR in

theorem meanRow_apply (cnt : BitVec 32) (X : FVec Ideal (Rows128 M) .f32) (u : Fin 1) (q : Fin 128) :
    meanRow hT cnt X (ix2 u q) = Spec.colmean (Ideal.ofBits .f32 cnt) (Spec.cur X) q := by
  unfold meanRow
  rw [hostDivf_apply, vector_as_row, sum_down_rows hT hR, broadcastInDim_scalar_apply, constant_apply]
  rfl

def divisor (cnt : BitVec 32) : FVec Ideal S_ .f32 :=
  subf (constant S_ .f32 cnt) (sitofp .f32 (constantI S_ 32 0#32))

theorem divisor_apply (cnt : BitVec 32) : divisor cnt ix0 = Ideal.ofBits .f32 cnt := by
  show Ideal.ofBits .f32 cnt - (((0#32 : BitVec 32).toInt : ℝ) : EReal) = _
  rw [show (0#32 : BitVec 32).toInt = 0 from by decide]
  simp

theorem divisor_positive (cnt : BitVec 32) (hpos : 0 < Ideal.ofBits .f32 cnt) :
    cmpf .ogt (divisor cnt) (constant S_ .f32 0x00000000#32) ix0 = 1#1 := by
  show Ideal.cmp .ogt (divisor cnt ix0) (Ideal.ofBits .f32 0x00000000#32) = 1#1
  rw [divisor_apply, Ideal.ofBits_zero_f32]
  unfold Ideal.cmp
  simp [hpos]

def varRow (cnt : BitVec 32) (X : FVec Ideal (Rows128 M) .f32) : FVec Ideal S1x128 .f32 :=
  select (broadcastInDim S1x128 ![] bcast_S_S1x128 (cmpf .ogt (divisor cnt) (constant S_ .f32 0x00000000#32)))
    (Host.divf
      (broadcastInDim S1x128 ![1] bcast_S128_S1x128_1
        (Host.reduceAdd
          (mulf (subf X (broadcastInDim (Rows128 M) ![0, 1] hB (meanRow hT cnt X)))
            (subf X (broadcastInDim (Rows128 M) ![0, 1] hB (meanRow hT cnt X))))
          (constant S_ .f32 0x00000000#32) hT h_S_))
      (broadcastInDim S1x128 ![] bcast_S_S1x128 (divisor cnt)))
    (broadcastInDim S1x128 ![] bcast_S_S1x128 (id (constant S_ .f32 0x7FC00000#32)))

include hR in

theorem varRow_apply (cnt : BitVec 32) (hpos : 0 < Ideal.ofBits .f32 cnt) (X : FVec Ideal (Rows128 M) .f32)
    (u : Fin 1) (q : Fin 128) :
    varRow hT hB cnt X (ix2 u q) = Spec.colvar (Ideal.ofBits .f32 cnt) (Spec.cur X) q := by
  unfold varRow
  rw [select_apply, broadcastInDim_scalar_apply, divisor_positive cnt hpos, select_one, hostDivf_apply, vector_as_row,
    sum_down_rows hT hR, broadcastInDim_scalar_apply, divisor_apply]
  unfold Spec.colvar
  refine congrArg (fun s => Ideal.div s (Ideal.ofBits .f32 cnt)) (Finset.sum_congr rfl fun p _ => ?_)
  rw [mulf_apply, subf_apply, row_down_rows hB, meanRow_apply hT hR]
  rfl

end

theorem relaid_row (v : S128.Idx → EReal) :
    Spec.curRow (shapeCast S1x128 v shapeCasts_S128_S1x128) = Spec.cur1 v := by
  funext q
  exact shapeCast_a_1a_apply v shapeCasts_S128_S1x128 0 q

theorem nodes_reduce : S50000x128.Reduces [0] S128 := by decide
theorem edges_reduce : S500000x128.Reduces [0] S128 := by decide

end ColStats

end Cert.KernelIdeal.Hand

end
-- ==== Proof.KI.HostVal.lean ====
import proofs.«429521_j46961172414534_2_alg».proof.Proof.Gen.KernelIdeal.Regions
import proofs.«429521_j46961172414534_2_alg».proof.Proof.KI.HostStats
import Idealize.ShloMosaic.Lib.StableHlo.Run

set_option maxRecDepth 16384

noncomputable section

namespace Cert.KernelIdeal.Hand

open Idealize.ShloMosaic Idealize.ShloMosaic.TcCoe Idealize.ShloMosaic.ValueIdx
open Cert.KernelIdeal Cert.KernelIdeal.Gen
open ColStats
open scoped BigOperators

variable (W : Valuation τ sig (Elt Ideal))

-- Contents moved to a buffer's own type and back are unchanged.
theorem typed_round_trip {T : BufTy} (x : StableHlo.TRef sig T) (v : T.Contents (Elt Ideal)) :
    x.ofBuf (x.toBuf v) = v := by
  obtain ⟨r, h, _, _⟩ := x
  subst h
  rfl

abbrev afterNodeStats : Valuation τ sig (Elt Ideal) :=
  StableHlo.after hostOps7_2 (StableHlo.after hostOps7_1 (StableHlo.after hostOps7 W))

theorem nodeStats_mean :
    Spec.curRow (afterNodeStats W (Proc.devRef .tc main_v17) : S1x128.Idx → EReal)
      = Spec.colmean Spec.cntN (Spec.cur (W (Proc.devRef .tc main_v13) : S50000x128.Idx → EReal)) := by
  funext q
  refine Eq.trans ?_ (meanRow_apply reducesTo_S50000x128_S128_d0 nodes_reduce 0x47435000#32 (W (Proc.devRef .tc main_v13)) 0 q)
  dsimp only [afterNodeStats, hostOps7, hostOps7_1, hostOps7_2]
  after_results
  rfl

set_option maxHeartbeats 1000000 in
-- The routine's test "count − 0 > 0" holds.
theorem nodeStats_var :
    Spec.curRow (afterNodeStats W (Proc.devRef .tc main_v18) : S1x128.Idx → EReal)
      = Spec.colvar Spec.cntN (Spec.cur (W (Proc.devRef .tc main_v13) : S50000x128.Idx → EReal)) := by
  funext q
  refine Eq.trans ?_ (varRow_apply reducesTo_S50000x128_S128_d0 nodes_reduce bcast_S1x128_S50000x128_0_1 0x47435000#32 count_nodes_pos
    (W (Proc.devRef .tc main_v13)) 0 q)
  dsimp only [afterNodeStats, hostOps7, hostOps7_1, hostOps7_2]
  after_results_simp
  simp only [typed_round_trip]
  rfl

theorem nodeStats_gamma :
    Spec.curRow (afterNodeStats W (Proc.devRef .tc main_v19) : S1x128.Idx → EReal)
      = Spec.cur1 (W (Proc.devRef .tc main_arg14) : S128.Idx → EReal) := by
  refine Eq.trans (congrArg Spec.curRow ?_) (relaid_row _)
  dsimp only [afterNodeStats, hostOps7, hostOps7_1, hostOps7_2]
  after_results
  rfl

theorem nodeStats_beta :
    Spec.curRow (afterNodeStats W (Proc.devRef .tc main_v20) : S1x128.Idx → EReal)
      = Spec.cur1 (W (Proc.devRef .tc main_arg15) : S128.Idx → EReal) := by
  refine Eq.trans (congrArg Spec.curRow ?_) (relaid_row _)
  dsimp only [afterNodeStats, hostOps7, hostOps7_1, hostOps7_2]
  after_results
  rfl

end Cert.KernelIdeal.Hand

end
-- ==== Proof.KI.HostValE.lean ====
import proofs.«429521_j46961172414534_2_alg».proof.Proof.KI.HostVal

set_option maxRecDepth 16384

noncomputable section

namespace Cert.KernelIdeal.Hand

open Idealize.ShloMosaic Idealize.ShloMosaic.TcCoe Idealize.ShloMosaic.ValueIdx
open Cert.KernelIdeal Cert.KernelIdeal.Gen
open ColStats
open scoped BigOperators

variable (W : Valuation τ sig (Elt Ideal))

abbrev afterEdgeStats : Valuation τ sig (Elt Ideal) :=
  StableHlo.after hostOps8_2 (StableHlo.after hostOps8_1 (StableHlo.after hostOps8 W))

theorem edgeStats_mean :
    Spec.curRow (afterEdgeStats W (Proc.devRef .tc main_v25) : S1x128.Idx → EReal)
      = Spec.colmean Spec.cntE (Spec.cur (W (Proc.devRef .tc main_v12_0) : S500000x128.Idx → EReal)) := by
  funext q
  refine Eq.trans ?_ (meanRow_apply reducesTo_S500000x128_S128_d0 edges_reduce 0x48F42400#32 (W (Proc.devRef .tc main_v12_0)) 0 q)
  dsimp only [afterEdgeStats, hostOps8, hostOps8_1, hostOps8_2]
  after_results
  rfl

set_option maxHeartbeats 1000000 in
-- The routine's test "count − 0 > 0" holds.
theorem edgeStats_var :
    Spec.curRow (afterEdgeStats W (Proc.devRef .tc main_v26) : S1x128.Idx → EReal)
      = Spec.colvar Spec.cntE (Spec.cur (W (Proc.devRef .tc main_v12_0) : S500000x128.Idx → EReal)) := by
  funext q
  refine Eq.trans ?_ (varRow_apply reducesTo_S500000x128_S128_d0 edges_reduce bcast_S1x128_S500000x128_0_1 0x48F42400#32 count_edges_pos
    (W (Proc.devRef .tc main_v12_0)) 0 q)
  dsimp only [afterEdgeStats, hostOps8, hostOps8_1, hostOps8_2]
  after_results_simp
  simp only [typed_round_trip]
  rfl

theorem edgeStats_gamma :
    Spec.curRow (afterEdgeStats W (Proc.devRef .tc main_v27) : S1x128.Idx → EReal)
      = Spec.cur1 (W (Proc.devRef .tc main_arg16) : S128.Idx → EReal) := by
  refine Eq.trans (congrArg Spec.curRow ?_) (relaid_row _)
  dsimp only [afterEdgeStats, hostOps8, hostOps8_1, hostOps8_2]
  after_results
  rfl

theorem edgeStats_beta :
    Spec.curRow (afterEdgeStats W (Proc.devRef .tc main_v28) : S1x128.Idx → EReal)
      = Spec.cur1 (W (Proc.devRef .tc main_arg17) : S128.Idx → EReal) := by
  refine Eq.trans (congrArg Spec.curRow ?_) (relaid_row _)
  dsimp only [afterEdgeStats, hostOps8, hostOps8_1, hostOps8_2]
  after_results
  rfl

end Cert.KernelIdeal.Hand

end
-- ==== Proof.KI.ValLin.lean ====
import proofs.«429521_j46961172414534_2_alg».proof.Proof.KI.RegLin
import proofs.«429521_j46961172414534_2_alg».proof.Proof.Spec
import Idealize.ShloMosaic.Lib.Pipeline.Value
import Idealize.ShloMosaic.Lib.ValueLayout
import Idealize.ShloMosaic.Lib.ValueIdx
import Idealize.ShloMosaic.Lib.StackMember
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

/-- A product into a zero accumulator is the sum, over the contracted coordinate, of the products of the entries. -/
theorem linProduct {m k n : ℕ} (A : FVec Ideal ⟨2, ![m, k]⟩ .bf16) (B : FVec Ideal ⟨2, ![k, n]⟩ .bf16) (a : Fin m) (b : Fin n) :
    matmul (DotDims.plain m k n) none A B (constant _ .f32 0x00000000#32) (ix2 a b) = ∑ c : Fin k, A (ix2 a c) * B (ix2 c b) := by
  rw [← StackMember.dotGeneral_plain_apply none A B a b]
  simp only [matmul, Host.dotGeneral]
  rw [Ideal.matmul_constant_zero_apply, Ideal.dotGeneral_apply]

/-- Entry (p, q) is Σₖ x[p,k] · W[q,k] + b[0,q]: the transpose swaps the weight's coordinates, the bias row is read at column q. -/
theorem linPoint {n M : ℕ} (hb hT hC hB) (x : Vec Ideal ⟨2, ![n, 128]⟩ .f32) (w W : Vec Ideal ⟨2, ![128, 128]⟩ .f32)
    (b B : Vec Ideal ⟨2, ![1, 128]⟩ .f32) (X : (⟨2, ![M, 128]⟩ : Shape).Idx → EReal) (j : (⟨2, ![n, 128]⟩ : Shape).Idx)
    (i : (⟨2, ![M, 128]⟩ : Shape).Idx) (hw : w = W) (hb' : b = B) (hrow : ∀ k : Fin 128, x (ix2 (j 0) k) = X (ix2 (i 0) k))
    (hcol : i 1 = j 1) :
    addf (F := Ideal) (matmul (DotDims.plain n 128 128) none (truncf (φ := .f32) .bf16 x hb)
        (transpose ⟨2, ![128, 128]⟩ [1, 0] (truncf (φ := .f32) .bf16 w hb) hT) (constant _ .f32 0x00000000#32))
      (broadcastTo ⟨2, ![n, 128]⟩ (shapeCast ⟨2, ![1, 128]⟩ b hC) hB) j
      = Spec.uncur (Spec.lin (Spec.cur X) (Spec.cur W) (Spec.curRow B)) i := by
  subst hw hb'
  obtain ⟨p, q, rfl⟩ : ∃ (p : Fin n) (q : Fin 128), j = ix2 p q := ⟨j 0, j 1, eq_ix2 j⟩
  rw [addf_apply, linProduct, broadcastTo_1b_ab_apply, shapeCast_self]
  show _ = (∑ k : Fin 128, X (ix2 (i 0) k) * w (ix2 (i 1) k)) + b (ix2 0 (i 1))
  rw [hcol]
  refine congrArg (· + b (ix2 (0 : Fin 1) q)) (Finset.sum_congr rfl fun k _ => ?_)
  rw [transpose_ix2_apply, ← hrow k]
  rfl

theorem linZeroOff : (![0, 0] : Fin 2 → Nat) = fun _ => 0 := funext fun a => by fin_cases a <;> rfl

/-- A function of an index depends only on the coordinates' values. -/
theorem sameAt {s : Shape} {α : Type} (f : s.Idx → α) {e e' : s.Idx} (h : ∀ a, (e a : ℕ) = e' a) : f e = f e' :=
  congrArg f (funext fun a => Fin.ext (h a))

/-- Row i lies in the block of n rows numbered i / n, at every column. -/
theorem rowsMem {n M : ℕ} (hn : 0 < n) (i : (⟨2, ![M, 128]⟩ : Shape).Idx) (idx : Fin 2 → ℕ) (h0 : idx 0 = (i 0).val / n)
    (h1 : idx 1 = 0) (a : Fin 2) : idx a * (![n, 128] : Fin 2 → ℕ) a ≤ (i a).val
      ∧ (i a).val < idx a * (![n, 128] : Fin 2 → ℕ) a + (![n, 128] : Fin 2 → ℕ) a := by
  match a with
  | ⟨0, _⟩ => show idx 0 * n ≤ (i 0).val ∧ (i 0).val < idx 0 * n + n; rw [h0]; exact ⟨Nat.div_mul_le_self _ _, Nat.lt_div_mul_add hn⟩
  | ⟨1, _⟩ => show idx 1 * 128 ≤ (i 1).val ∧ (i 1).val < idx 1 * 128 + 128; rw [h1]; have := idx2_lt1 i; omega

/-- Two blocks with one block index, the column index zero, show the same array row at a common block row. -/
theorem rowSame {n M : ℕ} (i0 i3 : Fin 2 → ℕ) (h : ∀ a, i0 a = i3 a) (e7 : i3 1 = 0) (j : (⟨2, ![n, 128]⟩ : Shape).Idx) (k : Fin 128)
    (e0 e3 : (⟨2, ![M, 128]⟩ : Shape).Idx) (h0 : ∀ a, (e0 a : ℕ) = i0 a * (![n, 128] : Fin 2 → ℕ) a + (ix2 (j 0) k a : ℕ))
    (h3 : ∀ a, (e3 a : ℕ) = i3 a * (![n, 128] : Fin 2 → ℕ) a + (j a : ℕ)) (a : Fin 2) : (e0 a : ℕ) = (ix2 (e3 0) k a : ℕ) := by
  rw [h0, h]
  match a with
  | ⟨0, _⟩ => exact (h3 0).symm
  | ⟨1, _⟩ => show i3 1 * 128 + k.val = k.val; rw [e7, Nat.zero_mul, Nat.zero_add]

variable (V : (c : Dev nD) → (b : Ref sig .tc) → Buf (Elt Ideal) ((c : Thread nD τ).loc b))

theorem linBlockIdx0 : ∀ t : Fin cfg0.N, (∀ a, win0_1.index t a = 0 ∧ win0_2.index t a = 0 ∧ win0_0.index t a = win0_3.index t a)
    ∧ win0_3.index t (0 : Fin 2) = t.val ∧ win0_3.index t (1 : Fin 2) = 0 :=
  (by decide +kernel : ∀ t : Fin grid0.N, _)

abbrev linArr0 (c : Dev nD) : S50000x128.Idx → EReal :=
  Spec.uncur (Spec.lin (Spec.cur (V c main_arg0 : S50000x128.Idx → EReal)) (Spec.cur (V c main_arg4 : S128x128.Idx → EReal))
    (Spec.curRow (V c main_v2 : S1x128.Idx → EReal)))

theorem val0 (c : Dev nD) : (dat0 (F := Ideal) V c).arrAt 3 cfg0.N = linArr0 V c := by
  refine (dat0 (F := Ideal) V c).arrAt_eq_of_cover 3 (linArr0 V c) (fun t _ => ?_) fun (i : S50000x128.Idx) => ?_
  · obtain ⟨h, -, e7⟩ := linBlockIdx0 t
    rw [Dat.flushed, after0_3, out0_3, View.canon_unit_zero linZeroOff, View.ld_unit_zero linZeroOff, View.ld_unit_zero linZeroOff,
      View.ld_unit_zero linZeroOff]
    funext j
    rw [View.read_apply]
    exact linPoint _ _ _ _ (iblk0 V c 0 t) (iblk0 V c 1 t) (V c main_arg4) (iblk0 V c 2 t) (V c main_v2) (V c main_arg0) j
      (((cfg0.win 3).blk t).view.emb j)
      (funext fun y => sameAt _ fun a => win0_1.rect_emb_val_of_index_zero t a (h a).1 y)
      (funext fun y => sameAt _ fun a => win0_2.rect_emb_val_of_index_zero t a (h a).2.1 y)
      (fun k => sameAt (V c main_arg0 : S50000x128.Idx → EReal) (rowSame (n := 2000) (M := 50000) (win0_0.index t) (win0_3.index t)
        (fun a => (h a).2.2) e7 j k _ _ (win0_0.rect_emb_val t _) (win0_3.rect_emb_val t j)))
      (Fin.ext (win0_3.rect_emb_val_of_index_zero t 1 e7 j))
  · let t : Fin cfg0.N := ⟨(i 0).val / 2000, by have := idx2_lt0 i; have : cfg0.N = 25 := N_0; omega⟩
    obtain ⟨-, e6, e7⟩ := linBlockIdx0 t
    refine ⟨t, flush0_3 t, ?_⟩
    show i ∈ ((View.whole main_v3).slice (win0_3.rect t)).set
    rw [View.set_slice_whole, Rect.mem_set_unit]
    exact rowsMem (by decide) i _ e6 e7

abbrev linArr1 (c : Dev nD) : S50000x128.Idx → EReal :=
  Spec.uncur (Spec.lin (Spec.cur (V c main_arg0 : S50000x128.Idx → EReal)) (Spec.cur (V c main_arg6 : S128x128.Idx → EReal))
    (Spec.curRow (V c main_v4 : S1x128.Idx → EReal)))

theorem val1 (c : Dev nD) : (dat1 (F := Ideal) V c).arrAt 3 cfg1.N = linArr1 V c := by
  refine (dat1 (F := Ideal) V c).arrAt_eq_of_cover 3 (linArr1 V c) (fun t _ => ?_) fun (i : S50000x128.Idx) => ?_
  · obtain ⟨h, -, e7⟩ := linBlockIdx0 t
    rw [Dat.flushed, after1_3, out1_3, View.canon_unit_zero linZeroOff, View.ld_unit_zero linZeroOff, View.ld_unit_zero linZeroOff,
      View.ld_unit_zero linZeroOff]
    funext j
    rw [View.read_apply]
    exact linPoint _ _ _ _ (iblk1 V c 0 t) (iblk1 V c 1 t) (V c main_arg6) (iblk1 V c 2 t) (V c main_v4) (V c main_arg0) j
      (((cfg1.win 3).blk t).view.emb j)
      (funext fun y => sameAt _ fun a => win1_1.rect_emb_val_of_index_zero t a (h a).1 y)
      (funext fun y => sameAt _ fun a => win1_2.rect_emb_val_of_index_zero t a (h a).2.1 y)
      (fun k => sameAt (V c main_arg0 : S50000x128.Idx → EReal) (rowSame (n := 2000) (M := 50000) (win1_0.index t) (win1_3.index t)
        (fun a => (h a).2.2) e7 j k _ _ (win1_0.rect_emb_val t _) (win1_3.rect_emb_val t j)))
      (Fin.ext (win1_3.rect_emb_val_of_index_zero t 1 e7 j))
  · let t : Fin cfg1.N := ⟨(i 0).val / 2000, by have := idx2_lt0 i; have : cfg1.N = 25 := N_1; omega⟩
    obtain ⟨-, e6, e7⟩ := linBlockIdx0 t
    refine ⟨t, flush1_3 t, ?_⟩
    show i ∈ ((View.whole main_v5).slice (win1_3.rect t)).set
    rw [View.set_slice_whole, Rect.mem_set_unit]
    exact rowsMem (by decide) i _ e6 e7

abbrev linArr2 (c : Dev nD) : S50000x128.Idx → EReal :=
  Spec.uncur (Spec.lin (Spec.cur (V c main_arg0 : S50000x128.Idx → EReal)) (Spec.cur (V c main_arg10 : S128x128.Idx → EReal))
    (Spec.curRow (V c main_v6 : S1x128.Idx → EReal)))

theorem val2 (c : Dev nD) : (dat2 (F := Ideal) V c).arrAt 3 cfg2.N = linArr2 V c := by
  refine (dat2 (F := Ideal) V c).arrAt_eq_of_cover 3 (linArr2 V c) (fun t _ => ?_) fun (i : S50000x128.Idx) => ?_
  · obtain ⟨h, -, e7⟩ := linBlockIdx0 t
    rw [Dat.flushed, after2_3, out2_3, View.canon_unit_zero linZeroOff, View.ld_unit_zero linZeroOff, View.ld_unit_zero linZeroOff,
      View.ld_unit_zero linZeroOff]
    funext j
    rw [View.read_apply]
    exact linPoint _ _ _ _ (iblk2 V c 0 t) (iblk2 V c 1 t) (V c main_arg10) (iblk2 V c 2 t) (V c main_v6) (V c main_arg0) j
      (((cfg2.win 3).blk t).view.emb j)
      (funext fun y => sameAt _ fun a => win2_1.rect_emb_val_of_index_zero t a (h a).1 y)
      (funext fun y => sameAt _ fun a => win2_2.rect_emb_val_of_index_zero t a (h a).2.1 y)
      (fun k => sameAt (V c main_arg0 : S50000x128.Idx → EReal) (rowSame (n := 2000) (M := 50000) (win2_0.index t) (win2_3.index t)
        (fun a => (h a).2.2) e7 j k _ _ (win2_0.rect_emb_val t _) (win2_3.rect_emb_val t j)))
      (Fin.ext (win2_3.rect_emb_val_of_index_zero t 1 e7 j))
  · let t : Fin cfg2.N := ⟨(i 0).val / 2000, by have := idx2_lt0 i; have : cfg2.N = 25 := N_2; omega⟩
    obtain ⟨-, e6, e7⟩ := linBlockIdx0 t
    refine ⟨t, flush2_3 t, ?_⟩
    show i ∈ ((View.whole main_v7).slice (win2_3.rect t)).set
    rw [View.set_slice_whole, Rect.mem_set_unit]
    exact rowsMem (by decide) i _ e6 e7

abbrev linArr3 (c : Dev nD) : S50000x128.Idx → EReal :=
  Spec.uncur (Spec.lin (Spec.cur (V c main_arg0 : S50000x128.Idx → EReal)) (Spec.cur (V c main_arg12 : S128x128.Idx → EReal))
    (Spec.curRow (V c main_v8 : S1x128.Idx → EReal)))

theorem val3 (c : Dev nD) : (dat3 (F := Ideal) V c).arrAt 3 cfg3.N = linArr3 V c := by
  refine (dat3 (F := Ideal) V c).arrAt_eq_of_cover 3 (linArr3 V c) (fun t _ => ?_) fun (i : S50000x128.Idx) => ?_
  · obtain ⟨h, -, e7⟩ := linBlockIdx0 t
    rw [Dat.flushed, after3_3, out3_3, View.canon_unit_zero linZeroOff, View.ld_unit_zero linZeroOff, View.ld_unit_zero linZeroOff,
      View.ld_unit_zero linZeroOff]
    funext j
    rw [View.read_apply]
    exact linPoint _ _ _ _ (iblk3 V c 0 t) (iblk3 V c 1 t) (V c main_arg12) (iblk3 V c 2 t) (V c main_v8) (V c main_arg0) j
      (((cfg3.win 3).blk t).view.emb j)
      (funext fun y => sameAt _ fun a => win3_1.rect_emb_val_of_index_zero t a (h a).1 y)
      (funext fun y => sameAt _ fun a => win3_2.rect_emb_val_of_index_zero t a (h a).2.1 y)
      (fun k => sameAt (V c main_arg0 : S50000x128.Idx → EReal) (rowSame (n := 2000) (M := 50000) (win3_0.index t) (win3_3.index t)
        (fun a => (h a).2.2) e7 j k _ _ (win3_0.rect_emb_val t _) (win3_3.rect_emb_val t j)))
      (Fin.ext (win3_3.rect_emb_val_of_index_zero t 1 e7 j))
  · let t : Fin cfg3.N := ⟨(i 0).val / 2000, by have := idx2_lt0 i; have : cfg3.N = 25 := N_3; omega⟩
    obtain ⟨-, e6, e7⟩ := linBlockIdx0 t
    refine ⟨t, flush3_3 t, ?_⟩
    show i ∈ ((View.whole main_v9).slice (win3_3.rect t)).set
    rw [View.set_slice_whole, Rect.mem_set_unit]
    exact rowsMem (by decide) i _ e6 e7

theorem linBlockIdx4 : ∀ t : Fin cfg4.N, (∀ a, win4_1.index t a = 0 ∧ win4_2.index t a = 0 ∧ win4_0.index t a = win4_3.index t a)
    ∧ win4_3.index t (0 : Fin 2) = t.val ∧ win4_3.index t (1 : Fin 2) = 0 :=
  (by decide +kernel : ∀ t : Fin grid4.N, _)

abbrev linArr4 (c : Dev nD) : S500000x128.Idx → EReal :=
  Spec.uncur (Spec.lin (Spec.cur (V c main_arg1 : S500000x128.Idx → EReal)) (Spec.cur (V c main_arg8 : S128x128.Idx → EReal))
    (Spec.curRow (V c main_v10 : S1x128.Idx → EReal)))

theorem val4 (c : Dev nD) : (dat4 (F := Ideal) V c).arrAt 3 cfg4.N = linArr4 V c := by
  refine (dat4 (F := Ideal) V c).arrAt_eq_of_cover 3 (linArr4 V c) (fun t _ => ?_) fun (i : S500000x128.Idx) => ?_
  · obtain ⟨h, -, e7⟩ := linBlockIdx4 t
    rw [Dat.flushed, after4_3, out4_3, View.canon_unit_zero linZeroOff, View.ld_unit_zero linZeroOff, View.ld_unit_zero linZeroOff,
      View.ld_unit_zero linZeroOff]
    funext j
    rw [View.read_apply]
    exact linPoint _ _ _ _ (iblk4 V c 0 t) (iblk4 V c 1 t) (V c main_arg8) (iblk4 V c 2 t) (V c main_v10) (V c main_arg1) j
      (((cfg4.win 3).blk t).view.emb j)
      (funext fun y => sameAt _ fun a => win4_1.rect_emb_val_of_index_zero t a (h a).1 y)
      (funext fun y => sameAt _ fun a => win4_2.rect_emb_val_of_index_zero t a (h a).2.1 y)
      (fun k => sameAt (V c main_arg1 : S500000x128.Idx → EReal) (rowSame (n := 5000) (M := 500000) (win4_0.index t) (win4_3.index t)
        (fun a => (h a).2.2) e7 j k _ _ (win4_0.rect_emb_val t _) (win4_3.rect_emb_val t j)))
      (Fin.ext (win4_3.rect_emb_val_of_index_zero t 1 e7 j))
  · let t : Fin cfg4.N := ⟨(i 0).val / 5000, by have := idx2_lt0 i; have : cfg4.N = 100 := N_4; omega⟩
    obtain ⟨-, e6, e7⟩ := linBlockIdx4 t
    refine ⟨t, flush4_3 t, ?_⟩
    show i ∈ ((View.whole main_v11).slice (win4_3.rect t)).set
    rw [View.set_slice_whole, Rect.mem_set_unit]
    exact rowsMem (by decide) i _ e6 e7

end Cert.KernelIdeal.Hand

end
-- ==== Proof.BridgeGather.lean ====
import proofs.«429521_j46961172414534_2_alg».proof.Proof.Spec
import Idealize.ShloMosaic.PureOps.Ideal
import Idealize.ShloMosaic.PureOps.Ideal.Laws
import Idealize.ShloMosaic.Lib.ValueIdx
import Mathlib.Algebra.BigOperators.Group.Finset.Basic
import Mathlib.Data.EReal.Basic

noncomputable section

namespace Cert.Bridge

open Idealize.ShloMosaic Idealize.ShloMosaic.ValueIdx
open scoped BigOperators

/-- The node id word of row j of block s: s · 2000 + j in 32-bit arithmetic. -/
def nodeWord (s j : ℕ) : BitVec 32 := IntOp.addi (Scalar.muli (BitVec.ofNat 32 s) 2000#32) (BitVec.ofNat 32 j)

/-- The one-hot entry formed from two words: the equality bit, widened to a word, read signed. -/
def hot (w k : BitVec 32) : EReal := (((((IntOp.cmpi .eq w k).setWidth 32 : BitVec 32).toInt : ℤ) : ℝ) : EReal)

theorem hot_eq (w k : BitVec 32) : hot w k = if w = k then 1 else 0 := by
  unfold hot IntOp.cmpi
  by_cases h : w = k
  · subst h; simp
  · have : (w == k) = false := by simpa using h
    simp [this, h]

/-- For s < 25 and j < 2000 the node id word does not wrap, and words are equal exactly when their signed values are. -/
theorem hot_nodeWord (w : BitVec 32) (n s j : ℕ) (hw : w.toInt = (n : ℤ)) (hs : s < 25) (hj : j < 2000) :
    hot w (nodeWord s j) = if n = s * 2000 + j then 1 else 0 := by
  have hk : (nodeWord s j).toNat = s * 2000 + j := by
    unfold nodeWord IntOp.addi Scalar.muli IntOp.muli
    rw [BitVec.toNat_add, BitVec.toNat_mul, BitVec.toNat_ofNat, BitVec.toNat_ofNat]
    show (s % 2 ^ 32 * 2000 % 2 ^ 32 + j % 2 ^ 32) % 2 ^ 32 = s * 2000 + j
    omega
  have he : w = nodeWord s j ↔ n = s * 2000 + j := by
    rw [← BitVec.toInt_inj, hw, BitVec.toInt_eq_toNat_of_lt (by omega), hk]
    exact Nat.cast_inj
  rw [hot_eq]
  exact if_congr he rfl rfl

/-- Exactly one (s, j) has 2000·s + j = n, so the one-hot rows against the table's 25 blocks add up to row n. -/
theorem zero_add_blocks_sum (n : Fin 50000) (T : Fin 50000 → EReal) (hot blk : ℕ → Fin 2000 → EReal)
    (hhot : ∀ s, s < 25 → ∀ j : Fin 2000, hot s j = if n.val = s * 2000 + j.val then 1 else 0)
    (hblk : ∀ s (hs : s < 25) (j : Fin 2000), blk s j = T ⟨s * 2000 + j.val, by have := j.isLt; omega⟩) :
    (0 : EReal) + ∑ s ∈ Finset.range (24 + 1), ∑ j : Fin 2000, hot s j * blk s j = T n := by
  have hn := n.isLt
  have hs : n.val / 2000 < 25 := by omega
  rw [zero_add, Finset.sum_eq_single_of_mem _ (Finset.mem_range.mpr hs),
    Finset.sum_eq_single_of_mem ⟨n.val % 2000, Nat.mod_lt _ (by decide)⟩ (Finset.mem_univ _),
    hhot _ hs, hblk _ hs, if_pos (by show n.val = n.val / 2000 * 2000 + n.val % 2000; omega), one_mul]
  · exact congrArg T (Fin.ext (by show n.val / 2000 * 2000 + n.val % 2000 = n.val; omega))
  · intro j _ hne
    rw [hhot _ hs, if_neg fun e => hne (Fin.ext (by show j.val = n.val % 2000; omega)), zero_mul]
  · intro s hs' hne
    refine Finset.sum_eq_zero fun j _ => ?_
    rw [hhot s (Finset.mem_range.mp hs'), if_neg fun e => hne (by have := j.isLt; omega), zero_mul]

/-- 1 / (1 + e^(0 − x)) is the logistic function of the layer, since 0 − x = −x. -/
theorem sig_printed (x : EReal) : Ideal.div 1 (1 + Ideal.exp (0 - x)) = Spec.sig x := by
  unfold Spec.sig
  rw [zero_sub]

end Cert.Bridge

end
-- ==== Proof.KI.Pay5.lean ====
import proofs.«429521_j46961172414534_2_alg».proof.Proof.Gen.KernelIdeal.Skeleton
import proofs.«429521_j46961172414534_2_alg».proof.Proof.BridgeGather
import Idealize.ShloMosaic.PureOps.Ideal.Laws
import Idealize.ShloMosaic.Lib.Pipeline.Value
import Idealize.ShloMosaic.Lib.ValueLayout
import Idealize.ShloMosaic.Lib.IdealHost

noncomputable section

namespace Cert.KernelIdeal.Hand

open Idealize.ShloMosaic Idealize.ShloMosaic.ValueIdx
open Cert.KernelIdeal Cert.KernelIdeal.Gen
open scoped BigOperators

theorem nodeRow5_apply (i : grid5.Coords) (j : Fin 2000) :
    k5_pay9 i (ix2 (0 : Fin 1) j) = Bridge.nodeWord (i 1).val j.val := by
  unfold k5_pay9 Bridge.nodeWord
  try dsimp only
  show IntOp.addi _ (iota .tc S1x2000 32 [1] iota_S1x2000_d1_w32 (ix2 (0 : Fin 1) j)) = _
  rw [iota_single_apply]
  rfl

theorem onehotSrc5_apply (i : grid5.Coords) (v7 : Vec Ideal S2000x1 .i32) (e j : Fin 2000) :
    k5_pay10 (F := Ideal) i v7 (ix2 e j) = Bridge.hot (v7 (ix2 e (0 : Fin 1))) (Bridge.nodeWord (i 1).val j.val) := by
  unfold k5_pay10
  try dsimp only
  rw [shapeCast_self]
  show (((((IntOp.cmpi .eq (broadcastTo S2000x2000 v7 broadcasts_S2000x1_S2000x2000 (ix2 e j))
    (broadcastTo S2000x2000 (k5_pay9 i) broadcasts_S1x2000_S2000x2000 (ix2 e j))).setWidth 32 : BitVec 32).toInt : ℤ) : ℝ) : EReal) = _
  rw [broadcastTo_1b_ab_apply, nodeRow5_apply,
    broadcastTo_apply v7 broadcasts_S2000x1_S2000x2000 (ix2 e j) (ix2 e (0 : Fin 1)) (fun a => by
      match a with
      | ⟨0, _⟩ => rfl
      | ⟨1, _⟩ => rfl)]
  rfl

theorem matmul5_apply (A : FVec Ideal S2000x2000 .bf16) (B : FVec Ideal S2000x128 .bf16) (acc : FVec Ideal S2000x128 .f32)
    (e : Fin 2000) (q : Fin 128) :
    matmul dot_S2000x2000_S2000x128_S2000x128_1_0_0_1_n_n none A B acc (ix2 e q)
      = acc (ix2 e q) + ∑ j : Fin 2000, A (ix2 e j) * B (ix2 j q) := by
  show FloatOps.matmul dot_S2000x2000_S2000x128_S2000x128_1_0_0_1_n_n none A B acc (ix2 e q) = _
  rw [Ideal.matmul_apply]
  congr 1
  rw [← Equiv.sum_comp (contrEquiv1 dot_S2000x2000_S2000x128_S2000x128_1_0_0_1_n_n 2000 rfl rfl).symm]
  refine Finset.sum_congr rfl fun j _ => ?_
  have hj := contrEquiv1_symm_val dot_S2000x2000_S2000x128_S2000x128_1_0_0_1_n_n 2000 rfl rfl j
  congr 2
  · exact Shape.idx_ext₂ rfl hj
  · exact Shape.idx_ext₂ hj rfl

theorem accD5_apply (i : grid5.Coords) (v7 : Vec Ideal S2000x1 .i32) (v23 v32 : Vec Ideal S2000x128 .f32)
    (e : Fin 2000) (q : Fin 128) :
    k5_pay14 (F := Ideal) i v7 v23 v32 (ix2 e q)
      = v32 (ix2 e q) + ∑ j : Fin 2000, Bridge.hot (v7 (ix2 e (0 : Fin 1))) (Bridge.nodeWord (i 1).val j.val) * v23 (ix2 j q) := by
  unfold k5_pay14
  try dsimp only
  rw [shapeCast_self, shapeCast_self]
  show v32 (ix2 e q) + matmul dot_S2000x2000_S2000x128_S2000x128_1_0_0_1_n_n none (k5_pay10 (F := Ideal) i v7)
      (truncf .bf16 v23 bitsLt_bf16_f32) (constant S2000x128 .f32 0x00000000#32) (ix2 e q) = _
  rw [matmul5_apply, constant_apply, Ideal.ofBits_zero_f32, zero_add]
  refine congrArg (v32 (ix2 e q) + ·) (Finset.sum_congr rfl fun j _ => ?_)
  rw [onehotSrc5_apply]
  rfl

theorem zeroD5_apply (x : S2000x128.Idx) : k5_pay6 (F := Ideal) x = 0 := by
  unfold k5_pay6
  try dsimp only
  rw [shapeCast_self]
  exact Ideal.ofBits_zero_f32

theorem enew5_apply (v53 v54 v56 : Vec Ideal S2000x128 .f32) (x : S2000x128.Idx) :
    k5_pay3 (F := Ideal) v53 v54 v56 x = v53 x + v54 x + v56 x := by
  unfold k5_pay3
  try dsimp only
  rw [shapeCast_self]
  rfl

theorem sigma5_apply (v53 v54 v56 : Vec Ideal S2000x128 .f32) (x : S2000x128.Idx) :
    k5_pay4 (F := Ideal) v53 v54 v56 x = Spec.sig (v53 x + v54 x + v56 x) := by
  unfold k5_pay4
  try dsimp only
  show Ideal.div (Ideal.ofBits .f32 0x3F800000#32)
      (Ideal.ofBits .f32 0x3F800000#32 + Ideal.exp (Ideal.ofBits .f32 0x00000000#32 - k5_pay3 (F := Ideal) v53 v54 v56 x)) = _
  rw [Ideal.ofBits_one_f32, Ideal.ofBits_zero_f32, enew5_apply, Bridge.sig_printed]

theorem gated5_apply (v53 v54 v56 v66 : Vec Ideal S2000x128 .f32) (x : S2000x128.Idx) :
    k5_pay5 (F := Ideal) v53 v54 v56 v66 x = v66 x * Spec.sig (v53 x + v54 x + v56 x) := by
  unfold k5_pay5
  try dsimp only
  show v66 x * k5_pay4 (F := Ideal) v53 v54 v56 x = _
  rw [sigma5_apply]

end Cert.KernelIdeal.Hand

end
-- ==== Proof.KI.Gather5.lean ====
import proofs.«429521_j46961172414534_2_alg».proof.Proof.Gen.KernelIdeal.Launch
import proofs.«429521_j46961172414534_2_alg».proof.Proof.Gen.KernelIdeal.Skeleton
import proofs.«429521_j46961172414534_2_alg».proof.Proof.Gen.KernelIdeal.Points
import proofs.«429521_j46961172414534_2_alg».proof.Proof.KI.Pay5
import proofs.«429521_j46961172414534_2_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

theorem gatherCoords5 : ∀ t : Fin cfg5.N,
    ((grid5.coords t) (0 : Fin 2)).val = t.val / 25 ∧ ((grid5.coords t) (1 : Fin 2)).val = t.val % 25 :=
  (by decide +kernel : ∀ t : Fin grid5.N, _)

theorem gatherBlockIdx5 : ∀ t : Fin cfg5.N,
    (win5_0.index t (0 : Fin 2) = t.val % 25 ∧ win5_0.index t (1 : Fin 2) = 0)
    ∧ (win5_1.index t (0 : Fin 2) = t.val % 25 ∧ win5_1.index t (1 : Fin 2) = 0)
    ∧ (win5_2.index t (0 : Fin 2) = t.val % 25 ∧ win5_2.index t (1 : Fin 2) = 0)
    ∧ (win5_3.index t (0 : Fin 2) = t.val / 25 ∧ win5_3.index t (1 : Fin 2) = 0)
    ∧ (win5_4.index t (0 : Fin 2) = t.val / 25 ∧ win5_4.index t (1 : Fin 2) = 0)
    ∧ (win5_5.index t (0 : Fin 2) = t.val / 25 ∧ win5_5.index t (1 : Fin 2) = 0) :=
  (by decide +kernel : ∀ t : Fin grid5.N, _)

def tableBlk5 (Tab : S50000x128.Idx → EReal) (q : Fin 128) (s : ℕ) (j : Fin 2000) : EReal :=
  if h : s < 25 then Tab (ix2 (⟨s * 2000 + j.val, by have := j.isLt; omega⟩ : Fin 50000) q) else 0

theorem onehot_fold5 {N : ℕ} (Tab : S50000x128.Idx → EReal) (eb : ℕ)
    (idxW : Fin 2000 → BitVec 32) (node : Fin 2000 → Fin 50000) (hnode : ∀ e, (idxW e).toInt = ((node e).val : ℤ))
    (z : Vec Ideal S2000x128 .f32) (hz : ∀ x, z x = 0)
    (upd : (n : ℕ) → n < N → Vec Ideal S2000x128 .f32 → Vec Ideal S2000x128 .f32)
    (hupd : ∀ n h a (e : Fin 2000) (q : Fin 128), n / 25 = eb → upd n h a (ix2 e q)
      = a (ix2 e q) + ∑ j : Fin 2000, Bridge.hot (idxW e) (Bridge.nodeWord (n % 25) j.val) * tableBlk5 Tab q (n % 25) j)
    (acc : (n : ℕ) → n < N → Vec Ideal S2000x128 .f32)
    (h0 : ∀ n h, n % 25 = 0 → acc n h = upd n h z)
    (hs : ∀ n (h : n + 1 < N), ¬(n + 1) % 25 = 0 → acc (n + 1) h = upd (n + 1) h (acc n (Nat.lt_of_succ_lt h)))
    (n : ℕ) (h : n < N) (hn : n / 25 = eb) (h24 : n % 25 = 24) (e : Fin 2000) (q : Fin 128) :
    acc n h (ix2 e q) = Tab (ix2 (node e) q) := by
  have hN : 25 * (n / 25) + n % 25 < N := by omega
  have hM : ∀ m hm a (i : S2000x128.Idx), m / 25 = eb → upd m hm a i = a i + ∑ j : Fin 2000,
      Bridge.hot (idxW (i 0)) (Bridge.nodeWord (m % 25) j.val) * tableBlk5 Tab (i 1) (m % 25) j := fun m hm a i hb => by
    obtain ⟨e', q', rfl⟩ : ∃ (e' : Fin 2000) (q' : Fin 128), i = ix2 e' q' := ⟨i 0, i 1, eq_ix2 i⟩
    exact hupd m hm a e' q' hb
  rw [Pipeline.eq_accAt_of_mod acc 25 (fun n h => upd n h z) upd h0 hs (by decide) n h hN,
    Pipeline.accAt_add_apply (fun n h => upd n h z) upd (fun _ => 0) (fun m i => ∑ j : Fin 2000,
      Bridge.hot (idxW (i 0)) (Bridge.nodeWord (m % 25) j.val) * tableBlk5 Tab (i 1) (m % 25) j) (25 * (n / 25)) 24
      (fun hb i => by rw [hM _ hb z i (by omega), hz]) (fun m hm a i _ _ => hM m hm a i (by omega)) (n % 25) (by omega) hN, h24]
  exact Bridge.zero_add_blocks_sum (node e) (fun r => Tab (ix2 r q))
    (fun s j => Bridge.hot (idxW e) (Bridge.nodeWord ((25 * (n / 25) + s) % 25) j.val))
    (fun s => tableBlk5 Tab q ((25 * (n / 25) + s) % 25))
    (fun s hs j => by rw [show (25 * (n / 25) + s) % 25 = s by omega]; exact Bridge.hot_nodeWord (idxW e) (node e).val s j.val (hnode e) hs j.isLt)
    (fun s hs j => by rw [show (25 * (n / 25) + s) % 25 = s by omega]; unfold tableBlk5; rw [dif_pos hs])

variable (V : (c : Dev nD) → (b : Ref sig .tc) → Buf (Elt Ideal) ((c : Thread nD τ).loc b))

def gblk5 (c : Dev nD) (w : Fin cfg5.W) (t : Fin cfg5.N) :
    ((cfg5.win w).xblock (cfg5.grid.coords t)).Idx → Elt Ideal (cfg5.win w).elt :=
  ((cfg5.win w).blk t).view.read (Elt Ideal) (V c (Pipeline.arrRef spec5 w))

def edgeRow5 (t : Fin cfg5.N) (e : Fin 2000) : Fin 500000 :=
  ⟨t.val / 25 * 2000 + e.val, by have := t.isLt; have := e.isLt; have hN : cfg5.N = 6250 := N_5; omega⟩

theorem gatherTblD5 (c : Dev nD) (t : Fin cfg5.N) (j : Fin 2000) (q : Fin 128) :
    (gblk5 V c 0 t : Vec Ideal S2000x128 .f32) (ix2 j q)
      = tableBlk5 (V c main_v7 : S50000x128.Idx → EReal) q (t.val % 25) j := by
  obtain ⟨⟨e0, e1⟩, -⟩ := gatherBlockIdx5 t
  unfold tableBlk5 gblk5
  rw [dif_pos (Nat.mod_lt _ (by decide)), View.read_apply]
  exact congrArg (V c main_v7 : S50000x128.Idx → EReal) (Shape.idx_ext₂
    (by show win5_0.index t (0 : Fin 2) * 2000 + 1 * j.val = t.val % 25 * 2000 + j.val; rw [e0]; omega)
    (by show win5_0.index t (1 : Fin 2) * 128 + 1 * q.val = q.val; rw [e1]; omega))

theorem gatherTblB5 (c : Dev nD) (t : Fin cfg5.N) (j : Fin 2000) (q : Fin 128) :
    (gblk5 V c 1 t : Vec Ideal S2000x128 .f32) (ix2 j q)
      = tableBlk5 (V c main_v5 : S50000x128.Idx → EReal) q (t.val % 25) j := by
  obtain ⟨-, ⟨e0, e1⟩, -⟩ := gatherBlockIdx5 t
  unfold tableBlk5 gblk5
  rw [dif_pos (Nat.mod_lt _ (by decide)), View.read_apply]
  exact congrArg (V c main_v5 : S50000x128.Idx → EReal) (Shape.idx_ext₂
    (by show win5_1.index t (0 : Fin 2) * 2000 + 1 * j.val = t.val % 25 * 2000 + j.val; rw [e0]; omega)
    (by show win5_1.index t (1 : Fin 2) * 128 + 1 * q.val = q.val; rw [e1]; omega))

theorem gatherTblE5 (c : Dev nD) (t : Fin cfg5.N) (j : Fin 2000) (q : Fin 128) :
    (gblk5 V c 2 t : Vec Ideal S2000x128 .f32) (ix2 j q)
      = tableBlk5 (V c main_v9 : S50000x128.Idx → EReal) q (t.val % 25) j := by
  obtain ⟨-, -, ⟨e0, e1⟩, -⟩ := gatherBlockIdx5 t
  unfold tableBlk5 gblk5
  rw [dif_pos (Nat.mod_lt _ (by decide)), View.read_apply]
  exact congrArg (V c main_v9 : S50000x128.Idx → EReal) (Shape.idx_ext₂
    (by show win5_2.index t (0 : Fin 2) * 2000 + 1 * j.val = t.val % 25 * 2000 + j.val; rw [e0]; omega)
    (by show win5_2.index t (1 : Fin 2) * 128 + 1 * q.val = q.val; rw [e1]; omega))

theorem gatherCe5 (c : Dev nD) (t : Fin cfg5.N) (e : Fin 2000) (q : Fin 128) :
    (gblk5 V c 3 t : Vec Ideal S2000x128 .f32) (ix2 e q)
      = (V c main_v11 : S500000x128.Idx → EReal) (ix2 (edgeRow5 t e) q) := by
  obtain ⟨-, -, -, ⟨e0, e1⟩, -⟩ := gatherBlockIdx5 t
  unfold gblk5
  rw [View.read_apply]
  exact congrArg (V c main_v11 : S500000x128.Idx → EReal) (Shape.idx_ext₂
    (by show win5_3.index t (0 : Fin 2) * 2000 + 1 * e.val = t.val / 25 * 2000 + e.val; rw [e0]; omega)
    (by show win5_3.index t (1 : Fin 2) * 128 + 1 * q.val = q.val; rw [e1]; omega))

theorem gatherSrc5 (c : Dev nD) (t : Fin cfg5.N) (e : Fin 2000) :
    (gblk5 V c 4 t : Vec Ideal S2000x1 .i32) (ix2 e (0 : Fin 1))
      = (V c main_v0 : S500000x1.Idx → BitVec 32) (ix2 (edgeRow5 t e) (0 : Fin 1)) := by
  obtain ⟨-, -, -, -, ⟨e0, e1⟩, -⟩ := gatherBlockIdx5 t
  unfold gblk5
  rw [View.read_apply]
  exact congrArg (V c main_v0 : S500000x1.Idx → BitVec 32) (Shape.idx_ext₂
    (by show win5_4.index t (0 : Fin 2) * 2000 + 1 * e.val = t.val / 25 * 2000 + e.val; rw [e0]; omega)
    (by show win5_4.index t (1 : Fin 2) * 1 + 1 * 0 = 0; rw [e1]))

theorem gatherDst5 (c : Dev nD) (t : Fin cfg5.N) (e : Fin 2000) :
    (gblk5 V c 5 t : Vec Ideal S2000x1 .i32) (ix2 e (0 : Fin 1))
      = (V c main_v1 : S500000x1.Idx → BitVec 32) (ix2 (edgeRow5 t e) (0 : Fin 1)) := by
  obtain ⟨-, -, -, -, -, e0, e1⟩ := gatherBlockIdx5 t
  unfold gblk5
  rw [View.read_apply]
  exact congrArg (V c main_v1 : S500000x1.Idx → BitVec 32) (Shape.idx_ext₂
    (by show win5_5.index t (0 : Fin 2) * 2000 + 1 * e.val = t.val / 25 * 2000 + e.val; rw [e0]; omega)
    (by show win5_5.index t (1 : Fin 2) * 1 + 1 * 0 = 0; rw [e1]))

end Cert.KernelIdeal.Hand

end
-- ==== Proof.KI.Blocks56.lean ====
import proofs.«429521_j46961172414534_2_alg».proof.Proof.Gen.KernelIdeal.Launch
import proofs.«429521_j46961172414534_2_alg».proof.Proof.Gen.KernelIdeal.Points
import proofs.«429521_j46961172414534_2_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

theorem nodeOutBlockIdx6 : ∀ t : Fin cfg6.N, win6_4.index t (0 : Fin 2) = t.val / 250 ∧ win6_4.index t (1 : Fin 2) = 0 :=
  (by decide +kernel : ∀ t : Fin grid6.N, _)

theorem nodeOutBlock_read6 (t : Fin cfg6.N) (G : S50000x128.Idx → EReal) (y : S2000x128.Idx) (i : S50000x128.Idx)
    (hrow : (i 0).val = t.val / 250 * 2000 + (y 0).val) (hcol : (i 1).val = (y 1).val) :
    ((cfg6.win 4).blk t).view.read (Elt Ideal) G y = G i := by
  obtain ⟨ea, eb⟩ := nodeOutBlockIdx6 t
  rw [View.read_apply]
  refine congrArg G (funext fun a => Fin.ext ?_)
  match a with
  | ⟨0, _⟩ => show win6_4.index t (0 : Fin 2) * 2000 + 1 * (y 0).val = (i 0).val; rw [ea, hrow]; omega
  | ⟨1, _⟩ => show win6_4.index t (1 : Fin 2) * 128 + 1 * (y 1).val = (i 1).val; rw [eb, hcol]; omega

theorem nodeOutCover6 (i : S50000x128.Idx) :
    ∃ t : Fin cfg6.N, (cfg6.win 4).flush t = true ∧ i ∈ ((cfg6.win 4).blk t).view.set := by
  have hrowLt : (i 0).val < 50000 := (i 0).isLt
  have hcolLt : (i 1).val < 128 := (i 1).isLt
  have hN : cfg6.N = 6250 := N_6
  let t : Fin cfg6.N := ⟨(i 0).val / 2000 * 250 + 249, by rw [hN]; omega⟩
  have ht : t.val = (i 0).val / 2000 * 250 + 249 := rfl
  obtain ⟨ea, eb⟩ := nodeOutBlockIdx6 t
  refine ⟨t, (flush6_4 t).mpr (by omega), ?_⟩
  show i ∈ ((View.whole main_v13).slice (win6_4.rect t)).set
  rw [View.set_slice_whole, Rect.mem_set_unit]
  intro a
  match a with
  | ⟨0, _⟩ =>
    show win6_4.index t (0 : Fin 2) * 2000 ≤ (i 0).val ∧ (i 0).val < win6_4.index t (0 : Fin 2) * 2000 + 2000
    rw [ea]; omega
  | ⟨1, _⟩ =>
    show win6_4.index t (1 : Fin 2) * 128 ≤ (i 1).val ∧ (i 1).val < win6_4.index t (1 : Fin 2) * 128 + 128
    rw [eb]; omega

theorem arr6_of_blocks (c : Dev nD) (dat : Dat τ (Elt Ideal) Unit ℕ (UR sig nD τ) ℕ cfg6 c) (G : S50000x128.Idx → EReal)
    (h : ∀ t : Fin cfg6.N, t.val % 250 = 249 → dat.after 4 t = ((cfg6.win 4).blk t).view.read (Elt Ideal) G) :
    dat.arrAt 4 cfg6.N = G :=
  dat.arrAt_eq_of_cover 4 G (fun t hf => by
    show (cfg6.win 4).cut (grid6.coords t) (dat.after 4 t) = _
    rw [h t ((flush6_4 t).mp hf)]) nodeOutCover6

theorem edgeOutBlockIdx5_6 : ∀ t : Fin cfg5.N, win5_6.index t (0 : Fin 2) = t.val / 25 ∧ win5_6.index t (1 : Fin 2) = 0 :=
  (by decide +kernel : ∀ t : Fin grid5.N, _)

theorem edgeOutBlock_read5_6 (t : Fin cfg5.N) (G : S500000x128.Idx → EReal) (y : S2000x128.Idx) (i : S500000x128.Idx)
    (hrow : (i 0).val = t.val / 25 * 2000 + (y 0).val) (hcol : (i 1).val = (y 1).val) :
    ((cfg5.win 6).blk t).view.read (Elt Ideal) G y = G i := by
  obtain ⟨ea, eb⟩ := edgeOutBlockIdx5_6 t
  rw [View.read_apply]
  refine congrArg G (funext fun a => Fin.ext ?_)
  match a with
  | ⟨0, _⟩ => show win5_6.index t (0 : Fin 2) * 2000 + 1 * (y 0).val = (i 0).val; rw [ea, hrow]; omega
  | ⟨1, _⟩ => show win5_6.index t (1 : Fin 2) * 128 + 1 * (y 1).val = (i 1).val; rw [eb, hcol]; omega

theorem edgeOutCover5_6 (i : S500000x128.Idx) :
    ∃ t : Fin cfg5.N, (cfg5.win 6).flush t = true ∧ i ∈ ((cfg5.win 6).blk t).view.set := by
  have hrowLt : (i 0).val < 500000 := (i 0).isLt
  have hcolLt : (i 1).val < 128 := (i 1).isLt
  have hN : cfg5.N = 6250 := N_5
  let t : Fin cfg5.N := ⟨(i 0).val / 2000 * 25 + 24, by rw [hN]; omega⟩
  have ht : t.val = (i 0).val / 2000 * 25 + 24 := rfl
  obtain ⟨ea, eb⟩ := edgeOutBlockIdx5_6 t
  refine ⟨t, (flush5_6 t).mpr (by omega), ?_⟩
  show i ∈ ((View.whole main_v12_0).slice (win5_6.rect t)).set
  rw [View.set_slice_whole, Rect.mem_set_unit]
  intro a
  match a with
  | ⟨0, _⟩ =>
    show win5_6.index t (0 : Fin 2) * 2000 ≤ (i 0).val ∧ (i 0).val < win5_6.index t (0 : Fin 2) * 2000 + 2000
    rw [ea]; omega
  | ⟨1, _⟩ =>
    show win5_6.index t (1 : Fin 2) * 128 ≤ (i 1).val ∧ (i 1).val < win5_6.index t (1 : Fin 2) * 128 + 128
    rw [eb]; omega

theorem arr5_of_blocks_6 (c : Dev nD) (dat : Dat τ (Elt Ideal) Unit ℕ (UR sig nD τ) ℕ cfg5 c) (G : S500000x128.Idx → EReal)
    (h : ∀ t : Fin cfg5.N, t.val % 25 = 24 → dat.after 6 t = ((cfg5.win 6).blk t).view.read (Elt Ideal) G) :
    dat.arrAt 6 cfg5.N = G :=
  dat.arrAt_eq_of_cover 6 G (fun t hf => by
    show (cfg5.win 6).cut (grid5.coords t) (dat.after 6 t) = _
    rw [h t ((flush5_6 t).mp hf)]) edgeOutCover5_6

theorem edgeOutBlockIdx5_7 : ∀ t : Fin cfg5.N, win5_7.index t (0 : Fin 2) = t.val / 25 ∧ win5_7.index t (1 : Fin 2) = 0 :=
  (by decide +kernel : ∀ t : Fin grid5.N, _)

theorem edgeOutBlock_read5_7 (t : Fin cfg5.N) (G : S500000x128.Idx → EReal) (y : S2000x128.Idx) (i : S500000x128.Idx)
    (hrow : (i 0).val = t.val / 25 * 2000 + (y 0).val) (hcol : (i 1).val = (y 1).val) :
    ((cfg5.win 7).blk t).view.read (Elt Ideal) G y = G i := by
  obtain ⟨ea, eb⟩ := edgeOutBlockIdx5_7 t
  rw [View.read_apply]
  refine congrArg G (funext fun a => Fin.ext ?_)
  match a with
  | ⟨0, _⟩ => show win5_7.index t (0 : Fin 2) * 2000 + 1 * (y 0).val = (i 0).val; rw [ea, hrow]; omega
  | ⟨1, _⟩ => show win5_7.index t (1 : Fin 2) * 128 + 1 * (y 1).val = (i 1).val; rw [eb, hcol]; omega

theorem edgeOutCover5_7 (i : S500000x128.Idx) :
    ∃ t : Fin cfg5.N, (cfg5.win 7).flush t = true ∧ i ∈ ((cfg5.win 7).blk t).view.set := by
  have hrowLt : (i 0).val < 500000 := (i 0).isLt
  have hcolLt : (i 1).val < 128 := (i 1).isLt
  have hN : cfg5.N = 6250 := N_5
  let t : Fin cfg5.N := ⟨(i 0).val / 2000 * 25 + 24, by rw [hN]; omega⟩
  have ht : t.val = (i 0).val / 2000 * 25 + 24 := rfl
  obtain ⟨ea, eb⟩ := edgeOutBlockIdx5_7 t
  refine ⟨t, (flush5_7 t).mpr (by omega), ?_⟩
  show i ∈ ((View.whole main_v12_1).slice (win5_7.rect t)).set
  rw [View.set_slice_whole, Rect.mem_set_unit]
  intro a
  match a with
  | ⟨0, _⟩ =>
    show win5_7.index t (0 : Fin 2) * 2000 ≤ (i 0).val ∧ (i 0).val < win5_7.index t (0 : Fin 2) * 2000 + 2000
    rw [ea]; omega
  | ⟨1, _⟩ =>
    show win5_7.index t (1 : Fin 2) * 128 ≤ (i 1).val ∧ (i 1).val < win5_7.index t (1 : Fin 2) * 128 + 128
    rw [eb]; omega

theorem arr5_of_blocks_7 (c : Dev nD) (dat : Dat τ (Elt Ideal) Unit ℕ (UR sig nD τ) ℕ cfg5 c) (G : S500000x128.Idx → EReal)
    (h : ∀ t : Fin cfg5.N, t.val % 25 = 24 → dat.after 7 t = ((cfg5.win 7).blk t).view.read (Elt Ideal) G) :
    dat.arrAt 7 cfg5.N = G :=
  dat.arrAt_eq_of_cover 7 G (fun t hf => by
    show (cfg5.win 7).cut (grid5.coords t) (dat.after 7 t) = _
    rw [h t ((flush5_7 t).mp hf)]) edgeOutCover5_7

theorem edgeOutBlockIdx5_8 : ∀ t : Fin cfg5.N, win5_8.index t (0 : Fin 2) = t.val / 25 ∧ win5_8.index t (1 : Fin 2) = 0 :=
  (by decide +kernel : ∀ t : Fin grid5.N, _)

theorem edgeOutBlock_read5_8 (t : Fin cfg5.N) (G : S500000x128.Idx → EReal) (y : S2000x128.Idx) (i : S500000x128.Idx)
    (hrow : (i 0).val = t.val / 25 * 2000 + (y 0).val) (hcol : (i 1).val = (y 1).val) :
    ((cfg5.win 8).blk t).view.read (Elt Ideal) G y = G i := by
  obtain ⟨ea, eb⟩ := edgeOutBlockIdx5_8 t
  rw [View.read_apply]
  refine congrArg G (funext fun a => Fin.ext ?_)
  match a with
  | ⟨0, _⟩ => show win5_8.index t (0 : Fin 2) * 2000 + 1 * (y 0).val = (i 0).val; rw [ea, hrow]; omega
  | ⟨1, _⟩ => show win5_8.index t (1 : Fin 2) * 128 + 1 * (y 1).val = (i 1).val; rw [eb, hcol]; omega

theorem edgeOutCover5_8 (i : S500000x128.Idx) :
    ∃ t : Fin cfg5.N, (cfg5.win 8).flush t = true ∧ i ∈ ((cfg5.win 8).blk t).view.set := by
  have hrowLt : (i 0).val < 500000 := (i 0).isLt
  have hcolLt : (i 1).val < 128 := (i 1).isLt
  have hN : cfg5.N = 6250 := N_5
  let t : Fin cfg5.N := ⟨(i 0).val / 2000 * 25 + 24, by rw [hN]; omega⟩
  have ht : t.val = (i 0).val / 2000 * 25 + 24 := rfl
  obtain ⟨ea, eb⟩ := edgeOutBlockIdx5_8 t
  refine ⟨t, (flush5_8 t).mpr (by omega), ?_⟩
  show i ∈ ((View.whole main_v12_2).slice (win5_8.rect t)).set
  rw [View.set_slice_whole, Rect.mem_set_unit]
  intro a
  match a with
  | ⟨0, _⟩ =>
    show win5_8.index t (0 : Fin 2) * 2000 ≤ (i 0).val ∧ (i 0).val < win5_8.index t (0 : Fin 2) * 2000 + 2000
    rw [ea]; omega
  | ⟨1, _⟩ =>
    show win5_8.index t (1 : Fin 2) * 128 ≤ (i 1).val ∧ (i 1).val < win5_8.index t (1 : Fin 2) * 128 + 128
    rw [eb]; omega

theorem arr5_of_blocks_8 (c : Dev nD) (dat : Dat τ (Elt Ideal) Unit ℕ (UR sig nD τ) ℕ cfg5 c) (G : S500000x128.Idx → EReal)
    (h : ∀ t : Fin cfg5.N, t.val % 25 = 24 → dat.after 8 t = ((cfg5.win 8).blk t).view.read (Elt Ideal) G) :
    dat.arrAt 8 cfg5.N = G :=
  dat.arrAt_eq_of_cover 8 G (fun t hf => by
    show (cfg5.win 8).cut (grid5.coords t) (dat.after 8 t) = _
    rw [h t ((flush5_8 t).mp hf)]) edgeOutCover5_8

end Cert.KernelIdeal.Hand

end
-- ==== Proof.KI.Val5.lean ====
import proofs.«429521_j46961172414534_2_alg».proof.Proof.KI.Reg5
import proofs.«429521_j46961172414534_2_alg».proof.Proof.KI.Gather5
import proofs.«429521_j46961172414534_2_alg».proof.Proof.KI.Blocks56
import proofs.«429521_j46961172414534_2_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

abbrev enewCur5 (c : Dev nD) (srcF dstF : Fin 500000 → Fin 50000) : Spec.Cur 500000 128 :=
  Spec.enew (Spec.cur (V c main_v7 : S50000x128.Idx → EReal)) (Spec.cur (V c main_v9 : S50000x128.Idx → EReal))
    (Spec.cur (V c main_v11 : S500000x128.Idx → EReal)) srcF dstF

theorem edgeRow5_congr (t t' : Fin cfg5.N) (h : t.val / 25 = t'.val / 25) (e : Fin 2000) : edgeRow5 t e = edgeRow5 t' e :=
  Fin.ext (by show t.val / 25 * 2000 + e.val = t'.val / 25 * 2000 + e.val; rw [h])

/-- A component updated by the body's product at every point, from zero at an edge block's first, ends as the table's rows at the endpoints. -/
theorem acc5_last (c : Dev nD) (π : Acc5 Ideal → Vec Ideal S2000x128 .f32) (Tab : S50000x128.Idx → EReal)
    (idxA : S500000x1.Idx → BitVec 32) (f : Fin 500000 → Fin 50000)
    (hf : ∀ e : Fin 500000, (idxA (ix2 e (0 : Fin 1))).toInt = ((f e).val : ℤ))
    (iw : Fin cfg5.N → Vec Ideal S2000x1 .i32) (tb : Fin cfg5.N → Vec Ideal S2000x128 .f32)
    (hiw : ∀ t e, iw t (ix2 e (0 : Fin 1)) = idxA (ix2 (edgeRow5 t e) (0 : Fin 1)))
    (htb : ∀ t j q, tb t (ix2 j q) = tableBlk5 Tab q (t.val % 25) j)
    (hπ : ∀ t a, π (stepAt5 (F := Ideal) V c t a) = k5_pay14 (F := Ideal) (grid5.coords t) (iw t) (tb t) (π a))
    (hz : ∀ x, π (accZero5 (F := Ideal)) x = 0)
    (t : Fin cfg5.N) (h24 : t.val % 25 = 24) (e : Fin 2000) (q : Fin 128) :
    π (accAt5 (F := Ideal) V c t.val t.isLt) (ix2 e q) = Tab (ix2 (f (edgeRow5 t e)) q) :=
  onehot_fold5 Tab (t.val / 25) (fun e => idxA (ix2 (edgeRow5 t e) (0 : Fin 1))) (fun e => f (edgeRow5 t e))
    (fun e => hf _) (π accZero5) hz (fun n h a => k5_pay14 (F := Ideal) (grid5.coords ⟨n, h⟩) (iw ⟨n, h⟩) (tb ⟨n, h⟩) a)
    (fun n h a e q hb => by
      rw [accD5_apply, hiw, (gatherCoords5 ⟨n, h⟩).2, edgeRow5_congr ⟨n, h⟩ t hb]
      exact congrArg (a (ix2 e q) + ·) (Finset.sum_congr rfl fun j _ => by rw [htb]))
    (fun n h => π (accAt5 (F := Ideal) V c n h))
    (fun n h h0 => (congrArg π (accAt5_first (F := Ideal) V c ⟨n, h⟩ h0)).trans (hπ _ _))
    (fun n h hne => (congrArg π (accAt5_next (F := Ideal) V c ⟨n + 1, h⟩ hne)).trans (hπ _ _)) t.val t.isLt rfl h24 e q

section Endpoints

variable (c : Dev nD) (srcF dstF : Fin 500000 → Fin 50000)
  (hs : ∀ e : Fin 500000, ((V c main_v0 : S500000x1.Idx → BitVec 32) (ix2 e (0 : Fin 1))).toInt = ((srcF e).val : ℤ))
  (hd : ∀ e : Fin 500000, ((V c main_v1 : S500000x1.Idx → BitVec 32) (ix2 e (0 : Fin 1))).toInt = ((dstF e).val : ℤ))

include hs in
theorem accD5_last (t : Fin cfg5.N) (h24 : t.val % 25 = 24) (e : Fin 2000) (q : Fin 128) :
    (accAt5 (F := Ideal) V c t.val t.isLt).1 (ix2 e q) = (V c main_v7 : S50000x128.Idx → EReal) (ix2 (srcF (edgeRow5 t e)) q) :=
  acc5_last V c Prod.fst (V c main_v7) (V c main_v0) srcF hs (gblk5 V c 4) (gblk5 V c 0)
    (gatherSrc5 V c) (gatherTblD5 V c) (fun _ _ => rfl) zeroD5_apply t h24 e q

include hs in
theorem accB5_last (t : Fin cfg5.N) (h24 : t.val % 25 = 24) (e : Fin 2000) (q : Fin 128) :
    (accAt5 (F := Ideal) V c t.val t.isLt).2.1 (ix2 e q) = (V c main_v5 : S50000x128.Idx → EReal) (ix2 (srcF (edgeRow5 t e)) q) :=
  acc5_last V c (fun a => a.2.1) (V c main_v5) (V c main_v0) srcF hs (gblk5 V c 4) (gblk5 V c 1)
    (gatherSrc5 V c) (gatherTblB5 V c) (fun _ _ => rfl) zeroD5_apply t h24 e q

include hd in
theorem accE5_last (t : Fin cfg5.N) (h24 : t.val % 25 = 24) (e : Fin 2000) (q : Fin 128) :
    (accAt5 (F := Ideal) V c t.val t.isLt).2.2 (ix2 e q) = (V c main_v9 : S50000x128.Idx → EReal) (ix2 (dstF (edgeRow5 t e)) q) :=
  acc5_last V c (fun a => a.2.2) (V c main_v9) (V c main_v1) dstF hd (gblk5 V c 5) (gblk5 V c 2)
    (gatherDst5 V c) (gatherTblE5 V c) (fun _ _ => rfl) zeroD5_apply t h24 e q

include hs hd in
/-- At an edge block's last point the first and third accumulators and the edge term add up to the updated edge features. -/
theorem enewAt5 (t : Fin cfg5.N) (h24 : t.val % 25 = 24) (e : Fin 2000) (q : Fin 128) :
    (accAt5 (F := Ideal) V c t.val t.isLt).1 (ix2 e q) + (accAt5 (F := Ideal) V c t.val t.isLt).2.2 (ix2 e q)
      + gblk5 V c 3 t (ix2 e q) = enewCur5 V c srcF dstF (edgeRow5 t e) q := by
  rw [accD5_last V c srcF hs t h24, accE5_last V c dstF hd t h24, gatherCe5]
  rfl

include hs hd in
theorem lastEnew5 (t : Fin cfg5.N) (h24 : t.val % 25 = 24) :
    (dat5 (F := Ideal) V c).after 6 t = ((cfg5.win 6).blk t).view.read (Elt Ideal) (Spec.uncur (enewCur5 V c srcF dstF)) := by
  rw [after5_6]
  funext y
  obtain ⟨e, q, rfl⟩ : ∃ (e : Fin 2000) (q : Fin 128), y = ix2 e q := ⟨y 0, y 1, eq_ix2 y⟩
  rw [edgeOutBlock_read5_6 t _ (ix2 e q) (ix2 (edgeRow5 t e) q) rfl rfl]
  unfold outE5
  rw [enew5_apply]
  exact enewAt5 V c srcF dstF hs hd t h24 e q

include hs hd in
theorem lastSigma5 (t : Fin cfg5.N) (h24 : t.val % 25 = 24) :
    (dat5 (F := Ideal) V c).after 8 t
      = ((cfg5.win 8).blk t).view.read (Elt Ideal) (Spec.uncur (Spec.sigma (enewCur5 V c srcF dstF))) := by
  rw [after5_8]
  funext y
  obtain ⟨e, q, rfl⟩ : ∃ (e : Fin 2000) (q : Fin 128), y = ix2 e q := ⟨y 0, y 1, eq_ix2 y⟩
  rw [edgeOutBlock_read5_8 t _ (ix2 e q) (ix2 (edgeRow5 t e) q) rfl rfl]
  unfold outS5
  rw [sigma5_apply]
  exact congrArg Spec.sig (enewAt5 V c srcF dstF hs hd t h24 e q)

include hs hd in
theorem lastGated5 (t : Fin cfg5.N) (h24 : t.val % 25 = 24) :
    (dat5 (F := Ideal) V c).after 7 t
      = ((cfg5.win 7).blk t).view.read (Elt Ideal) (Spec.uncur (Spec.gated (Spec.cur (V c main_v5 : S50000x128.Idx → EReal)) srcF
          (Spec.sigma (enewCur5 V c srcF dstF)))) := by
  rw [after5_7]
  funext y
  obtain ⟨e, q, rfl⟩ : ∃ (e : Fin 2000) (q : Fin 128), y = ix2 e q := ⟨y 0, y 1, eq_ix2 y⟩
  rw [edgeOutBlock_read5_7 t _ (ix2 e q) (ix2 (edgeRow5 t e) q) rfl rfl]
  unfold outG5
  rw [gated5_apply]
  exact congrArg₂ (· * ·) (accB5_last V c srcF hs t h24 e q) (congrArg Spec.sig (enewAt5 V c srcF dstF hs hd t h24 e q))

include hs hd in
theorem val5_enew : (dat5 (F := Ideal) V c).arrAt 6 cfg5.N = Spec.uncur (enewCur5 V c srcF dstF) :=
  arr5_of_blocks_6 c (dat5 (F := Ideal) V c) _ (lastEnew5 V c srcF dstF hs hd)

include hs hd in
theorem val5_sigma : (dat5 (F := Ideal) V c).arrAt 8 cfg5.N = Spec.uncur (Spec.sigma (enewCur5 V c srcF dstF)) :=
  arr5_of_blocks_8 c (dat5 (F := Ideal) V c) _ (lastSigma5 V c srcF dstF hs hd)

include hs hd in
theorem val5_gated : (dat5 (F := Ideal) V c).arrAt 7 cfg5.N
    = Spec.uncur (Spec.gated (Spec.cur (V c main_v5 : S50000x128.Idx → EReal)) srcF (Spec.sigma (enewCur5 V c srcF dstF))) :=
  arr5_of_blocks_7 c (dat5 (F := Ideal) V c) _ (lastGated5 V c srcF dstF hs hd)

end Endpoints

end Cert.KernelIdeal.Hand

end
-- ==== Proof.BridgeScatter.lean ====
import proofs.«429521_j46961172414534_2_alg».proof.Proof.BridgeGather
import Mathlib.Algebra.BigOperators.Fin

noncomputable section

namespace Cert.Bridge

open Idealize.ShloMosaic Idealize.ShloMosaic.ValueIdx
open scoped BigOperators

/-- Edge number 2000·s + i: position i of edge block s. -/
def edgeAt (s : Fin 250) (i : Fin 2000) : Fin 500000 := ⟨s.val * 2000 + i.val, by have := s.isLt; have := i.isLt; omega⟩

/-- Node number 2000·b + j: position j of node block b. -/
def nodeAt (b : Fin 25) (j : Fin 2000) : Fin 50000 := ⟨b.val * 2000 + j.val, by have := b.isLt; have := j.isLt; omega⟩

/-- Every edge is position (e mod 2000) of block (e div 2000), and of no other pair. -/
def edgeEquiv : Fin 250 × Fin 2000 ≃ Fin 500000 where
  toFun p := edgeAt p.1 p.2
  invFun e := (⟨e.val / 2000, by have := e.isLt; omega⟩, ⟨e.val % 2000, Nat.mod_lt _ (by decide)⟩)
  left_inv p := by
    have hi := p.2.isLt
    exact Prod.ext (Fin.ext (by show (p.1.val * 2000 + p.2.val) / 2000 = p.1.val; omega))
      (Fin.ext (by show (p.1.val * 2000 + p.2.val) % 2000 = p.2.val; omega))
  right_inv e := Fin.ext (by show e.val / 2000 * 2000 + e.val % 2000 = e.val; omega)

/-- A factor 1 keeps a row and a factor 0 drops it, and (s, i) ↦ 2000·s + i meets every edge exactly once. -/
theorem blocks_sum_eq_segsum (dst : Fin 500000 → Fin 50000) (u : Spec.Cur 500000 128) (n : Fin 50000) (q : Fin 128) :
    ∑ s : Fin 250, ∑ i : Fin 2000, (if dst (edgeAt s i) = n then (1 : EReal) else 0) * u (edgeAt s i) q
      = Spec.segsum dst u n q := by
  unfold Spec.segsum
  rw [Finset.sum_filter, ← Equiv.sum_comp edgeEquiv, Fintype.sum_prod_type]
  exact Finset.sum_congr rfl fun s _ => Finset.sum_congr rfl fun i _ => ite_mul _ _ _ _ |>.trans (by rw [one_mul, zero_mul]; rfl)

/-- The same word test as the gather's one-hot entry. -/
theorem onehot_of_words (w : BitVec 32) (d : ℕ) (hw : w.toInt = (d : ℤ)) (b j : ℕ) (hb : b < 25) (hj : j < 2000) :
    ((((IntOp.cmpi .eq w (IntOp.addi (IntOp.muli (BitVec.ofNat 32 b) 2000#32) (BitVec.ofNat 32 j))).setWidth 32).toInt : ℝ) : EReal)
      = if d = b * 2000 + j then 1 else 0 :=
  hot_nodeWord w d b j hw hb hj

end Cert.Bridge

end
-- ==== Proof.KI.Val6.lean ====
import proofs.«429521_j46961172414534_2_alg».proof.Proof.KI.Reg6
import proofs.«429521_j46961172414534_2_alg».proof.Proof.KI.Blocks56
import proofs.«429521_j46961172414534_2_alg».proof.Proof.Spec
import proofs.«429521_j46961172414534_2_alg».proof.Proof.BridgeScatter
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

theorem onehotEntry6 (i : grid6.Coords) (v7 : Vec Ideal S2000x1 .i32) (a j : Fin 2000) :
    k6_pay4 (F := Ideal) i v7 (ix2 a j)
      = ((((IntOp.cmpi .eq (v7 (ix2 a 0)) (IntOp.addi (IntOp.muli (BitVec.ofNat 32 (i 0).val) 2000#32) (BitVec.ofNat 32 j.val))).setWidth 32).toInt : ℝ) : EReal) := by
  unfold k6_pay4
  dsimp only
  have h1 : broadcastTo S2000x2000 (shapeCast S2000x1 v7 shapeCasts_S2000x1_S2000x1) broadcasts_S2000x1_S2000x2000 (ix2 a j)
      = v7 (ix2 a 0) := by
    refine (broadcastTo_apply _ _ _ (ix2 a 0) (fun b => by match b with | ⟨0, _⟩ => rfl | ⟨1, _⟩ => rfl)).trans ?_
    exact congrFun (shapeCast_self v7 _) _
  have h2 : broadcastTo S2000x2000
              (addi (broadcast S1x2000 (Scalar.muli (BitVec.ofNat 32 (i 0).val) 2000#32))
                (iota Kind.tc S1x2000 32 [1] iota_S1x2000_d1_w32))
              broadcasts_S1x2000_S2000x2000 (ix2 a j)
      = IntOp.addi (IntOp.muli (BitVec.ofNat 32 (i 0).val) 2000#32) (BitVec.ofNat 32 j.val) := by
    refine (broadcastTo_apply _ _ _ (ix2 0 j) (fun b => by match b with | ⟨0, _⟩ => rfl | ⟨1, _⟩ => rfl)).trans ?_
    show IntOp.addi _ (iota Kind.tc S1x2000 32 [1] iota_S1x2000_d1_w32 (ix2 0 j)) = _
    rw [iota_single_apply]
    rfl
  exact congrArg₂ (fun x y => (((BitVec.setWidth 32 (IntOp.cmpi .eq x y)).toInt : ℝ) : EReal)) h1 h2

theorem scatterLhs6_1 (y : S2000x128.Idx) (k : dot_S2000x2000_S2000x128_S2000x128_0_0_1_1_n_n.contr.Idx) :
    (dot_S2000x2000_S2000x128_S2000x128_0_0_1_1_n_n.lhsIdx y k 1).val = (y 0).val := by
  unfold DotDims.lhsIdx
  rw [dif_neg (show ¬(1 : Fin S2000x2000.rank) ∈ dot_S2000x2000_S2000x128_S2000x128_0_0_1_1_n_n.lhsBatch by decide),
    dif_pos (show (1 : Fin S2000x2000.rank) ∈ dot_S2000x2000_S2000x128_S2000x128_0_0_1_1_n_n.lhsNonContracting by decide)]
  rfl
theorem scatterRhs6_1 (y : S2000x128.Idx) (k : dot_S2000x2000_S2000x128_S2000x128_0_0_1_1_n_n.contr.Idx) :
    (dot_S2000x2000_S2000x128_S2000x128_0_0_1_1_n_n.rhsIdx y k 1).val = (y 1).val := by
  unfold DotDims.rhsIdx
  rw [dif_neg (show ¬(1 : Fin S2000x128.rank) ∈ dot_S2000x2000_S2000x128_S2000x128_0_0_1_1_n_n.rhsBatch by decide),
    dif_pos (show (1 : Fin S2000x128.rank) ∈ dot_S2000x2000_S2000x128_S2000x128_0_0_1_1_n_n.rhsNonContracting by decide)]
  rfl

theorem scatterProduct6 (L : FVec Ideal S2000x2000 .bf16) (R : FVec Ideal S2000x128 .bf16) (j : Fin 2000) (q : Fin 128) :
    matmul dot_S2000x2000_S2000x128_S2000x128_0_0_1_1_n_n none L R (constant S2000x128 .f32 0x00000000#32) (ix2 j q)
      = ∑ a : Fin 2000, L (ix2 a j) * R (ix2 a q) := by
  simp only [matmul]
  rw [Ideal.matmul_constant_zero_apply,
    ← Equiv.sum_comp (contrEquiv1 dot_S2000x2000_S2000x128_S2000x128_0_0_1_1_n_n 2000 rfl rfl).symm]
  refine Finset.sum_congr rfl fun a _ => ?_
  have hk := contrEquiv1_symm_val dot_S2000x2000_S2000x128_S2000x128_0_0_1_1_n_n 2000 rfl rfl a
  have el : dot_S2000x2000_S2000x128_S2000x128_0_0_1_1_n_n.lhsIdx (ix2 j q)
      ((contrEquiv1 dot_S2000x2000_S2000x128_S2000x128_0_0_1_1_n_n 2000 rfl rfl).symm a) = ix2 a j :=
    funext fun b => Fin.ext (by
      match b with
      | ⟨0, _⟩ => exact (dot_S2000x2000_S2000x128_S2000x128_0_0_1_1_n_n.lhsIdx_val_of_single rfl _ _).trans hk
      | ⟨1, _⟩ => exact scatterLhs6_1 _ _)
  have er : dot_S2000x2000_S2000x128_S2000x128_0_0_1_1_n_n.rhsIdx (ix2 j q)
      ((contrEquiv1 dot_S2000x2000_S2000x128_S2000x128_0_0_1_1_n_n 2000 rfl rfl).symm a) = ix2 a q :=
    funext fun b => Fin.ext (by
      match b with
      | ⟨0, _⟩ => exact (dot_S2000x2000_S2000x128_S2000x128_0_0_1_1_n_n.rhsIdx_val_of_single rfl _ _).trans hk
      | ⟨1, _⟩ => exact scatterRhs6_1 _ _)
  rw [el, er]

theorem accStepSh6 (i : grid6.Coords) (v7 : Vec Ideal S2000x1 .i32) (v15 v21 : Vec Ideal S2000x128 .f32) (j : Fin 2000) (q : Fin 128) :
    k6_pay5 (F := Ideal) i v7 v15 v21 (ix2 j q)
      = v21 (ix2 j q) + ∑ a : Fin 2000, k6_pay4 (F := Ideal) i v7 (ix2 a j) * v15 (ix2 a q) := by
  unfold k6_pay5
  refine (congrFun (shapeCast_self _ _) _).trans ?_
  show v21 (ix2 j q) + _ = _
  refine congrArg (v21 (ix2 j q) + ·) ?_
  refine (scatterProduct6 _ _ j q).trans ?_
  refine Finset.sum_congr rfl fun a _ => ?_
  refine congrArg (k6_pay4 (F := Ideal) i v7 (ix2 a j) * ·) ?_
  exact congrFun (shapeCast_self v15 _) _

theorem resetSh6 (y : S2000x128.Idx) : k6_pay2 (F := Ideal) y = 0 := by
  unfold k6_pay2
  refine (congrFun (shapeCast_self _ _) _).trans ?_
  exact Ideal.ofBits_zero_f32

theorem combineEntry6 (v36 v38 v39 : Vec Ideal S2000x128 .f32) (y : S2000x128.Idx) :
    k6_pay1 (F := Ideal) v36 v38 v39 y = v36 y + Ideal.div (v38 y) (v39 y + Ideal.ofBits .f32 0x358637BD#32) := by
  unfold k6_pay1
  show shapeCast S2000x128 v36 shapeCasts_S2000x128_S2000x128 y + _ = _
  rw [shapeCast_self]
  rfl

theorem blockIdx6 : ∀ t : Fin cfg6.N,
    win6_0.index t (0 : Fin 2) = t.val % 250 ∧ win6_0.index t (1 : Fin 2) = 0
    ∧ win6_1.index t (0 : Fin 2) = t.val % 250 ∧ win6_1.index t (1 : Fin 2) = 0
    ∧ win6_2.index t (0 : Fin 2) = t.val % 250 ∧ win6_2.index t (1 : Fin 2) = 0
    ∧ win6_3.index t (0 : Fin 2) = t.val / 250 ∧ win6_3.index t (1 : Fin 2) = 0
    ∧ ((grid6.coords t) 0).val = t.val / 250 :=
  (by decide +kernel : ∀ t : Fin grid6.N, _)

variable (V : (c : Dev nD) → (b : Ref sig .tc) → Buf (Elt Ideal) ((c : Thread nD τ).loc b))

theorem gatedBlock6 (c : Dev nD) (t : Fin cfg6.N) (a : Fin 2000) (q : Fin 128) (e : Fin 500000)
    (he : e.val = t.val % 250 * 2000 + a.val) :
    (iblk6 V c 0 t : Vec Ideal S2000x128 .f32) (ix2 a q) = (V c main_v12_1 : S500000x128.Idx → EReal) (ix2 e q) := by
  obtain ⟨e0, e1, -⟩ := blockIdx6 t
  unfold iblk6
  rw [View.read_apply]
  show (V c main_v12_1 : S500000x128.Idx → EReal) _ = _
  refine congrArg _ (funext fun b => Fin.ext ?_)
  match b with
  | ⟨0, _⟩ => show win6_0.index t (0 : Fin 2) * 2000 + 1 * a.val = e.val; rw [e0, he]; omega
  | ⟨1, _⟩ => show win6_0.index t (1 : Fin 2) * 128 + 1 * q.val = q.val; rw [e1]; omega

theorem sigmaBlock6 (c : Dev nD) (t : Fin cfg6.N) (a : Fin 2000) (q : Fin 128) (e : Fin 500000)
    (he : e.val = t.val % 250 * 2000 + a.val) :
    (iblk6 V c 1 t : Vec Ideal S2000x128 .f32) (ix2 a q) = (V c main_v12_2 : S500000x128.Idx → EReal) (ix2 e q) := by
  obtain ⟨-, -, e0, e1, -⟩ := blockIdx6 t
  unfold iblk6
  rw [View.read_apply]
  show (V c main_v12_2 : S500000x128.Idx → EReal) _ = _
  refine congrArg _ (funext fun b => Fin.ext ?_)
  match b with
  | ⟨0, _⟩ => show win6_1.index t (0 : Fin 2) * 2000 + 1 * a.val = e.val; rw [e0, he]; omega
  | ⟨1, _⟩ => show win6_1.index t (1 : Fin 2) * 128 + 1 * q.val = q.val; rw [e1]; omega

theorem dstBlock6 (c : Dev nD) (t : Fin cfg6.N) (a : Fin 2000) (e : Fin 500000)
    (he : e.val = t.val % 250 * 2000 + a.val) :
    (iblk6 V c 2 t : Vec Ideal S2000x1 .i32) (ix2 a 0) = (V c main_v1 : S500000x1.Idx → BitVec 32) (ix2 e 0) := by
  obtain ⟨-, -, -, -, e0, e1, -⟩ := blockIdx6 t
  unfold iblk6
  rw [View.read_apply]
  show (V c main_v1 : S500000x1.Idx → BitVec 32) _ = _
  refine congrArg _ (funext fun b => Fin.ext ?_)
  match b with
  | ⟨0, _⟩ => show win6_2.index t (0 : Fin 2) * 2000 + 1 * a.val = e.val; rw [e0, he]; omega
  | ⟨1, _⟩ => show win6_2.index t (1 : Fin 2) * 1 + 1 * 0 = 0; rw [e1]

theorem ahBlock6 (c : Dev nD) (t : Fin cfg6.N) (j : Fin 2000) (q : Fin 128) (n : Fin 50000)
    (hn : n.val = t.val / 250 * 2000 + j.val) :
    (iblk6 V c 3 t : Vec Ideal S2000x128 .f32) (ix2 j q) = (V c main_v3 : S50000x128.Idx → EReal) (ix2 n q) := by
  obtain ⟨-, -, -, -, -, -, e0, e1, -⟩ := blockIdx6 t
  unfold iblk6
  rw [View.read_apply]
  show (V c main_v3 : S50000x128.Idx → EReal) _ = _
  refine congrArg _ (funext fun b => Fin.ext ?_)
  match b with
  | ⟨0, _⟩ => show win6_3.index t (0 : Fin 2) * 2000 + 1 * j.val = n.val; rw [e0, hn]; omega
  | ⟨1, _⟩ => show win6_3.index t (1 : Fin 2) * 128 + 1 * q.val = q.val; rw [e1]; omega

section Destinations

variable (dstF : Fin 500000 → Fin 50000)

theorem onehotAt6 (c : Dev nD)
    (hd : ∀ e : Fin 500000, ((V c main_v1 : S500000x1.Idx → BitVec 32) (ix2 e 0)).toInt = ((dstF e).val : ℤ))
    (t : Fin cfg6.N) (s : Fin 250) (b : Fin 25) (hs : t.val % 250 = s.val) (hb : t.val / 250 = b.val) (a j : Fin 2000) :
    k6_pay4 (F := Ideal) (grid6.coords t) (iblk6 V c 2 t) (ix2 a j)
      = if dstF (Bridge.edgeAt s a) = Bridge.nodeAt b j then (1 : EReal) else 0 := by
  obtain ⟨-, -, -, -, -, -, -, -, ec⟩ := blockIdx6 t
  rw [onehotEntry6, dstBlock6 V c t a (Bridge.edgeAt s a) (by rw [hs]; rfl), ec, hb,
    Bridge.onehot_of_words _ (dstF (Bridge.edgeAt s a)).val (hd _) b.val j.val b.isLt j.isLt]
  refine if_congr ⟨fun h => Fin.ext h, fun h => ?_⟩ rfl rfl
  rw [h]; rfl

def blockTerm6 (u : Spec.Cur 500000 128) (b : Fin 25) (j : Fin 2000) (q : Fin 128) (s : ℕ) : EReal :=
  if h : s < 250 then
    ∑ a : Fin 2000, (if dstF (Bridge.edgeAt ⟨s, h⟩ a) = Bridge.nodeAt b j then (1 : EReal) else 0) * u (Bridge.edgeAt ⟨s, h⟩ a) q
  else 0

theorem blockTerms_sum6 (u : Spec.Cur 500000 128) (b : Fin 25) (j : Fin 2000) (q : Fin 128) :
    ∑ r ∈ Finset.range (249 + 1), blockTerm6 dstF u b j q r = Spec.segsum dstF u (Bridge.nodeAt b j) q := by
  rw [Finset.sum_range, ← Bridge.blocks_sum_eq_segsum]
  refine Finset.sum_congr rfl fun s _ => ?_
  unfold blockTerm6
  rw [dif_pos s.isLt]

abbrev gatedArr6 (c : Dev nD) : Spec.Cur 500000 128 := Spec.cur (V c main_v12_1 : S500000x128.Idx → EReal)
abbrev sigmaArr6 (c : Dev nD) : Spec.Cur 500000 128 := Spec.cur (V c main_v12_2 : S500000x128.Idx → EReal)

theorem stepAt6 (c : Dev nD)
    (hd : ∀ e : Fin 500000, ((V c main_v1 : S500000x1.Idx → BitVec 32) (ix2 e 0)).toInt = ((dstF e).val : ℤ))
    (t : Fin cfg6.N) (s : ℕ) (hs250 : s < 250) (b : Fin 25) (hs : t.val % 250 = s) (hb : t.val / 250 = b.val)
    (p : Vec Ideal S2000x128 .f32 × Vec Ideal S2000x128 .f32) (j : Fin 2000) (q : Fin 128) :
    (step6 V c t p).1 (ix2 j q) = p.1 (ix2 j q) + blockTerm6 dstF (gatedArr6 V c) b j q s
    ∧ (step6 V c t p).2 (ix2 j q) = p.2 (ix2 j q) + blockTerm6 dstF (sigmaArr6 V c) b j q s := by
  unfold blockTerm6
  rw [dif_pos hs250, dif_pos hs250]
  constructor
  on_goal 1 => show k6_pay5 (F := Ideal) (grid6.coords t) (iblk6 V c 2 t) (iblk6 V c 0 t) p.1 (ix2 j q) = _
  on_goal 2 => show k6_pay5 (F := Ideal) (grid6.coords t) (iblk6 V c 2 t) (iblk6 V c 1 t) p.2 (ix2 j q) = _
  all_goals
    rw [accStepSh6]; congr 1
    refine Finset.sum_congr rfl fun a _ => ?_
    rw [onehotAt6 V dstF c hd t ⟨s, hs250⟩ b hs hb a j]
    first
      | rw [gatedBlock6 V c t a q (Bridge.edgeAt ⟨s, hs250⟩ a) (by rw [hs]; rfl)]
      | rw [sigmaBlock6 V c t a q (Bridge.edgeAt ⟨s, hs250⟩ a) (by rw [hs]; rfl)]
    rfl

theorem runningSums6 (c : Dev nD)
    (hd : ∀ e : Fin 500000, ((V c main_v1 : S500000x1.Idx → BitVec 32) (ix2 e 0)).toInt = ((dstF e).val : ℤ))
    (b : Fin 25) : ∀ (s : ℕ), s < 250 → ∀ (n : ℕ) (h : n < cfg6.N), n = 250 * b.val + s → ∀ (j : Fin 2000) (q : Fin 128),
      (acc6 V c n h).1 (ix2 j q) = ∑ r ∈ Finset.range (s + 1), blockTerm6 dstF (gatedArr6 V c) b j q r
      ∧ (acc6 V c n h).2 (ix2 j q) = ∑ r ∈ Finset.range (s + 1), blockTerm6 dstF (sigmaArr6 V c) b j q r
  | 0, hs, n, h, hn, j, q => by
    have e : acc6 V c n h = step6 V c ⟨n, h⟩ (k6_pay2 (F := Ideal), k6_pay3 (F := Ideal)) :=
      acc6_first V c ⟨n, h⟩ (by show n % 250 = 0; omega)
    obtain ⟨h1, h2⟩ := stepAt6 V dstF c hd ⟨n, h⟩ 0 hs b (by show n % 250 = 0; omega) (by show n / 250 = b.val; omega)
      (k6_pay2 (F := Ideal), k6_pay3 (F := Ideal)) j q
    rw [e, Finset.sum_range_one, Finset.sum_range_one, h1, h2]
    exact ⟨by rw [show ((k6_pay2 (F := Ideal), k6_pay3 (F := Ideal)) : _ × _).1 (ix2 j q) = 0 from resetSh6 (ix2 j q), zero_add],
      by rw [show ((k6_pay2 (F := Ideal), k6_pay3 (F := Ideal)) : _ × _).2 (ix2 j q) = 0 from resetSh6 (ix2 j q), zero_add]⟩
  | s + 1, hs, n, h, hn, j, q => by
    obtain ⟨m, rfl⟩ : ∃ m, n = m + 1 := ⟨250 * b.val + s, by omega⟩
    have e : acc6 V c (m + 1) h = step6 V c ⟨m + 1, h⟩ (acc6 V c m (Nat.lt_of_succ_lt h)) :=
      acc6_next V c ⟨m + 1, h⟩ (by show (m + 1) % 250 ≠ 0; omega)
    obtain ⟨ih1, ih2⟩ := runningSums6 c hd b s (by omega) m (Nat.lt_of_succ_lt h) (by omega) j q
    obtain ⟨h1, h2⟩ := stepAt6 V dstF c hd ⟨m + 1, h⟩ (s + 1) hs b (by show (m + 1) % 250 = s + 1; omega)
      (by show (m + 1) / 250 = b.val; omega) (acc6 V c m (Nat.lt_of_succ_lt h)) j q
    rw [e, Finset.sum_range_succ _ (s + 1), Finset.sum_range_succ _ (s + 1), h1, h2, ih1, ih2]
    exact ⟨rfl, rfl⟩

abbrev hnewArr6 (c : Dev nD) : S50000x128.Idx → EReal :=
  Spec.uncur (Spec.hnew (Spec.cur (V c main_v3 : S50000x128.Idx → EReal))
    (Spec.segsum dstF (gatedArr6 V c)) (Spec.segsum dstF (sigmaArr6 V c)))

theorem lastPoint6 (c : Dev nD)
    (hd : ∀ e : Fin 500000, ((V c main_v1 : S500000x1.Idx → BitVec 32) (ix2 e 0)).toInt = ((dstF e).val : ℤ))
    (t : Fin cfg6.N) (ht : t.val % 250 = 249) :
    (dat6 (F := Ideal) V c).after 4 t = ((cfg6.win 4).blk t).view.read (Elt Ideal) (hnewArr6 V dstF c) := by
  have hN : cfg6.N = 6250 := N_6
  have hb : t.val / 250 < 25 := by have := t.isLt; omega
  rw [after6_4]
  funext y
  obtain ⟨j, q, rfl⟩ : ∃ (j : Fin 2000) (q : Fin 128), y = ix2 j q := ⟨y 0, y 1, eq_ix2 y⟩
  obtain ⟨h1, h2⟩ := runningSums6 V dstF c hd ⟨t.val / 250, hb⟩ 249 (by decide) t.val t.isLt
    (by show t.val = 250 * (t.val / 250) + 249; omega) j q
  rw [nodeOutBlock_read6 t _ (ix2 j q) (ix2 (Bridge.nodeAt ⟨t.val / 250, hb⟩ j) q) rfl rfl, combineEntry6, h1, h2,
    blockTerms_sum6, blockTerms_sum6, ahBlock6 V c t j q (Bridge.nodeAt ⟨t.val / 250, hb⟩ j) rfl]
  rfl

end Destinations

theorem val6 (c : Dev nD) (dstF : Fin 500000 → Fin 50000)
    (hd : ∀ e : Fin 500000, ((V c main_v1 : S500000x1.Idx → BitVec 32) (ix2 e 0)).toInt = ((dstF e).val : ℤ)) :
    (dat6 (F := Ideal) V c).arrAt 4 cfg6.N
      = Spec.uncur (Spec.hnew (Spec.cur (V c main_v3 : S50000x128.Idx → EReal))
          (Spec.segsum dstF (Spec.cur (V c main_v12_1 : S500000x128.Idx → EReal)))
          (Spec.segsum dstF (Spec.cur (V c main_v12_2 : S500000x128.Idx → EReal)))) :=
  arr6_of_blocks c (dat6 (F := Ideal) V c) (hnewArr6 V dstF c) (fun t ht => lastPoint6 V dstF c hd t ht)

end Cert.KernelIdeal.Hand

end
-- ==== Proof.KI.Val7.lean ====
import proofs.«429521_j46961172414534_2_alg».proof.Proof.KI.Reg7
import Idealize.ShloMosaic.PureOps.Ideal.Laws
import proofs.«429521_j46961172414534_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

-- Every operation of the body is pointwise, a row being repeated down the block.
theorem pay_at7 (x orig : Vec Ideal S2000x128 .f32) (mu var gam bet : Vec Ideal S1x128 .f32) (p : Fin 2000) (q : Fin 128) :
    k7_pay1 x mu var gam bet orig (ix2 p q)
      = orig (ix2 p q) + max ((x (ix2 p q) - mu (ix2 0 q)) * Ideal.rsqrt (var (ix2 0 q) + Spec.eps5) * gam (ix2 0 q) + bet (ix2 0 q)) 0 := by
  have row (r : Vec Ideal S1x128 .f32) h : broadcastTo S2000x128 r h (ix2 p q) = r (ix2 0 q) :=
    broadcastTo_apply r h (ix2 p q) (ix2 0 q) fun a => by
      match a with
      | ⟨0, _⟩ => rfl
      | ⟨1, _⟩ => rfl
  unfold k7_pay1
  simp only [shapeCast_self]
  rw [addf_apply, maximumf_apply, addf_apply, mulf_apply, mulf_apply, subf_apply, row, row, row, row]
  exact congrArg (fun z => orig (ix2 p q) + max _ z) Ideal.ofBits_zero_f32

variable (V : (c : Dev nD) → (b : Ref sig .tc) → Buf (Elt Ideal) ((c : Thread nD τ).loc b))

theorem zeros7 : (![0, 0] : Fin 2 → Nat) = fun _ => 0 := funext fun a => by fin_cases a <;> rfl

theorem idx7 : ∀ t : Fin cfg7.N,
    (win7_0.index t (0 : Fin 2) = t.val ∧ win7_0.index t (1 : Fin 2) = 0)
    ∧ (win7_1.index t (0 : Fin 2) = t.val ∧ win7_1.index t (1 : Fin 2) = 0)
    ∧ (win7_2.index t (0 : Fin 2) = 0 ∧ win7_2.index t (1 : Fin 2) = 0)
    ∧ (win7_3.index t (0 : Fin 2) = 0 ∧ win7_3.index t (1 : Fin 2) = 0)
    ∧ (win7_4.index t (0 : Fin 2) = 0 ∧ win7_4.index t (1 : Fin 2) = 0)
    ∧ (win7_5.index t (0 : Fin 2) = 0 ∧ win7_5.index t (1 : Fin 2) = 0)
    ∧ (win7_6.index t (0 : Fin 2) = t.val ∧ win7_6.index t (1 : Fin 2) = 0) :=
  (by decide +kernel : ∀ t : Fin grid7.N, _)

def rows_of7 (t : Fin cfg7.N) (p : Fin 2000) : Fin 50000 :=
  ⟨2000 * t.val + p.val, by have ht : t.val < 25 := N_7 ▸ t.isLt; have := p.isLt; omega⟩

-- Entry x of the block with index i lies at i times the block's extents plus x.
theorem emb_ix {n : Fin 2 → ℕ} {x y : (a : Fin 2) → Fin (n a)} {i : Fin 2 → ℕ} {r : ℕ} (h : i 0 = r ∧ i 1 = 0) (B C p q : ℕ)
    (hx : (x 0 : ℕ) = i 0 * B + 1 * p ∧ (x 1 : ℕ) = i 1 * C + 1 * q := by exact ⟨rfl, rfl⟩)
    (hy : (y 0 : ℕ) = B * r + p ∧ (y 1 : ℕ) = q := by exact ⟨rfl, rfl⟩) : x = y :=
  Shape.idx_ext₂ (by rw [hx.1, hy.1, h.1]; ring) (by rw [hx.2, hy.2, h.2]; ring)

variable (c : Dev nD) (t : Fin cfg7.N) (p : Fin 2000) (q : Fin 128)

theorem tall_at7_6 : (((cfg7.win 6).blk t).view.emb (ix2 p q) : S50000x128.Idx) = ix2 (rows_of7 t p) q :=
  emb_ix (idx7 t).2.2.2.2.2.2 2000 128 p q

theorem block_is7_0 : iblk7 V c 0 t (ix2 p q) = (V c main_v13 : S50000x128.Idx → EReal) (ix2 (rows_of7 t p) q) :=
  congrArg (V c main_v13 : S50000x128.Idx → EReal) (emb_ix (idx7 t).1 2000 128 p q)
theorem block_is7_1 : iblk7 V c 1 t (ix2 p q) = (V c main_arg0 : S50000x128.Idx → EReal) (ix2 (rows_of7 t p) q) :=
  congrArg (V c main_arg0 : S50000x128.Idx → EReal) (emb_ix (idx7 t).2.1 2000 128 p q)
theorem block_is7_2 : iblk7 V c 2 t (ix2 0 q) = (V c main_v17 : S1x128.Idx → EReal) (ix2 0 q) :=
  congrArg (V c main_v17 : S1x128.Idx → EReal) (emb_ix (idx7 t).2.2.1 1 128 0 q)
theorem block_is7_3 : iblk7 V c 3 t (ix2 0 q) = (V c main_v18 : S1x128.Idx → EReal) (ix2 0 q) :=
  congrArg (V c main_v18 : S1x128.Idx → EReal) (emb_ix (idx7 t).2.2.2.1 1 128 0 q)
theorem block_is7_4 : iblk7 V c 4 t (ix2 0 q) = (V c main_v19 : S1x128.Idx → EReal) (ix2 0 q) :=
  congrArg (V c main_v19 : S1x128.Idx → EReal) (emb_ix (idx7 t).2.2.2.2.1 1 128 0 q)
theorem block_is7_5 : iblk7 V c 5 t (ix2 0 q) = (V c main_v20 : S1x128.Idx → EReal) (ix2 0 q) :=
  congrArg (V c main_v20 : S1x128.Idx → EReal) (emb_ix (idx7 t).2.2.2.2.2.1 1 128 0 q)

abbrev res7 : S50000x128.Idx → EReal :=
  Spec.uncur (Spec.resid (Spec.cur (V c main_arg0))
    (Spec.bn (Spec.cur (V c main_v13)) (Spec.curRow (V c main_v17)) (Spec.curRow (V c main_v18))
      (Spec.curRow (V c main_v19)) (Spec.curRow (V c main_v20))))

-- Each operand of the payload at (p, q) is its array at row 2000·t + p, or at (0, q), where the result's block reads it.
theorem wrote7 :
    (dat7 V c).flushed 6 t = ((cfg7.win 6).blk t).view.read (Elt Ideal) (res7 V c) := by
  show (cfg7.win 6).cut (grid7.coords t) ((dat7 V c).after 6 t) = _
  rw [after7_6]
  unfold out7_6
  rw [View.canon_unit_zero zeros7]
  simp only [View.ld_unit_zero (S := S2000x128) zeros7, View.ld_unit_zero (S := S1x128) zeros7]
  funext j
  obtain ⟨p, q, rfl⟩ : ∃ (p : Fin 2000) (q : Fin 128), j = ix2 p q := ⟨j 0, j 1, eq_ix2 j⟩
  refine (pay_at7 _ _ _ _ _ _ p q).trans ?_
  rw [block_is7_0, block_is7_1, block_is7_2, block_is7_3, block_is7_4, block_is7_5]
  exact congrArg (res7 V c) (tall_at7_6 t p q).symm

-- Row r of the result lies in the block of point r / 2000.
theorem covered7 (i : S50000x128.Idx) :
    ∃ t : Fin cfg7.N, (cfg7.win 6).flush t = true ∧ i ∈ ((cfg7.win 6).blk t).view.set := by
  have hr : (i 0).val < 50000 := (i 0).isLt
  have hq : (i 1).val < 128 := (i 1).isLt
  let t : Fin cfg7.N := ⟨(i 0).val / 2000, by rw [show cfg7.N = 25 from N_7]; omega⟩
  refine ⟨t, flush7_6 t, ?_⟩
  show i ∈ ((View.whole main_v21).slice (win7_6.rect t)).set
  rw [View.set_slice_whole, Rect.mem_set_unit]
  intro a
  match a with
  | ⟨0, _⟩ =>
    show win7_6.index t (0 : Fin 2) * 2000 ≤ (i 0).val ∧ (i 0).val < win7_6.index t (0 : Fin 2) * 2000 + 2000
    rw [(idx7 t).2.2.2.2.2.2.1]; show (i 0).val / 2000 * 2000 ≤ (i 0).val ∧ (i 0).val < (i 0).val / 2000 * 2000 + 2000; omega
  | ⟨1, _⟩ =>
    show win7_6.index t (1 : Fin 2) * 128 ≤ (i 1).val ∧ (i 1).val < win7_6.index t (1 : Fin 2) * 128 + 128
    rw [(idx7 t).2.2.2.2.2.2.2]; omega

theorem val7 : (dat7 (F := Ideal) V c).arrAt 6 cfg7.N
    = Spec.uncur (Spec.resid (Spec.cur (V c main_arg0))
        (Spec.bn (Spec.cur (V c main_v13)) (Spec.curRow (V c main_v17)) (Spec.curRow (V c main_v18))
          (Spec.curRow (V c main_v19)) (Spec.curRow (V c main_v20)))) :=
  (dat7 V c).arrAt_eq_of_cover 6 (res7 V c) (fun t _ => wrote7 V c t) covered7

end Cert.KernelIdeal.Hand

end
-- ==== Proof.KI.Val8.lean ====
import proofs.«429521_j46961172414534_2_alg».proof.Proof.KI.Reg8
import proofs.«429521_j46961172414534_2_alg».proof.Proof.KI.Val7

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

-- Every operation of the body is pointwise, a row being repeated down the block.
theorem pay_at8 (x orig : Vec Ideal S5000x128 .f32) (mu var gam bet : Vec Ideal S1x128 .f32) (p : Fin 5000) (q : Fin 128) :
    k8_pay1 x mu var gam bet orig (ix2 p q)
      = orig (ix2 p q) + max ((x (ix2 p q) - mu (ix2 0 q)) * Ideal.rsqrt (var (ix2 0 q) + Spec.eps5) * gam (ix2 0 q) + bet (ix2 0 q)) 0 := by
  have row (r : Vec Ideal S1x128 .f32) h : broadcastTo S5000x128 r h (ix2 p q) = r (ix2 0 q) :=
    broadcastTo_apply r h (ix2 p q) (ix2 0 q) fun a => by
      match a with
      | ⟨0, _⟩ => rfl
      | ⟨1, _⟩ => rfl
  unfold k8_pay1
  simp only [shapeCast_self]
  rw [addf_apply, maximumf_apply, addf_apply, mulf_apply, mulf_apply, subf_apply, row, row, row, row]
  exact congrArg (fun z => orig (ix2 p q) + max _ z) Ideal.ofBits_zero_f32

variable (V : (c : Dev nD) → (b : Ref sig .tc) → Buf (Elt Ideal) ((c : Thread nD τ).loc b))

theorem idx8 : ∀ t : Fin cfg8.N,
    (win8_0.index t (0 : Fin 2) = t.val ∧ win8_0.index t (1 : Fin 2) = 0)
    ∧ (win8_1.index t (0 : Fin 2) = t.val ∧ win8_1.index t (1 : Fin 2) = 0)
    ∧ (win8_2.index t (0 : Fin 2) = 0 ∧ win8_2.index t (1 : Fin 2) = 0)
    ∧ (win8_3.index t (0 : Fin 2) = 0 ∧ win8_3.index t (1 : Fin 2) = 0)
    ∧ (win8_4.index t (0 : Fin 2) = 0 ∧ win8_4.index t (1 : Fin 2) = 0)
    ∧ (win8_5.index t (0 : Fin 2) = 0 ∧ win8_5.index t (1 : Fin 2) = 0)
    ∧ (win8_6.index t (0 : Fin 2) = t.val ∧ win8_6.index t (1 : Fin 2) = 0) :=
  (by decide +kernel : ∀ t : Fin grid8.N, _)

def rows_of8 (t : Fin cfg8.N) (p : Fin 5000) : Fin 500000 :=
  ⟨5000 * t.val + p.val, by have ht : t.val < 100 := N_8 ▸ t.isLt; have := p.isLt; omega⟩

variable (c : Dev nD) (t : Fin cfg8.N) (p : Fin 5000) (q : Fin 128)

theorem tall_at8_6 : (((cfg8.win 6).blk t).view.emb (ix2 p q) : S500000x128.Idx) = ix2 (rows_of8 t p) q :=
  emb_ix (idx8 t).2.2.2.2.2.2 5000 128 p q

theorem block_is8_0 : iblk8 V c 0 t (ix2 p q) = (V c main_v12_0 : S500000x128.Idx → EReal) (ix2 (rows_of8 t p) q) :=
  congrArg (V c main_v12_0 : S500000x128.Idx → EReal) (emb_ix (idx8 t).1 5000 128 p q)
theorem block_is8_1 : iblk8 V c 1 t (ix2 p q) = (V c main_arg1 : S500000x128.Idx → EReal) (ix2 (rows_of8 t p) q) :=
  congrArg (V c main_arg1 : S500000x128.Idx → EReal) (emb_ix (idx8 t).2.1 5000 128 p q)
theorem block_is8_2 : iblk8 V c 2 t (ix2 0 q) = (V c main_v25 : S1x128.Idx → EReal) (ix2 0 q) :=
  congrArg (V c main_v25 : S1x128.Idx → EReal) (emb_ix (idx8 t).2.2.1 1 128 0 q)
theorem block_is8_3 : iblk8 V c 3 t (ix2 0 q) = (V c main_v26 : S1x128.Idx → EReal) (ix2 0 q) :=
  congrArg (V c main_v26 : S1x128.Idx → EReal) (emb_ix (idx8 t).2.2.2.1 1 128 0 q)
theorem block_is8_4 : iblk8 V c 4 t (ix2 0 q) = (V c main_v27 : S1x128.Idx → EReal) (ix2 0 q) :=
  congrArg (V c main_v27 : S1x128.Idx → EReal) (emb_ix (idx8 t).2.2.2.2.1 1 128 0 q)
theorem block_is8_5 : iblk8 V c 5 t (ix2 0 q) = (V c main_v28 : S1x128.Idx → EReal) (ix2 0 q) :=
  congrArg (V c main_v28 : S1x128.Idx → EReal) (emb_ix (idx8 t).2.2.2.2.2.1 1 128 0 q)

abbrev res8 : S500000x128.Idx → EReal :=
  Spec.uncur (Spec.resid (Spec.cur (V c main_arg1))
    (Spec.bn (Spec.cur (V c main_v12_0)) (Spec.curRow (V c main_v25)) (Spec.curRow (V c main_v26))
      (Spec.curRow (V c main_v27)) (Spec.curRow (V c main_v28))))

-- Each operand of the payload at (p, q) is its array at row 5000·t + p, or at (0, q), where the result's block reads it.
theorem wrote8 :
    (dat8 V c).flushed 6 t = ((cfg8.win 6).blk t).view.read (Elt Ideal) (res8 V c) := by
  show (cfg8.win 6).cut (grid8.coords t) ((dat8 V c).after 6 t) = _
  rw [after8_6]
  unfold out8_6
  rw [View.canon_unit_zero zeros7]
  simp only [View.ld_unit_zero (S := S5000x128) zeros7, View.ld_unit_zero (S := S1x128) zeros7]
  funext j
  obtain ⟨p, q, rfl⟩ : ∃ (p : Fin 5000) (q : Fin 128), j = ix2 p q := ⟨j 0, j 1, eq_ix2 j⟩
  refine (pay_at8 _ _ _ _ _ _ p q).trans ?_
  rw [block_is8_0, block_is8_1, block_is8_2, block_is8_3, block_is8_4, block_is8_5]
  exact congrArg (res8 V c) (tall_at8_6 t p q).symm

-- Row r of the result lies in the block of point r / 5000.
theorem covered8 (i : S500000x128.Idx) :
    ∃ t : Fin cfg8.N, (cfg8.win 6).flush t = true ∧ i ∈ ((cfg8.win 6).blk t).view.set := by
  have hr : (i 0).val < 500000 := (i 0).isLt
  have hq : (i 1).val < 128 := (i 1).isLt
  let t : Fin cfg8.N := ⟨(i 0).val / 5000, by rw [show cfg8.N = 100 from N_8]; omega⟩
  refine ⟨t, flush8_6 t, ?_⟩
  show i ∈ ((View.whole main_v29).slice (win8_6.rect t)).set
  rw [View.set_slice_whole, Rect.mem_set_unit]
  intro a
  match a with
  | ⟨0, _⟩ =>
    show win8_6.index t (0 : Fin 2) * 5000 ≤ (i 0).val ∧ (i 0).val < win8_6.index t (0 : Fin 2) * 5000 + 5000
    rw [(idx8 t).2.2.2.2.2.2.1]; show (i 0).val / 5000 * 5000 ≤ (i 0).val ∧ (i 0).val < (i 0).val / 5000 * 5000 + 5000; omega
  | ⟨1, _⟩ =>
    show win8_6.index t (1 : Fin 2) * 128 ≤ (i 1).val ∧ (i 1).val < win8_6.index t (1 : Fin 2) * 128 + 128
    rw [(idx8 t).2.2.2.2.2.2.2]; omega

theorem val8 : (dat8 (F := Ideal) V c).arrAt 6 cfg8.N
    = Spec.uncur (Spec.resid (Spec.cur (V c main_arg1))
        (Spec.bn (Spec.cur (V c main_v12_0)) (Spec.curRow (V c main_v25)) (Spec.curRow (V c main_v26))
          (Spec.curRow (V c main_v27)) (Spec.curRow (V c main_v28)))) :=
  (dat8 V c).arrAt_eq_of_cover 6 (res8 V c) (fun t _ => wrote8 V c t) covered8

end Cert.KernelIdeal.Hand

end
-- ==== Proof.KI.Final.lean ====
import proofs.«429521_j46961172414534_2_alg».proof.Proof.KI.Transport
import proofs.«429521_j46961172414534_2_alg».proof.Proof.KI.HostReshape
import proofs.«429521_j46961172414534_2_alg».proof.Proof.KI.HostVal
import proofs.«429521_j46961172414534_2_alg».proof.Proof.KI.HostValE
import proofs.«429521_j46961172414534_2_alg».proof.Proof.KI.ValLin
import proofs.«429521_j46961172414534_2_alg».proof.Proof.KI.Val5
import proofs.«429521_j46961172414534_2_alg».proof.Proof.KI.Val6
import proofs.«429521_j46961172414534_2_alg».proof.Proof.KI.Val7
import proofs.«429521_j46961172414534_2_alg».proof.Proof.KI.Val8
import proofs.«429521_j46961172414534_2_alg».proof.Proof.Spec
import Idealize.ShloMosaic.Lib.ValueIdx

noncomputable section

namespace Cert.KernelIdeal.Hand

open Idealize.ShloMosaic Idealize.ShloMosaic.TcCoe Idealize.ShloMosaic.ValueIdx
open Idealize.ShloMosaic.Pipeline (Dat)
open Cert.KernelIdeal Cert.KernelIdeal.Gen
open Cert.Spec

variable (m : (ℓ : Loc nD τ sig) → Buf (Elt Ideal) ℓ) (outs : Outs (F := Ideal)) (c : Dev nD)

abbrev argNode : Cur 50000 128 := cur (m ((c : Thread nD τ).loc main_arg0) : S50000x128.Idx → EReal)
abbrev argEdge : Cur 500000 128 := cur (m ((c : Thread nD τ).loc main_arg1) : S500000x128.Idx → EReal)
abbrev argWA : Cur 128 128 := cur (m ((c : Thread nD τ).loc main_arg4) : S128x128.Idx → EReal)
abbrev argbA : Fin 128 → EReal := cur1 (m ((c : Thread nD τ).loc main_arg5) : S128.Idx → EReal)
abbrev argWB : Cur 128 128 := cur (m ((c : Thread nD τ).loc main_arg6) : S128x128.Idx → EReal)
abbrev argbB : Fin 128 → EReal := cur1 (m ((c : Thread nD τ).loc main_arg7) : S128.Idx → EReal)
abbrev argWC : Cur 128 128 := cur (m ((c : Thread nD τ).loc main_arg8) : S128x128.Idx → EReal)
abbrev argbC : Fin 128 → EReal := cur1 (m ((c : Thread nD τ).loc main_arg9) : S128.Idx → EReal)
abbrev argWD : Cur 128 128 := cur (m ((c : Thread nD τ).loc main_arg10) : S128x128.Idx → EReal)
abbrev argbD : Fin 128 → EReal := cur1 (m ((c : Thread nD τ).loc main_arg11) : S128.Idx → EReal)
abbrev argWE : Cur 128 128 := cur (m ((c : Thread nD τ).loc main_arg12) : S128x128.Idx → EReal)
abbrev argbE : Fin 128 → EReal := cur1 (m ((c : Thread nD τ).loc main_arg13) : S128.Idx → EReal)
abbrev argGammaH : Fin 128 → EReal := cur1 (m ((c : Thread nD τ).loc main_arg14) : S128.Idx → EReal)
abbrev argBetaH : Fin 128 → EReal := cur1 (m ((c : Thread nD τ).loc main_arg15) : S128.Idx → EReal)
abbrev argGammaE : Fin 128 → EReal := cur1 (m ((c : Thread nD τ).loc main_arg16) : S128.Idx → EReal)
abbrev argBetaE : Fin 128 → EReal := cur1 (m ((c : Thread nD τ).loc main_arg17) : S128.Idx → EReal)

theorem biasRowA : curRow (V1 m c main_v2 : S1x128.Idx → EReal) = argbA m c :=
  funext fun q => main_v2_row (V0 m c) q

theorem biasRowB : curRow (V3 m outs c main_v4 : S1x128.Idx → EReal) = argbB m c :=
  funext fun q => (main_v4_row (V2 m outs c) q).trans (by rw [V2_arg7]; rfl)

theorem biasRowD : curRow (V5 m outs c main_v6 : S1x128.Idx → EReal) = argbD m c :=
  funext fun q => (main_v6_row (V4 m outs c) q).trans (by rw [V4_arg11]; rfl)

theorem biasRowE : curRow (V7 m outs c main_v8 : S1x128.Idx → EReal) = argbE m c :=
  funext fun q => (main_v8_row (V6 m outs c) q).trans (by rw [V6_arg13]; rfl)

theorem biasRowC : curRow (V9 m outs c main_v10 : S1x128.Idx → EReal) = argbC m c :=
  funext fun q => (main_v10_row (V8 m outs c) q).trans (by rw [V8_arg9]; rfl)

variable (srcF dstF : Fin 500000 → Fin 50000)
  (hs : ∀ e, (m ((c : Thread nD τ).loc main_arg2) (ix1 e)).toInt = ((srcF e).val : ℤ))
  (hd : ∀ e, (m ((c : Thread nD τ).loc main_arg3) (ix1 e)).toInt = ((dstF e).val : ℤ))
  (h2 : outs 2 main_v3 c = (dat0 (fun c b => V1 m c b) c).arrAt 3 cfg0.N)
  (h4 : outs 4 main_v5 c = (dat1 (fun c b => V3 m outs c b) c).arrAt 3 cfg1.N)
  (h6 : outs 6 main_v7 c = (dat2 (fun c b => V5 m outs c b) c).arrAt 3 cfg2.N)
  (h8 : outs 8 main_v9 c = (dat3 (fun c b => V7 m outs c b) c).arrAt 3 cfg3.N)
  (h10 : outs 10 main_v11 c = (dat4 (fun c b => V9 m outs c b) c).arrAt 3 cfg4.N)
  (h11_0 : outs 11 main_v12_0 c = (dat5 (fun c b => V10 m outs c b) c).arrAt 6 cfg5.N)
  (h11_1 : outs 11 main_v12_1 c = (dat5 (fun c b => V10 m outs c b) c).arrAt 7 cfg5.N)
  (h11_2 : outs 11 main_v12_2 c = (dat5 (fun c b => V10 m outs c b) c).arrAt 8 cfg5.N)
  (h12 : outs 12 main_v13 c = (dat6 (fun c b => V11 m outs c b) c).arrAt 4 cfg6.N)
  (h16 : outs 16 main_v21 c = (dat7 (fun c b => V15 m outs c b) c).arrAt 6 cfg7.N)
  (h20 : outs 20 main_v29 c = (dat8 (fun c b => V19 m outs c b) c).arrAt 6 cfg8.N)

include h2 in
theorem proj_Ah : (outs 2 main_v3 c : S50000x128.Idx → EReal) = uncur (lin (argNode m c) (argWA m c) (argbA m c)) := by
  refine h2.trans ((val0 (fun c b => V1 m c b) c).trans ?_)
  dsimp only [linArr0]
  rw [V1_arg0, V1_arg4, biasRowA]

include h4 in
theorem proj_Bh : (outs 4 main_v5 c : S50000x128.Idx → EReal) = uncur (lin (argNode m c) (argWB m c) (argbB m c)) := by
  refine h4.trans ((val1 (fun c b => V3 m outs c b) c).trans ?_)
  dsimp only [linArr1]
  rw [V3_arg0, V3_arg6, biasRowB]

include h6 in
theorem proj_Dh : (outs 6 main_v7 c : S50000x128.Idx → EReal) = uncur (lin (argNode m c) (argWD m c) (argbD m c)) := by
  refine h6.trans ((val2 (fun c b => V5 m outs c b) c).trans ?_)
  dsimp only [linArr2]
  rw [V5_arg0, V5_arg10, biasRowD]

include h8 in
theorem proj_Eh : (outs 8 main_v9 c : S50000x128.Idx → EReal) = uncur (lin (argNode m c) (argWE m c) (argbE m c)) := by
  refine h8.trans ((val3 (fun c b => V7 m outs c b) c).trans ?_)
  dsimp only [linArr3]
  rw [V7_arg0, V7_arg12, biasRowE]

include h10 in
theorem proj_Ce : (outs 10 main_v11 c : S500000x128.Idx → EReal) = uncur (lin (argEdge m c) (argWC m c) (argbC m c)) := by
  refine h10.trans ((val4 (fun c b => V9 m outs c b) c).trans ?_)
  dsimp only [linArr4]
  rw [V9_arg1, V9_arg8, biasRowC]

include hs in
theorem srcColumn (e : Fin 500000) :
    ((V10 m outs c main_v0 : S500000x1.Idx → BitVec 32) (ix2 e (0 : Fin 1))).toInt = ((srcF e).val : ℤ) := by
  rw [V10_v0]
  exact (congrArg BitVec.toInt (main_v0_col (V0 m c) e)).trans (hs e)

include hd in
theorem dstColumn10 (e : Fin 500000) :
    ((V10 m outs c main_v1 : S500000x1.Idx → BitVec 32) (ix2 e (0 : Fin 1))).toInt = ((dstF e).val : ℤ) := by
  rw [V10_v1]
  exact (congrArg BitVec.toInt (main_v1_col (V0 m c) e)).trans (hd e)

include hd in
theorem dstColumn11 (e : Fin 500000) :
    ((V11 m outs c main_v1 : S500000x1.Idx → BitVec 32) (ix2 e (0 : Fin 1))).toInt = ((dstF e).val : ℤ) := by
  rw [V11_v1]
  exact (congrArg BitVec.toInt (main_v1_col (V0 m c) e)).trans (hd e)

abbrev specEnew : Cur 500000 128 :=
  enewOf (argNode m c) (argEdge m c) srcF dstF (argWC m c) (argWD m c) (argWE m c) (argbC m c) (argbD m c) (argbE m c)

include h6 h8 h10 in
theorem enewAtEntry : enewCur5 (fun c b => V10 m outs c b) c srcF dstF = specEnew m c srcF dstF := by
  show enew (cur (V10 m outs c main_v7 : S50000x128.Idx → EReal)) (cur (V10 m outs c main_v9 : S50000x128.Idx → EReal))
    (cur (V10 m outs c main_v11 : S500000x128.Idx → EReal)) srcF dstF = _
  rw [V10_v7, V10_v9, V10_v11, proj_Dh m outs c h6, proj_Eh m outs c h8, proj_Ce m outs c h10]
  rfl

include hs hd h6 h8 h10 h11_0 in
theorem edge_enew : (outs 11 main_v12_0 c : S500000x128.Idx → EReal) = uncur (specEnew m c srcF dstF) := by
  refine h11_0.trans ((val5_enew (fun c b => V10 m outs c b) c srcF dstF (srcColumn m outs c srcF hs) (dstColumn10 m outs c dstF hd)).trans ?_)
  rw [enewAtEntry m outs c srcF dstF h6 h8 h10]

include hs hd h6 h8 h10 h11_2 in
theorem edge_sigma : (outs 11 main_v12_2 c : S500000x128.Idx → EReal) = uncur (sigma (specEnew m c srcF dstF)) := by
  refine h11_2.trans ((val5_sigma (fun c b => V10 m outs c b) c srcF dstF (srcColumn m outs c srcF hs) (dstColumn10 m outs c dstF hd)).trans ?_)
  rw [enewAtEntry m outs c srcF dstF h6 h8 h10]

include hs hd h4 h6 h8 h10 h11_1 in
theorem edge_gated : (outs 11 main_v12_1 c : S500000x128.Idx → EReal) =
    uncur (gated (lin (argNode m c) (argWB m c) (argbB m c)) srcF (sigma (specEnew m c srcF dstF))) := by
  refine h11_1.trans ((val5_gated (fun c b => V10 m outs c b) c srcF dstF (srcColumn m outs c srcF hs) (dstColumn10 m outs c dstF hd)).trans ?_)
  rw [enewAtEntry m outs c srcF dstF h6 h8 h10]
  show uncur (gated (cur (V10 m outs c main_v5 : S50000x128.Idx → EReal)) srcF _) = _
  rw [V10_v5, proj_Bh m outs c h4]
  rfl

abbrev specHnew : Cur 50000 128 :=
  hnewOf (argNode m c) (argEdge m c) srcF dstF (argWA m c) (argWB m c) (argWC m c) (argWD m c) (argWE m c)
    (argbA m c) (argbB m c) (argbC m c) (argbD m c) (argbE m c)

include hs hd h2 h4 h6 h8 h10 h11_1 h11_2 h12 in
theorem node_hnew : (outs 12 main_v13 c : S50000x128.Idx → EReal) = uncur (specHnew m c srcF dstF) := by
  refine h12.trans ((val6 (fun c b => V11 m outs c b) c dstF (dstColumn11 m outs c dstF hd)).trans ?_)
  show uncur (hnew (cur (V11 m outs c main_v3 : S50000x128.Idx → EReal))
    (segsum dstF (cur (V11 m outs c main_v12_1 : S500000x128.Idx → EReal)))
    (segsum dstF (cur (V11 m outs c main_v12_2 : S500000x128.Idx → EReal)))) = _
  rw [V11_v3, V11_v12_1, V11_v12_2, proj_Ah m outs c h2, edge_gated m outs c srcF dstF hs hd h4 h6 h8 h10 h11_1,
    edge_sigma m outs c srcF dstF hs hd h6 h8 h10 h11_2]
  rfl

include hs hd h2 h4 h6 h8 h10 h11_1 h11_2 h12 h16 in
theorem node_result : (V20 m outs c main_v21 : S50000x128.Idx → EReal) =
    uncur (outH (argNode m c) (argEdge m c) srcF dstF (argWA m c) (argWB m c) (argWC m c) (argWD m c) (argWE m c)
      (argbA m c) (argbB m c) (argbC m c) (argbD m c) (argbE m c) (argGammaH m c) (argBetaH m c)) := by
  rw [V20_v21]
  refine h16.trans ((val7 (fun c b => V15 m outs c b) c).trans ?_)
  show uncur (resid (cur (V15 m outs c main_arg0 : S50000x128.Idx → EReal)) (bn (cur (V15 m outs c main_v13 : S50000x128.Idx → EReal))
      (curRow (afterNodeStats (V12 m outs c) main_v17 : S1x128.Idx → EReal)) (curRow (afterNodeStats (V12 m outs c) main_v18 : S1x128.Idx → EReal))
      (curRow (afterNodeStats (V12 m outs c) main_v19 : S1x128.Idx → EReal)) (curRow (afterNodeStats (V12 m outs c) main_v20 : S1x128.Idx → EReal)))) = _
  rw [nodeStats_mean, nodeStats_var, nodeStats_gamma, nodeStats_beta, V15_arg0, V15_v13, V12_v13, V12_arg14, V12_arg15,
    node_hnew m outs c srcF dstF hs hd h2 h4 h6 h8 h10 h11_1 h11_2 h12]
  rfl

include hs hd h6 h8 h10 h11_0 h20 in
theorem edge_result : (V20 m outs c main_v29 : S500000x128.Idx → EReal) =
    uncur (outE (argNode m c) (argEdge m c) srcF dstF (argWC m c) (argWD m c) (argWE m c) (argbC m c) (argbD m c) (argbE m c)
      (argGammaE m c) (argBetaE m c)) := by
  rw [V20_v29]
  refine h20.trans ((val8 (fun c b => V19 m outs c b) c).trans ?_)
  show uncur (resid (cur (V19 m outs c main_arg1 : S500000x128.Idx → EReal)) (bn (cur (V19 m outs c main_v12_0 : S500000x128.Idx → EReal))
      (curRow (afterEdgeStats (V16 m outs c) main_v25 : S1x128.Idx → EReal)) (curRow (afterEdgeStats (V16 m outs c) main_v26 : S1x128.Idx → EReal))
      (curRow (afterEdgeStats (V16 m outs c) main_v27 : S1x128.Idx → EReal)) (curRow (afterEdgeStats (V16 m outs c) main_v28 : S1x128.Idx → EReal)))) = _
  rw [edgeStats_mean, edgeStats_var, edgeStats_gamma, edgeStats_beta, V19_arg1, V19_v12_0, V16_v12_0, V16_arg16, V16_arg17,
    edge_enew m outs c srcF dstF hs hd h6 h8 h10 h11_0]
  rfl

end Cert.KernelIdeal.Hand

end
-- ==== Proof.Ref.Stages.lean ====
import proofs.«429521_j46961172414534_2_alg».proof.ReferenceIdeal
import proofs.«429521_j46961172414534_2_alg».proof.Proof.Gen.ReferenceIdeal

noncomputable section

namespace Cert.ReferenceIdeal.RefRun

open Cert.ReferenceIdeal Cert.ReferenceIdeal.Gen Idealize.ShloMosaic Idealize.SL.Sem

variable {F : FTy → Type} [FloatOps F]

abbrev NodeArr (F : FTy → Type) : Type := (⟨S50000x128, .f32⟩ : BufTy).Contents (Elt F)
abbrev EdgeArr (F : FTy → Type) : Type := (⟨S500000x128, .f32⟩ : BufTy).Contents (Elt F)
abbrev Mat (F : FTy → Type) : Type := (⟨S128x128, .f32⟩ : BufTy).Contents (Elt F)
abbrev Vec (F : FTy → Type) : Type := (⟨S128, .f32⟩ : BufTy).Contents (Elt F)
abbrev Ends (F : FTy → Type) : Type := (⟨S500000, .i32⟩ : BufTy).Contents (Elt F)
abbrev EndsCol (F : FTy → Type) : Type := (⟨S500000x1, .i32⟩ : BufTy).Contents (Elt F)
abbrev Scal (F : FTy → Type) : Type := (⟨S_, .f32⟩ : BufTy).Contents (Elt F)

def rowsN (b : Vec F) : NodeArr F :=
  broadcastInDim S50000x128 ![0, 1] bcast_S1x128_S50000x128_0_1 (broadcastInDim S1x128 ![1] bcast_S128_S1x128_1 b)

def rowsE (b : Vec F) : EdgeArr F :=
  broadcastInDim S500000x128 ![0, 1] bcast_S1x128_S500000x128_0_1 (broadcastInDim S1x128 ![1] bcast_S128_S1x128_1 b)

def linN (x : NodeArr F) (W : Mat F) (b : Vec F) : NodeArr F :=
  addf (Host.dotGeneral dot_S50000x128_S128x128_S50000x128_1_0_0_1_n_n none x
    (transpose S128x128 [1, 0] W transposes_S128x128_S128x128_1_0)) (rowsN b)

def linE (x : EdgeArr F) (W : Mat F) (b : Vec F) : EdgeArr F :=
  addf (Host.dotGeneral dot_S500000x128_S128x128_S500000x128_1_0_0_1_n_n none x
    (transpose S128x128 [1, 0] W transposes_S128x128_S128x128_1_0)) (rowsE b)

def wrapCol (i : Ends F) : EndsCol F :=
  broadcastInDim S500000x1 ![0] bcast_S500000_S500000x1_0
    (select (cmpi .slt i (broadcastInDim S500000 ![] bcast_S_S500000 (constantI S_ 32 0#32)))
      (addi i (broadcastInDim S500000 ![] bcast_S_S500000 (constantI S_ 32 50000#32))) i)

def takeRows (x : NodeArr F) (i : Ends F) : EdgeArr F :=
  Host.gather gather_S50000x128_S500000x1_S500000x128_1_0_n_n_0_1_1128 x (wrapCol i)

def enew (Dh Eh : NodeArr F) (Ce : EdgeArr F) (src dst : Ends F) : EdgeArr F :=
  addf (addf (takeRows Dh src) (takeRows Eh dst)) Ce

def onesE : EdgeArr F := broadcastInDim S500000x128 ![] bcast_S_S500000x128 (constant S_ .f32 0x3F800000#32)

def sigma (en : EdgeArr F) : EdgeArr F := Host.divf onesE (addf onesE (Host.exp (Host.negf en)))

def gated (Bh : NodeArr F) (src : Ends F) (sg : EdgeArr F) : EdgeArr F := mulf (takeRows Bh src) sg

def zerosN : NodeArr F := broadcastInDim S50000x128 ![] bcast_S_S50000x128 (constant S_ .f32 0x00000000#32)

def segsum (dst : Ends F) (u : EdgeArr F) : NodeArr F :=
  Host.scatterAdd scatter_S50000x128_S500000x1_S500000x128_1_0_0_1 zerosN
    (broadcastInDim S500000x1 ![0] bcast_S500000_S500000x1_0 dst) u

def hnew (Ah ssh ss : NodeArr F) : NodeArr F :=
  addf Ah (Host.divf ssh (addf ss (broadcastInDim S50000x128 ![] bcast_S_S50000x128 (constant S_ .f32 0x358637BD#32))))

def zeroS : Scal F := constant S_ .f32 0x00000000#32

def cntNS : Scal F := constant S_ .f32 0x47435000#32
def cntES : Scal F := constant S_ .f32 0x48F42400#32

def colsumN (x : NodeArr F) : Vec F := Host.reduceAdd x zeroS reducesTo_S50000x128_S128_d0 h_S_

def meanN (x : NodeArr F) : Vec F := Host.divf (colsumN x) (broadcastInDim S128 ![] bcast_S_S128 cntNS)

def dofN : Scal F := subf cntNS (sitofp (F := F) .f32 (constantI S_ 32 0#32))

def devN (x : NodeArr F) : NodeArr F :=
  subf x (broadcastInDim S50000x128 ![0, 1] bcast_S1x128_S50000x128_0_1
    (Host.divf (broadcastInDim S1x128 ![1] bcast_S128_S1x128_1 (colsumN x)) (broadcastInDim S1x128 ![] bcast_S_S1x128 cntNS)))

def varN (x : NodeArr F) : Vec F :=
  select (broadcastInDim S128 ![] bcast_S_S128 (cmpf (F := F) .ogt dofN zeroS))
    (Host.divf (Host.reduceAdd (mulf (devN x) (devN x)) zeroS reducesTo_S50000x128_S128_d0 h_S_)
      (broadcastInDim S128 ![] bcast_S_S128 dofN))
    (broadcastInDim S128 ![] bcast_S_S128 (constant (F := F) S_ .f32 0x7FC00000#32))

def eps5V : Vec F := broadcastInDim S128 ![] bcast_S_S128 (constant S_ .f32 0x3727C5AC#32)

def bnN (x : NodeArr F) (mu var gam bet : Vec F) : NodeArr F :=
  addf (mulf (mulf (subf x (rowsN mu)) (rowsN (Host.rsqrt (addf var eps5V)))) (rowsN gam)) (rowsN bet)

def reluN (x : NodeArr F) : NodeArr F := maximumf x zerosN

def normResN (x orig : NodeArr F) (gam bet : Vec F) : NodeArr F :=
  addf orig (reluN (bnN x (meanN x) (varN x) gam bet))

def colsumE (x : EdgeArr F) : Vec F := Host.reduceAdd x zeroS reducesTo_S500000x128_S128_d0 h_S_

def meanE (x : EdgeArr F) : Vec F := Host.divf (colsumE x) (broadcastInDim S128 ![] bcast_S_S128 cntES)

def dofE : Scal F := subf cntES (sitofp (F := F) .f32 (constantI S_ 32 0#32))

def devE (x : EdgeArr F) : EdgeArr F :=
  subf x (broadcastInDim S500000x128 ![0, 1] bcast_S1x128_S500000x128_0_1
    (Host.divf (broadcastInDim S1x128 ![1] bcast_S128_S1x128_1 (colsumE x)) (broadcastInDim S1x128 ![] bcast_S_S1x128 cntES)))

def varE (x : EdgeArr F) : Vec F :=
  select (broadcastInDim S128 ![] bcast_S_S128 (cmpf (F := F) .ogt dofE zeroS))
    (Host.divf (Host.reduceAdd (mulf (devE x) (devE x)) zeroS reducesTo_S500000x128_S128_d0 h_S_)
      (broadcastInDim S128 ![] bcast_S_S128 dofE))
    (broadcastInDim S128 ![] bcast_S_S128 (constant (F := F) S_ .f32 0x7FC00000#32))

def bnE (x : EdgeArr F) (mu var gam bet : Vec F) : EdgeArr F :=
  addf (mulf (mulf (subf x (rowsE mu)) (rowsE (Host.rsqrt (addf var eps5V)))) (rowsE gam)) (rowsE bet)

def zerosE : EdgeArr F := broadcastInDim S500000x128 ![] bcast_S_S500000x128 (constant S_ .f32 0x00000000#32)

def reluE (x : EdgeArr F) : EdgeArr F := maximumf x zerosE

def normResE (x orig : EdgeArr F) (gam bet : Vec F) : EdgeArr F :=
  addf orig (reluE (bnE x (meanE x) (varE x) gam bet))

def enewOf (h : NodeArr F) (e : EdgeArr F) (src dst : Ends F) (W_C W_D W_E : Mat F) (b_C b_D b_E : Vec F) : EdgeArr F :=
  enew (linN h W_D b_D) (linN h W_E b_E) (linE e W_C b_C) src dst

def hnewOf (h : NodeArr F) (e : EdgeArr F) (src dst : Ends F) (W_A W_B W_C W_D W_E : Mat F)
    (b_A b_B b_C b_D b_E : Vec F) : NodeArr F :=
  hnew (linN h W_A b_A)
    (segsum dst (gated (linN h W_B b_B) src (sigma (enewOf h e src dst W_C W_D W_E b_C b_D b_E))))
    (segsum dst (sigma (enewOf h e src dst W_C W_D W_E b_C b_D b_E)))

def resH (h : NodeArr F) (e : EdgeArr F) (src dst : Ends F) (W_A W_B W_C W_D W_E : Mat F)
    (b_A b_B b_C b_D b_E gamma_h beta_h : Vec F) : NodeArr F :=
  normResN (hnewOf h e src dst W_A W_B W_C W_D W_E b_A b_B b_C b_D b_E) h gamma_h beta_h

def resE (h : NodeArr F) (e : EdgeArr F) (src dst : Ends F) (W_C W_D W_E : Mat F)
    (b_C b_D b_E gamma_e beta_e : Vec F) : EdgeArr F :=
  normResE (enewOf h e src dst W_C W_D W_E b_C b_D b_E) e gamma_e beta_e

end Cert.ReferenceIdeal.RefRun

end
-- ==== Proof.Ref.Run.lean ====
import proofs.«429521_j46961172414534_2_alg».proof.Defs
import proofs.«429521_j46961172414534_2_alg».proof.Proof.Gen.ReferenceIdeal
import proofs.«429521_j46961172414534_2_alg».proof.Proof.Gen.Pre_finite_inputs
import proofs.«429521_j46961172414534_2_alg».proof.Proof.Ref.Stages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

local notation:max "↟" r:max => (Proc.devRef (τ := τ) Proc.tc r)

local notation "dotNode" => dot_S50000x128_S128x128_S50000x128_1_0_0_1_n_n
local notation "dotEdge" => dot_S500000x128_S128x128_S500000x128_1_0_0_1_n_n
local notation "takeDims" => gather_S50000x128_S500000x1_S500000x128_1_0_n_n_0_1_1128
local notation "addDims" => scatter_S50000x128_S500000x1_S500000x128_1_0_0_1
local notation "flipW" => (fun W => transpose S128x128 [1, 0] W transposes_S128x128_S128x128_1_0)
local notation "asRow" => broadcastInDim S1x128 ![1] bcast_S128_S1x128_1
local notation "rowOverN" => broadcastInDim S50000x128 ![0, 1] bcast_S1x128_S50000x128_0_1
local notation "rowOverE" => broadcastInDim S500000x128 ![0, 1] bcast_S1x128_S500000x128_0_1
local notation "splatEnds" => broadcastInDim S500000 ![] bcast_S_S500000
local notation "asCol" => broadcastInDim S500000x1 ![0] bcast_S500000_S500000x1_0
local notation "splatN" => broadcastInDim S50000x128 ![] bcast_S_S50000x128
local notation "splatE" => broadcastInDim S500000x128 ![] bcast_S_S500000x128
local notation "splatV" => broadcastInDim S128 ![] bcast_S_S128
local notation "splatRow" => broadcastInDim S1x128 ![] bcast_S_S1x128
local notation "sumN" => (fun x v => Host.reduceAdd x v reducesTo_S50000x128_S128_d0 h_S_)
local notation "sumE" => (fun x v => Host.reduceAdd x v reducesTo_S500000x128_S128_d0 h_S_)

abbrev opsProj : List (HloOp τ sig (Elt F)) :=
  [ unary main_arg4 main_v0 flipW,
    binary main_arg0 main_v0 main_v1 (fun l r => Host.dotGeneral dotNode none l r),
    unary main_arg5 main_v2 asRow,
    unary main_v2 main_v3 rowOverN,
    binary main_v1 main_v3 main_v4 addf,
    unary main_arg6 main_v5 flipW,
    binary main_arg0 main_v5 main_v6 (fun l r => Host.dotGeneral dotNode none l r),
    unary main_arg7 main_v7 asRow,
    unary main_v7 main_v8 rowOverN,
    binary main_v6 main_v8 main_v9 addf,
    unary main_arg10 main_v10 flipW,
    binary main_arg0 main_v10 main_v11 (fun l r => Host.dotGeneral dotNode none l r),
    unary main_arg11 main_v12 asRow,
    unary main_v12 main_v13 rowOverN,
    binary main_v11 main_v13 main_v14 addf,
    unary main_arg12 main_v15 flipW,
    binary main_arg0 main_v15 main_v16 (fun l r => Host.dotGeneral dotNode none l r),
    unary main_arg13 main_v17 asRow,
    unary main_v17 main_v18 rowOverN,
    binary main_v16 main_v18 main_v19 addf,
    unary main_arg8 main_v20 flipW,
    binary main_arg1 main_v20 main_v21 (fun l r => Host.dotGeneral dotEdge none l r),
    unary main_arg9 main_v22 asRow,
    unary main_v22 main_v23 rowOverE,
    binary main_v21 main_v23 main_v24 addf,
    nullary main_c (constantI S_ 32 0#32),
    unary main_c main_v25 splatEnds,
    binary main_arg2 main_v25 main_v26 (cmpi .slt),
    nullary main_c_0 (constantI S_ 32 50000#32),
    unary main_c_0 main_v27 splatEnds,
    binary main_arg2 main_v27 main_v28 addi,
    ternary main_v26 main_v28 main_arg2 main_v29 select,
    unary main_v29 main_v30 asCol,
    binary main_v14 main_v30 main_v31 (fun x i => Host.gather takeDims x i),
    nullary main_c_1 (constantI S_ 32 0#32),
    unary main_c_1 main_v32 splatEnds,
    binary main_arg3 main_v32 main_v33 (cmpi .slt),
    nullary main_c_2 (constantI S_ 32 50000#32),
    unary main_c_2 main_v34 splatEnds,
    binary main_arg3 main_v34 main_v35 addi,
    ternary main_v33 main_v35 main_arg3 main_v36 select,
    unary main_v36 main_v37 asCol,
    binary main_v19 main_v37 main_v38 (fun x i => Host.gather takeDims x i),
    binary main_v31 main_v38 main_v39 addf,
    binary main_v39 main_v24 main_v40 addf ]

abbrev opsAgg : List (HloOp τ sig (Elt F)) :=
  [ unary main_v40 main_v41 Host.negf,
    unary main_v41 main_v42 Host.exp,
    nullary main_cst (constant S_ .f32 0x3F800000#32),
    unary main_cst main_v43 splatE,
    binary main_v43 main_v42 main_v44 addf,
    nullary main_cst_3 (constant S_ .f32 0x3F800000#32),
    unary main_cst_3 main_v45 splatE,
    binary main_v45 main_v44 main_v46 Host.divf,
    nullary main_c_4 (constantI S_ 32 0#32),
    unary main_c_4 main_v47 splatEnds,
    binary main_arg2 main_v47 main_v48 (cmpi .slt),
    nullary main_c_5 (constantI S_ 32 50000#32),
    unary main_c_5 main_v49 splatEnds,
    binary main_arg2 main_v49 main_v50 addi,
    ternary main_v48 main_v50 main_arg2 main_v51 select,
    unary main_v51 main_v52 asCol,
    binary main_v9 main_v52 main_v53 (fun x i => Host.gather takeDims x i),
    binary main_v53 main_v46 main_v54 mulf,
    nullary main_cst_6 (constant S_ .f32 0x00000000#32),
    unary main_cst_6 main_v55 splatN,
    unary main_arg3 main_v56 asCol,
    ternary main_v55 main_v56 main_v54 main_v57 (fun x i u => Host.scatterAdd addDims x i u),
    nullary main_cst_7 (constant S_ .f32 0x00000000#32),
    unary main_cst_7 main_v58 splatN,
    unary main_arg3 main_v59 asCol,
    ternary main_v58 main_v59 main_v46 main_v60 (fun x i u => Host.scatterAdd addDims x i u),
    nullary main_cst_8 (constant S_ .f32 0x358637BD#32),
    unary main_cst_8 main_v61 splatN,
    binary main_v60 main_v61 main_v62 addf,
    binary main_v57 main_v62 main_v63 Host.divf,
    binary main_v4 main_v63 main_v64 addf ]

abbrev opsNormH : List (HloOp τ sig (Elt F)) :=
  [ nullary main_cst_9 (constant S_ .f32 0x00000000#32),
    binary main_v64 main_cst_9 main_v65 sumN,
    nullary main_cst_10 (constant S_ .f32 0x47435000#32),
    unary main_cst_10 main_v66 splatV,
    binary main_v65 main_v66 main_v67 Host.divf,
    nullary main_c_11 (constantI S_ 32 0#32),
    TRef.nullary main_call0.cst (constant S_ .f32 0x00000000#32),
    TRef.binary (.of main_v64 : TRef sig ⟨S50000x128, .f32⟩) main_call0.cst main_call0.v0 sumN,
    TRef.unary main_call0.v0 main_call0.v1 asRow,
    TRef.nullary main_call0.cst_0 (constant S_ .f32 0x47435000#32),
    TRef.unary main_call0.cst_0 main_call0.v2 splatRow,
    TRef.binary main_call0.v1 main_call0.v2 main_call0.v3 Host.divf,
    TRef.unary main_call0.v3 main_call0.v4 rowOverN,
    TRef.binary (.of main_v64 : TRef sig ⟨S50000x128, .f32⟩) main_call0.v4 main_call0.v5 subf,
    TRef.binary main_call0.v5 main_call0.v5 main_call0.v6 mulf,
    TRef.unary (.of main_c_11 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 sumN,
    TRef.unary main_call0.v8 main_call0.v10 splatV,
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 splatV,
    TRef.ternary main_call0.v12 main_call0.v11 main_call0.call0.v1 main_call0.call0.v2 (fun p a b => select (splatV p) a b),
    unary main_v67 main_v69 asRow,
    unary main_v69 main_v70 rowOverN,
    binary main_v64 main_v70 main_v71 subf,
    nullary main_cst_12 (constant S_ .f32 0x3727C5AC#32),
    unary main_cst_12 main_v72 splatV,
    binary main_v68 main_v72 main_v73 addf,
    unary main_v73 main_v74 Host.rsqrt,
    unary main_v74 main_v75 asRow,
    unary main_v75 main_v76 rowOverN,
    binary main_v71 main_v76 main_v77 mulf,
    unary main_arg14 main_v78 asRow,
    unary main_v78 main_v79 rowOverN,
    binary main_v77 main_v79 main_v80 mulf,
    unary main_arg15 main_v81 asRow,
    unary main_v81 main_v82 rowOverN,
    binary main_v80 main_v82 main_v83 addf,
    TRef.nullary main_call1.cst (constant S_ .f32 0x00000000#32),
    TRef.unary main_call1.cst main_call1.v0 splatN,
    TRef.binary (.of main_v83 : TRef sig ⟨S50000x128, .f32⟩) main_call1.v0 main_call1.v1 maximumf ]

abbrev opsNormE : List (HloOp τ sig (Elt F)) :=
  [ nullary main_cst_13 (constant S_ .f32 0x00000000#32),
    binary main_v40 main_cst_13 main_v85 sumE,
    nullary main_cst_14 (constant S_ .f32 0x48F42400#32),
    unary main_cst_14 main_v86 splatV,
    binary main_v85 main_v86 main_v87 Host.divf,
    nullary main_c_15 (constantI S_ 32 0#32),
    TRef.nullary main_call2.cst (constant S_ .f32 0x00000000#32),
    TRef.binary (.of main_v40 : TRef sig ⟨S500000x128, .f32⟩) main_call2.cst main_call2.v0 sumE,
    TRef.unary main_call2.v0 main_call2.v1 asRow,
    TRef.nullary main_call2.cst_0 (constant S_ .f32 0x48F42400#32),
    TRef.unary main_call2.cst_0 main_call2.v2 splatRow,
    TRef.binary main_call2.v1 main_call2.v2 main_call2.v3 Host.divf,
    TRef.unary main_call2.v3 main_call2.v4 rowOverE,
    TRef.binary (.of main_v40 : TRef sig ⟨S500000x128, .f32⟩) main_call2.v4 main_call2.v5 subf,
    TRef.binary main_call2.v5 main_call2.v5 main_call2.v6 mulf,
    TRef.unary (.of main_c_15 : TRef sig ⟨S_, .i32⟩) main_call2.v7 (sitofp .f32),
    TRef.nullary main_call2.cst_1 (constant S_ .f32 0x48F42400#32),
    TRef.binary main_call2.cst_1 main_call2.v7 main_call2.v8 subf,
    TRef.nullary main_call2.cst_2 (constant S_ .f32 0x00000000#32),
    TRef.binary main_call2.v6 main_call2.cst_2 main_call2.v9 sumE,
    TRef.unary main_call2.v8 main_call2.v10 splatV,
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 splatV,
    TRef.ternary main_call2.v12 main_call2.v11 main_call2.call0.v1 main_call2.call0.v2 (fun p a b => select (splatV p) a b),
    unary main_v87 main_v89 asRow,
    unary main_v89 main_v90 rowOverE,
    binary main_v40 main_v90 main_v91 subf,
    nullary main_cst_16 (constant S_ .f32 0x3727C5AC#32),
    unary main_cst_16 main_v92 splatV,
    binary main_v88 main_v92 main_v93 addf,
    unary main_v93 main_v94 Host.rsqrt,
    unary main_v94 main_v95 asRow,
    unary main_v95 main_v96 rowOverE,
    binary main_v91 main_v96 main_v97 mulf,
    unary main_arg16 main_v98 asRow,
    unary main_v98 main_v99 rowOverE,
    binary main_v97 main_v99 main_v100 mulf,
    unary main_arg17 main_v101 asRow,
    unary main_v101 main_v102 rowOverE,
    binary main_v100 main_v102 main_v103 addf,
    TRef.nullary main_call3.cst (constant S_ .f32 0x00000000#32),
    TRef.unary main_call3.cst main_call3.v0 splatE,
    TRef.binary (.of main_v103 : TRef sig ⟨S500000x128, .f32⟩) main_call3.v0 main_call3.v1 maximumf,
    binary main_arg0 main_v84 main_v105 addf,
    binary main_arg1 main_v104 main_v106 addf ]

abbrev wProj : List (Ref sig .tc) :=
  [main_v0, main_v1, main_v2, main_v3, main_v4, main_v5, main_v6, main_v7, main_v8, main_v9, main_v10, main_v11,
    main_v12, main_v13, main_v14, main_v15, main_v16, main_v17, main_v18, main_v19, main_v20, main_v21, main_v22,
    main_v23, main_v24, main_c, main_v25, main_v26, main_c_0, main_v27, main_v28, main_v29, main_v30, main_v31,
    main_c_1, main_v32, main_v33, main_c_2, main_v34, main_v35, main_v36, main_v37, main_v38, main_v39, main_v40]
abbrev wAgg : List (Ref sig .tc) :=
  [main_v41, main_v42, main_cst, main_v43, main_v44, main_cst_3, main_v45, main_v46, main_c_4, main_v47, main_v48,
    main_c_5, main_v49, main_v50, main_v51, main_v52, main_v53, main_v54, main_cst_6, main_v55, main_v56, main_v57,
    main_cst_7, main_v58, main_v59, main_v60, main_cst_8, main_v61, main_v62, main_v63, main_v64]
abbrev wNormH : List (Ref sig .tc) :=
  [main_cst_9, main_v65, main_cst_10, main_v66, main_v67, main_c_11, main_call0_cst, main_call0_v0, main_call0_v1,
    main_call0_cst_0, main_call0_v2, main_call0_v3, main_call0_v4, main_call0_v5, main_call0_v6, main_call0_v7,
    main_call0_cst_1, main_call0_v8, main_call0_cst_2, main_call0_v9, main_call0_v10, main_call0_v11,
    main_call0_cst_3, main_call0_v12, main_call0_cst_4, main_call0_call0_v0, main_call0_call0_v1, main_v68, main_v69,
    main_v70, main_v71, main_cst_12, main_v72, main_v73, main_v74, main_v75, main_v76, main_v77, main_v78, main_v79,
    main_v80, main_v81, main_v82, main_v83, main_call1_cst, main_call1_v0, main_v84]
abbrev wNormE : List (Ref sig .tc) :=
  [main_cst_13, main_v85, main_cst_14, main_v86, main_v87, main_c_15, main_call2_cst, main_call2_v0, main_call2_v1,
    main_call2_cst_0, main_call2_v2, main_call2_v3, main_call2_v4, main_call2_v5, main_call2_v6, main_call2_v7,
    main_call2_cst_1, main_call2_v8, main_call2_cst_2, main_call2_v9, main_call2_v10, main_call2_v11,
    main_call2_cst_3, main_call2_v12, main_call2_cst_4, main_call2_call0_v0, main_call2_call0_v1, main_v88, main_v89,
    main_v90, main_v91, main_cst_16, main_v92, main_v93, main_v94, main_v95, main_v96, main_v97, main_v98, main_v99,
    main_v100, main_v101, main_v102, main_v103, main_call3_cst, main_call3_v0, main_v104, main_v105, main_v106]

abbrev ops : List (HloOp τ sig (Elt F)) := opsProj ++ (opsAgg ++ (opsNormH ++ opsNormE))

abbrev wAll : List (Ref sig .tc) := wProj ++ (wAgg ++ (wNormH ++ wNormE))

local macro "writes_listed" : tactic =>
  `(tactic| (simp only [List.Forall, nullary_writes, unary_writes, binary_writes, ternary_writes,
              Finset.singleton_subset_iff, List.mem_toFinset]
             repeat' apply And.intro
             all_goals exact List.mem_map_of_mem (by decide)))

/-- Running two lists in a row is running the second from where the first ends. -/
theorem after_two (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

section Stretches

variable (W : Valuation τ sig (Elt F))

theorem keepProj (r : Ref sig .tc) (h : r ∉ wProj) : after opsProj W (no_index (↟r)) = W (↟r) :=
  after_of_writes_sub opsProj W (by writes_listed) h
theorem keepAgg (r : Ref sig .tc) (h : r ∉ wAgg) : after opsAgg W (no_index (↟r)) = W (↟r) :=
  after_of_writes_sub opsAgg W (by writes_listed) h
theorem keepNormH (r : Ref sig .tc) (h : r ∉ wNormH) : after opsNormH W (no_index (↟r)) = W (↟r) :=
  after_of_writes_sub opsNormH W (by writes_listed) h
theorem keepNormE (r : Ref sig .tc) (h : r ∉ wNormE) : after opsNormE W (no_index (↟r)) = W (↟r) :=
  after_of_writes_sub opsNormE W (by writes_listed) h

theorem proj_Ah : after opsProj W (no_index (↟main_v4)) = linN (W (↟main_arg0)) (W (↟main_arg4)) (W (↟main_arg5)) := by
  simp only [opsProj]; after_results_simp <;> rfl
theorem proj_Bh : after opsProj W (no_index (↟main_v9)) = linN (W (↟main_arg0)) (W (↟main_arg6)) (W (↟main_arg7)) := by
  simp only [opsProj]; after_results_simp <;> rfl
theorem proj_enew : after opsProj W (no_index (↟main_v40))
    = enewOf (W (↟main_arg0)) (W (↟main_arg1)) (W (↟main_arg2)) (W (↟main_arg3)) (W (↟main_arg8)) (W (↟main_arg10))
        (W (↟main_arg12)) (W (↟main_arg9)) (W (↟main_arg11)) (W (↟main_arg13)) := by
  simp only [opsProj]; after_results_simp <;> rfl
theorem agg_out : after opsAgg W (no_index (↟main_v64))
    = hnew (W (↟main_v4)) (segsum (W (↟main_arg3)) (gated (W (↟main_v9)) (W (↟main_arg2)) (sigma (W (↟main_v40)))))
        (segsum (W (↟main_arg3)) (sigma (W (↟main_v40)))) := by
  simp only [opsAgg]; after_results_simp <;> rfl
theorem normH_out : after opsNormH W (no_index (↟main_v84))
    = reluN (bnN (W (↟main_v64)) (meanN (W (↟main_v64))) (varN (W (↟main_v64))) (W (↟main_arg14)) (W (↟main_arg15))) := by
  simp only [opsNormH]; after_results_simp <;> (try simp only [TRef.ofBuf, TRef.toBuf, cast_eq]) <;> rfl
theorem normE_H : after opsNormE W (no_index (↟main_v105)) = addf (W (↟main_arg0)) (W (↟main_v84)) := by
  simp only [opsNormE]; after_results_simp <;> rfl
theorem normE_E : after opsNormE W (no_index (↟main_v106))
    = normResE (W (↟main_v40)) (W (↟main_arg1)) (W (↟main_arg16)) (W (↟main_arg17)) := by
  simp only [opsNormE]; after_results_simp <;> (try simp only [TRef.ofBuf, TRef.toBuf, cast_eq]) <;> rfl

end Stretches

set_option maxRecDepth 16384 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_fresh : ∀ op ∈ (ops : List (HloOp τ sig (Elt F))), op.fresh = ∅ :=
  List.forall_iff_forall_mem.1 (by and_intros <;> rfl)

theorem ops_sub : (ops : List (HloOp τ sig (Elt F))).Forall fun op => op.bufs ⊆ tcRefs τ sig := by
  simp only [ops, opsProj, opsAgg, opsNormH, opsNormE, List.cons_append, List.nil_append, List.Forall, nullary_bufs_sub,
    unary_bufs_sub, binary_bufs_sub, ternary_bufs_sub, and_self]

/-- A reference outside the written list keeps its value through the whole line. -/
theorem keepAll (V : Valuation τ sig (Elt F)) (r : Ref sig .tc) (h : r ∉ wAll) : after ops V (↟r) = V (↟r) :=
  after_of_writes_sub ops V (by
    simp only [ops, opsProj, opsAgg, opsNormH, opsNormE, List.cons_append, List.nil_append]; writes_listed) h

local macro "through_the_stretches" : tactic =>
  `(tactic| simp (disch := decide) only [ops, after_two, keepProj, keepAgg, keepNormH, keepNormE, proj_Ah, proj_Bh,
      proj_enew, agg_out, normH_out, normE_H, normE_E, resH, resE, normResN, hnewOf])

theorem after_resH (V : Valuation τ sig (Elt F)) :
    after ops V (↟main_v105)
      = resH (V (↟main_arg0)) (V (↟main_arg1)) (V (↟main_arg2)) (V (↟main_arg3)) (V (↟main_arg4)) (V (↟main_arg6))
          (V (↟main_arg8)) (V (↟main_arg10)) (V (↟main_arg12)) (V (↟main_arg5)) (V (↟main_arg7)) (V (↟main_arg9))
          (V (↟main_arg11)) (V (↟main_arg13)) (V (↟main_arg14)) (V (↟main_arg15)) := by
  through_the_stretches

theorem after_resE (V : Valuation τ sig (Elt F)) :
    after ops V (↟main_v106)
      = resE (V (↟main_arg0)) (V (↟main_arg1)) (V (↟main_arg2)) (V (↟main_arg3)) (V (↟main_arg8)) (V (↟main_arg10))
          (V (↟main_arg12)) (V (↟main_arg9)) (V (↟main_arg11)) (V (↟main_arg13)) (V (↟main_arg16)) (V (↟main_arg17)) := by
  through_the_stretches

/-- Every execution ends with the two results at the stages composed over the launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v105)
        = resH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
            (m ((c.tc : Thread nD τ).loc main_arg8)) (m ((c.tc : Thread nD τ).loc main_arg10)) (m ((c.tc : Thread nD τ).loc main_arg12)) (m ((c.tc : Thread nD τ).loc main_arg5)) (m ((c.tc : Thread nD τ).loc main_arg7)) (m ((c.tc : Thread nD τ).loc main_arg9))
            (m ((c.tc : Thread nD τ).loc main_arg11)) (m ((c.tc : Thread nD τ).loc main_arg13)) (m ((c.tc : Thread nD τ).loc main_arg14)) (m ((c.tc : Thread nD τ).loc main_arg15))
      ∧ r.2.mem ((c.tc : Thread nD τ).loc main_v106)
        = resE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg10))
            (m ((c.tc : Thread nD τ).loc main_arg12)) (m ((c.tc : Thread nD τ).loc main_arg9)) (m ((c.tc : Thread nD τ).loc main_arg11)) (m ((c.tc : Thread nD τ).loc main_arg13)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => by
      refine ⟨(h c _).trans (after_resH _), (h c _).trans (after_resE _), ?_⟩
      and_intros <;> exact (h c _).trans (keepAll _ _ (by decide)))
    (run_seq scopedRefs_eq scopedSems_eq defs main (fun _ => ops) main_eq (fun _ => ops_sub) m ρ fun _ => ops_fresh)

theorem frame : Cert.frame_ReferenceIdeal := fun m g _ =>
  (θ_run _ _ _).mono (fun _ h c => (h c).2.2) (run (F := Ideal) m g)

end Cert.ReferenceIdeal.RefRun

end
-- ==== Proof.LibGatherRows.lean ====
import Idealize.ShloMosaic.PureOps
import Idealize.ShloMosaic.Lib.ValueIdx

namespace Cert.Att.Lib

open Idealize.ShloMosaic Idealize.ShloMosaic.ValueIdx

/-- A take along axis 0 reads row `n` of the table when the start index is `n`: in range, so the clamp does nothing. -/
theorem gather_rows2_of_eq {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (c : Fin C)
    (n : Fin N) (hn : (idx (ix2 e 0)).toInt = (n.val : Int)) :
    Host.gather d x idx (ix2 e c) = x (ix2 n c) := by
  have hsl : d.sliceSizes 0 = 1 := d.slice_collapsed 0 (by rw [hcoll]; exact List.mem_singleton.mpr rfl)
  obtain ⟨off, coll, ob, sb, sim, ivd, ss, wf⟩ := d
  dsimp only at hoff hcoll hob hsim hivd hsl
  subst hoff hcoll hob hsim hivd
  unfold Host.gather
  congr 1
  funext a
  refine Fin.ext ?_
  match a with
  | ⟨0, _⟩ =>
    have hi : GatherDims.siIdx ⟨[1], [0], [], sb, [0], 1, ss, wf⟩ (ix2 e c) ⟨0, Nat.one_pos⟩ = ix2 e 0 := by
      funext b
      match b with
      | ⟨0, _⟩ => rfl
      | ⟨1, _⟩ => rfl
    show min (idx (GatherDims.siIdx ⟨[1], [0], [], sb, [0], 1, ss, wf⟩ (ix2 e c) ⟨0, Nat.one_pos⟩)).toInt.toNat (N - ss 0) = n.val
    rw [hi, hn, hsl]
    have := n.isLt
    omega
  | ⟨1, _⟩ => exact Nat.zero_add _

end Cert.Att.Lib
-- ==== Proof.LibScatterRows.lean ====
import Idealize.ShloMosaic.PureOps
import Idealize.ShloMosaic.PureOps.Ideal
import Idealize.ShloMosaic.Lib.ValueIdx

open scoped BigOperators
open Idealize.ShloMosaic Idealize.ShloMosaic.ValueIdx

namespace Cert.Att.Lib

/-- Update index `u` lands at (row number of `u`'s row, `u`'s column): start plus window coordinate is that on each axis. -/
theorem resultIdx?_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (idx : IVec ⟨2, ![E, 1]⟩ w) (dst : Fin E → Fin N)
    (hdst : ∀ e, (idx (ix2 e 0)).toInt = ((dst e).val : ℤ)) (u : (⟨2, ![E, C]⟩ : Shape).Idx) :
    d.resultIdx? u idx = some (ix2 (dst (u 0)) (u 1)) := by
  have key : ∀ a, d.start u idx a + (d.window u a : ℤ) = ((ix2 (dst (u 0)) (u 1) a).val : ℤ) := by
    obtain ⟨uw, iw, sd, ivd, wf⟩ := d
    dsimp only at huw hiw hsd hivd
    subst huw hiw hsd hivd
    intro a
    match a with
    | ⟨0, _⟩ =>
      have hi : ScatterDims.siIdx ⟨[1], [0], [0], 1, wf⟩ u ⟨0, Nat.one_pos⟩ = ix2 (u 0) 0 := by
        funext b
        match b with
        | ⟨0, _⟩ => rfl
        | ⟨1, _⟩ => rfl
      show (idx (ScatterDims.siIdx ⟨[1], [0], [0], 1, wf⟩ u ⟨0, Nat.one_pos⟩)).toInt + ((0 : ℕ) : ℤ) = _
      rw [hi]
      exact (Int.add_zero _).trans (hdst (u 0))
    | ⟨1, _⟩ => exact Int.zero_add _
  unfold ScatterDims.resultIdx?
  rw [dif_pos fun a => by rw [key]; exact ⟨Int.natCast_nonneg _, Int.ofNat_lt.mpr (Fin.isLt _)⟩]
  congr 1
  funext a
  refine Fin.ext ?_
  show (d.start u idx a + (d.window u a : ℤ)).toNat = _
  rw [key]
  rfl

/-- The accumulating row scatter at (n, c): the operand's entry plus the updates' entries in column c over the rows sent to n. -/
theorem scatterAdd_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w)
    (upd : (⟨2, ![E, C]⟩ : Shape).Idx → EReal)
    (dst : Fin E → Fin N) (hdst : ∀ e, (idx (ix2 e 0)).toInt = ((dst e).val : ℤ))
    (n : Fin N) (c : Fin C) :
    Ideal.hostScatterAdd d x idx upd (ix2 n c) =
      x (ix2 n c) + ∑ e ∈ Finset.univ.filter (fun e => dst e = n), upd (ix2 e c) := by
  have hr := resultIdx?_rows2 d huw hiw hsd hivd idx dst hdst
  unfold Ideal.hostScatterAdd
  congr 1
  symm
  refine Finset.sum_bij (fun e _ => ix2 e c) ?_ (fun a _ b _ h => congrFun h 0) ?_ (fun _ _ => rfl)
  · intro e he
    rw [Finset.mem_filter] at he ⊢
    exact ⟨Finset.mem_univ _, by rw [hr, ← he.2]; rfl⟩
  · intro u hu
    rw [Finset.mem_filter, hr] at hu
    have hu' := Option.some.inj hu.2
    refine ⟨u 0, Finset.mem_filter.2 ⟨Finset.mem_univ _, congrFun hu' 0⟩, ?_⟩
    rw [← show u 1 = c from congrFun hu' 1]
    exact (eq_ix2 u).symm

end Cert.Att.Lib
-- ==== Proof.Ref.Val.lean ====
import proofs.«429521_j46961172414534_2_alg».proof.ReferenceIdeal
import proofs.«429521_j46961172414534_2_alg».proof.Proof.Gen.ReferenceIdeal
import proofs.«429521_j46961172414534_2_alg».proof.Proof.Spec
import proofs.«429521_j46961172414534_2_alg».proof.Proof.LibGatherRows
import proofs.«429521_j46961172414534_2_alg».proof.Proof.LibScatterRows
import proofs.«429521_j46961172414534_2_alg».proof.Proof.Ref.Stages
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost
import Idealize.ShloMosaic.Lib.KernelVsHost

noncomputable section

namespace Cert.ReferenceIdeal.RefVal

open Idealize.ShloMosaic Idealize.ShloMosaic.ValueIdx
open Cert.ReferenceIdeal
open Cert.Spec (cur cur1)
open scoped BigOperators

theorem bcRow_apply {α : Type} (h : S128.BroadcastsInDim S1x128 (![1] : Fin 1 → Fin S1x128.rank))
    (b : S128.Idx → α) (z : Fin 1) (q : Fin 128) : broadcastInDim S1x128 ![1] h b (ix2 z q) = b (ix1 q) :=
  broadcastInDim_apply _ h b _ _ fun a => match a with | ⟨0, _⟩ => rfl

theorem perColumn_apply {α : Type} {M : ℕ}
    (h1 : S128.BroadcastsInDim S1x128 (![1] : Fin 1 → Fin S1x128.rank))
    (h2 : S1x128.BroadcastsInDim ⟨2, ![M, 128]⟩ (![0, 1] : Fin 2 → Fin (⟨2, ![M, 128]⟩ : Shape).rank))
    (b : S128.Idx → α) (p : Fin M) (q : Fin 128) :
    broadcastInDim ⟨2, ![M, 128]⟩ ![0, 1] h2 (broadcastInDim S1x128 ![1] h1 b) (ix2 p q) = b (ix1 q) := by
  rw [broadcastInDim_oneRow_apply, bcRow_apply]

theorem asColumn_apply {α : Type} (h : S500000.BroadcastsInDim S500000x1 (![0] : Fin 1 → Fin S500000x1.rank))
    (v : S500000.Idx → α) (e : Fin 500000) (z : Fin 1) : broadcastInDim S500000x1 ![0] h v (ix2 e z) = v (ix1 e) :=
  broadcastInDim_apply _ h v _ _ fun a => match a with | ⟨0, _⟩ => rfl

/-- Entry (p, q) of x · Wᵀ + b is Σₖ x[p,k] · W[q,k] + b[q]. -/
theorem proj_eq {M : ℕ} (d : DotDims ⟨2, ![M, 128]⟩ S128x128 ⟨2, ![M, 128]⟩)
    (hd : d = DotDims.plain M 128 128) (ht : S128x128.Transposes [1, 0] S128x128)
    (h1 : S128.BroadcastsInDim S1x128 (![1] : Fin 1 → Fin S1x128.rank))
    (h2 : S1x128.BroadcastsInDim ⟨2, ![M, 128]⟩ (![0, 1] : Fin 2 → Fin (⟨2, ![M, 128]⟩ : Shape).rank))
    (x : FVec Ideal ⟨2, ![M, 128]⟩ .f32) (W : FVec Ideal S128x128 .f32) (b : FVec Ideal S128 .f32) :
    cur (addf (Host.dotGeneral d none x (transpose S128x128 [1, 0] W ht))
      (broadcastInDim ⟨2, ![M, 128]⟩ ![0, 1] h2 (broadcastInDim S1x128 ![1] h1 b)))
    = Spec.lin (cur x) (cur W) (cur1 b) := by
  subst hd
  funext p q
  show addf _ _ (ix2 p q) = (∑ k : Fin 128, x (ix2 p k) * W (ix2 q k)) + b (ix1 q)
  rw [addf_apply, StackMember.dotGeneral_plain_apply, perColumn_apply]
  congr 1
  refine Finset.sum_congr rfl fun k _ => ?_
  rw [transpose_ix2_apply]

/-- A row number that is not negative is left as it is by the wrap of negative ones. -/
theorem wrapIdx_eq (h0 : S_.BroadcastsInDim S500000 (![] : Fin 0 → Fin S500000.rank)) (idx : IVec S500000 32)
    (f : Fin 500000 → Fin 50000) (hf : ∀ e, (idx (ix1 e)).toInt = ((f e).val : ℤ)) :
    select (cmpi .slt idx (broadcastInDim S500000 ![] h0 (constantI S_ 32 0#32)))
      (addi idx (broadcastInDim S500000 ![] h0 (constantI S_ 32 50000#32))) idx = idx := by
  funext i
  obtain ⟨e, rfl⟩ : ∃ e : Fin 500000, i = ix1 e := ⟨i 0, eq_ix1 i⟩
  have hlt : cmpi .slt idx (broadcastInDim S500000 ![] h0 (constantI S_ 32 0#32)) (ix1 e) = 0#1 := by
    show BitVec.ofBool ((idx (ix1 e)).slt 0#32) = 0#1
    have : ¬ (idx (ix1 e)).toInt < 0 := by rw [hf e]; omega
    simp [BitVec.slt, this]
  rw [select_apply, hlt, select_zero]

/-- Rows added into zeros: row n holds the sum of the rows sent to n. -/
theorem scatterIntoZero_apply {N E C w : ℕ} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (x : FVec Ideal ⟨2, ![N, C]⟩ .f32) (hx : ∀ j, x j = 0) (idx : IVec ⟨2, ![E, 1]⟩ w)
    (upd : FVec Ideal ⟨2, ![E, C]⟩ .f32) (f : Fin E → Fin N)
    (hf : ∀ e, (idx (ix2 e 0)).toInt = ((f e).val : ℤ)) (n : Fin N) (c : Fin C) :
    Host.scatterAdd d x idx upd (ix2 n c) = ∑ e ∈ Finset.univ.filter (fun e => f e = n), upd (ix2 e c) := by
  unfold Host.scatterAdd
  rw [Ideal.hostScatterAdd_def, Cert.Att.Lib.scatterAdd_rows2 d huw hiw hsd hivd x idx upd f hf n c, hx, zero_add]

/-- A reduction over the rows from zero is the column sum. -/
theorem colsum_apply {M : ℕ} (hr : (⟨2, ![M, 128]⟩ : Shape).ReducesTo [0] S128)
    (hr' : (⟨2, ![M, 128]⟩ : Shape).Reduces [0] S128) (hu : 0 < S_.numel)
    (x : FVec Ideal ⟨2, ![M, 128]⟩ .f32) (q : Fin 128) :
    Host.reduceAdd x (constant (F := Ideal) S_ .f32 0x00000000#32) hr hu (ix1 q) = ∑ p : Fin M, x (ix2 p q) := by
  show Ideal.hostReduceAdd hr x (Ideal.ofBits .f32 0x00000000#32) (ix1 q) = _
  rw [Ideal.hostReduceAdd_single hr hr', Ideal.ofBits_zero_f32, zero_add]
  show ∑ p : Fin M, x (hr'.lift (ix1 q) p) = _
  refine Finset.sum_congr rfl fun p _ => congrArg x ?_
  funext a
  match a with
  | ⟨0, _⟩ => rfl
  | ⟨1, _⟩ => rfl

theorem colmean_eq {M : ℕ} (hr : (⟨2, ![M, 128]⟩ : Shape).ReducesTo [0] S128)
    (hr' : (⟨2, ![M, 128]⟩ : Shape).Reduces [0] S128) (hu : 0 < S_.numel)
    (hb : S_.BroadcastsInDim S128 (![] : Fin 0 → Fin S128.rank)) (c : BitVec 32)
    (x : FVec Ideal ⟨2, ![M, 128]⟩ .f32) :
    cur1 (Host.divf (Host.reduceAdd x (constant (F := Ideal) S_ .f32 0x00000000#32) hr hu)
      (broadcastInDim S128 ![] hb (constant (F := Ideal) S_ .f32 c))) = Spec.colmean (Ideal.ofBits .f32 c) (cur x) := by
  funext q
  show Host.divf _ _ (ix1 q) = _
  rw [hostDivf_apply, broadcastInDim_scalar_apply, constant_apply, colsum_apply hr hr' hu x q]
  rfl

theorem dof_apply (c : BitVec 32) :
    subf (constant (F := Ideal) S_ .f32 c) (sitofp (F := Ideal) .f32 (constantI S_ 32 0#32)) ix0 = Ideal.ofBits .f32 c := by
  show Ideal.ofBits .f32 c - (((0#32 : BitVec 32).toInt : ℝ) : EReal) = _
  simp

theorem guard_apply (c : BitVec 32) (hpos : 0 < Ideal.ofBits .f32 c) :
    cmpf (F := Ideal) .ogt (subf (constant (F := Ideal) S_ .f32 c) (sitofp (F := Ideal) .f32 (constantI S_ 32 0#32)))
      (constant (F := Ideal) S_ .f32 0x00000000#32) ix0 = 1#1 := by
  rw [cmpf_apply, dof_apply, constant_apply, Ideal.ofBits_zero_f32]
  show BitVec.ofBool (decide ((0 : EReal) < Ideal.ofBits .f32 c)) = 1#1
  rw [decide_eq_true hpos]
  rfl

/-- For a positive row count the guard passes, and what is left is the mean of the squared deviations. -/
theorem colvar_eq {M : ℕ} (hr : (⟨2, ![M, 128]⟩ : Shape).ReducesTo [0] S128)
    (hr' : (⟨2, ![M, 128]⟩ : Shape).Reduces [0] S128) (hu : 0 < S_.numel)
    (h1 : S128.BroadcastsInDim S1x128 (![1] : Fin 1 → Fin S1x128.rank))
    (h2 : S1x128.BroadcastsInDim ⟨2, ![M, 128]⟩ (![0, 1] : Fin 2 → Fin (⟨2, ![M, 128]⟩ : Shape).rank))
    (hb1 : S_.BroadcastsInDim S1x128 (![] : Fin 0 → Fin S1x128.rank))
    (hb : S_.BroadcastsInDim S128 (![] : Fin 0 → Fin S128.rank)) (c : BitVec 32) (hpos : 0 < Ideal.ofBits .f32 c)
    (x : FVec Ideal ⟨2, ![M, 128]⟩ .f32) (dev : FVec Ideal ⟨2, ![M, 128]⟩ .f32)
    (hdev : dev = subf x (broadcastInDim ⟨2, ![M, 128]⟩ ![0, 1] h2
      (Host.divf (broadcastInDim S1x128 ![1] h1 (Host.reduceAdd x (constant (F := Ideal) S_ .f32 0x00000000#32) hr hu))
        (broadcastInDim S1x128 ![] hb1 (constant (F := Ideal) S_ .f32 c))))) :
    cur1 (select (broadcastInDim S128 ![] hb
        (cmpf (F := Ideal) .ogt (subf (constant (F := Ideal) S_ .f32 c) (sitofp (F := Ideal) .f32 (constantI S_ 32 0#32)))
          (constant (F := Ideal) S_ .f32 0x00000000#32)))
      (Host.divf (Host.reduceAdd (mulf dev dev) (constant (F := Ideal) S_ .f32 0x00000000#32) hr hu)
        (broadcastInDim S128 ![] hb (subf (constant (F := Ideal) S_ .f32 c) (sitofp (F := Ideal) .f32 (constantI S_ 32 0#32)))))
      (broadcastInDim S128 ![] hb (constant (F := Ideal) S_ .f32 0x7FC00000#32)))
    = Spec.colvar (Ideal.ofBits .f32 c) (cur x) := by
  funext q
  show select _ _ _ (ix1 q) = _
  rw [select_apply, broadcastInDim_scalar_apply, guard_apply c hpos, select_one, hostDivf_apply, broadcastInDim_scalar_apply, dof_apply,
    colsum_apply hr hr' hu (mulf dev dev) q]
  show Ideal.div (∑ p : Fin M, mulf dev dev (ix2 p q)) _ = Ideal.div (∑ p : Fin M, _) _
  congr 1
  refine Finset.sum_congr rfl fun p _ => ?_
  rw [mulf_apply, hdev, subf_apply, broadcastInDim_oneRow_apply, hostDivf_apply, bcRow_apply, broadcastInDim_scalar_apply,
    constant_apply, colsum_apply hr hr' hu x q]
  rfl

theorem bn_eq {M : ℕ} (h1 : S128.BroadcastsInDim S1x128 (![1] : Fin 1 → Fin S1x128.rank))
    (h2 : S1x128.BroadcastsInDim ⟨2, ![M, 128]⟩ (![0, 1] : Fin 2 → Fin (⟨2, ![M, 128]⟩ : Shape).rank))
    (hb : S_.BroadcastsInDim S128 (![] : Fin 0 → Fin S128.rank))
    (x : FVec Ideal ⟨2, ![M, 128]⟩ .f32) (mu var gam bet : FVec Ideal S128 .f32) :
    cur (addf (mulf (mulf (subf x (broadcastInDim ⟨2, ![M, 128]⟩ ![0, 1] h2 (broadcastInDim S1x128 ![1] h1 mu)))
        (broadcastInDim ⟨2, ![M, 128]⟩ ![0, 1] h2 (broadcastInDim S1x128 ![1] h1
          (Host.rsqrt (addf var (broadcastInDim S128 ![] hb (constant (F := Ideal) S_ .f32 0x3727C5AC#32)))))))
        (broadcastInDim ⟨2, ![M, 128]⟩ ![0, 1] h2 (broadcastInDim S1x128 ![1] h1 gam)))
      (broadcastInDim ⟨2, ![M, 128]⟩ ![0, 1] h2 (broadcastInDim S1x128 ![1] h1 bet)))
    = Spec.bn (cur x) (cur1 mu) (cur1 var) (cur1 gam) (cur1 bet) := by
  funext p q
  show addf _ _ (ix2 p q) = _
  rw [addf_apply, mulf_apply, mulf_apply, subf_apply, perColumn_apply, perColumn_apply, perColumn_apply, perColumn_apply]
  rfl

theorem resid_eq {M : ℕ} (h0 : S_.BroadcastsInDim ⟨2, ![M, 128]⟩ (![] : Fin 0 → Fin (⟨2, ![M, 128]⟩ : Shape).rank))
    (orig y : FVec Ideal ⟨2, ![M, 128]⟩ .f32) :
    cur (addf orig (maximumf y (broadcastInDim ⟨2, ![M, 128]⟩ ![] h0 (constant (F := Ideal) S_ .f32 0x00000000#32))))
    = Spec.resid (cur orig) (cur y) := by
  funext p q
  show addf _ _ (ix2 p q) = _
  rw [addf_apply, maximumf_apply, broadcastInDim_scalar_apply, constant_apply, Ideal.ofBits_zero_f32]
  rfl

theorem cntN_word : Ideal.ofBits .f32 0x47435000#32 = ((50000 : ℝ) : EReal) := by
  simp [Ideal.ofBits, Ideal.ieee, -EReal.coe_mul]; norm_num
theorem cntE_word : Ideal.ofBits .f32 0x48F42400#32 = ((500000 : ℝ) : EReal) := by
  simp [Ideal.ofBits, Ideal.ieee, -EReal.coe_mul]; norm_num
theorem cntN_pos : 0 < Ideal.ofBits .f32 0x47435000#32 := by
  rw [cntN_word]; exact EReal.coe_pos.mpr (by norm_num)
theorem cntE_pos : 0 < Ideal.ofBits .f32 0x48F42400#32 := by
  rw [cntE_word]; exact EReal.coe_pos.mpr (by norm_num)

section Stages

open Cert.ReferenceIdeal.Gen

theorem linN_eq (x : RefRun.NodeArr Ideal) (W : RefRun.Mat Ideal) (b : RefRun.Vec Ideal) :
    cur (RefRun.linN (F := Ideal) x W b) = Spec.lin (cur x) (cur W) (cur1 b) :=
  proj_eq dot_S50000x128_S128x128_S50000x128_1_0_0_1_n_n rfl transposes_S128x128_S128x128_1_0
    bcast_S128_S1x128_1 bcast_S1x128_S50000x128_0_1 x W b

theorem linE_eq (x : RefRun.EdgeArr Ideal) (W : RefRun.Mat Ideal) (b : RefRun.Vec Ideal) :
    cur (RefRun.linE (F := Ideal) x W b) = Spec.lin (cur x) (cur W) (cur1 b) :=
  proj_eq dot_S500000x128_S128x128_S500000x128_1_0_0_1_n_n rfl transposes_S128x128_S128x128_1_0
    bcast_S128_S1x128_1 bcast_S1x128_S500000x128_0_1 x W b

theorem takeRowsOf_eq (x : RefRun.NodeArr Ideal) (i : RefRun.Ends Ideal) (f : Fin 500000 → Fin 50000)
    (hf : ∀ k, (i (ix1 k)).toInt = ((f k).val : ℤ)) :
    cur (RefRun.takeRows (F := Ideal) x i) = fun e q => cur x (f e) q := by
  unfold RefRun.takeRows RefRun.wrapCol
  rw [wrapIdx_eq bcast_S_S500000 i f hf]
  funext e q
  exact Cert.Att.Lib.gather_rows2_of_eq gather_S50000x128_S500000x1_S500000x128_1_0_n_n_0_1_1128 rfl rfl rfl rfl rfl
    x _ e q (f e) (by rw [asColumn_apply]; exact hf e)

variable (srcF dstF : Fin 500000 → Fin 50000)

theorem enew_eq (Dh Eh : RefRun.NodeArr Ideal) (Ce : RefRun.EdgeArr Ideal) (src dst : RefRun.Ends Ideal)
    (hsrc : ∀ k, (src (ix1 k)).toInt = ((srcF k).val : ℤ)) (hdst : ∀ k, (dst (ix1 k)).toInt = ((dstF k).val : ℤ)) :
    cur (RefRun.enew (F := Ideal) Dh Eh Ce src dst) = Spec.enew (cur Dh) (cur Eh) (cur Ce) srcF dstF := by
  funext e q
  show cur (RefRun.takeRows (F := Ideal) Dh src) e q + cur (RefRun.takeRows (F := Ideal) Eh dst) e q + cur Ce e q = _
  rw [takeRowsOf_eq Dh src srcF hsrc, takeRowsOf_eq Eh dst dstF hdst]
  rfl

theorem sigma_eq (en : RefRun.EdgeArr Ideal) : cur (RefRun.sigma (F := Ideal) en) = Spec.sigma (cur en) := by
  unfold RefRun.sigma RefRun.onesE
  funext e q
  show Host.divf _ _ (ix2 e q) = _
  rw [hostDivf_apply, addf_apply, broadcastInDim_scalar_apply, constant_apply, Ideal.ofBits_one_f32]
  rfl

theorem gated_eq (Bh : RefRun.NodeArr Ideal) (src : RefRun.Ends Ideal) (sg : RefRun.EdgeArr Ideal)
    (hsrc : ∀ k, (src (ix1 k)).toInt = ((srcF k).val : ℤ)) :
    cur (RefRun.gated (F := Ideal) Bh src sg) = Spec.gated (cur Bh) srcF (cur sg) := by
  funext e q
  show cur (RefRun.takeRows (F := Ideal) Bh src) e q * cur sg e q = _
  rw [takeRowsOf_eq Bh src srcF hsrc]
  rfl

theorem segsum_eq (dst : RefRun.Ends Ideal) (u : RefRun.EdgeArr Ideal) (hdst : ∀ k, (dst (ix1 k)).toInt = ((dstF k).val : ℤ)) :
    cur (RefRun.segsum (F := Ideal) dst u) = Spec.segsum dstF (cur u) := by
  unfold RefRun.segsum RefRun.zerosN
  funext n q
  exact scatterIntoZero_apply scatter_S50000x128_S500000x1_S500000x128_1_0_0_1 rfl rfl rfl rfl _
    (fun j => by rw [broadcastInDim_scalar_apply, constant_apply, Ideal.ofBits_zero_f32]) _ u dstF
    (fun e => by rw [asColumn_apply]; exact hdst e) n q

theorem hnew_eq (Ah ssh ss : RefRun.NodeArr Ideal) :
    cur (RefRun.hnew (F := Ideal) Ah ssh ss) = Spec.hnew (cur Ah) (cur ssh) (cur ss) := by
  unfold RefRun.hnew
  funext n q
  show addf _ _ (ix2 n q) = _
  rw [addf_apply, hostDivf_apply, addf_apply, broadcastInDim_scalar_apply, constant_apply]
  rfl

theorem meanN_eq (x : RefRun.NodeArr Ideal) : cur1 (RefRun.meanN (F := Ideal) x) = Spec.colmean Spec.cntN (cur x) :=
  colmean_eq reducesTo_S50000x128_S128_d0 (by decide) h_S_ bcast_S_S128 0x47435000#32 x

theorem meanE_eq (x : RefRun.EdgeArr Ideal) : cur1 (RefRun.meanE (F := Ideal) x) = Spec.colmean Spec.cntE (cur x) :=
  colmean_eq reducesTo_S500000x128_S128_d0 (by decide) h_S_ bcast_S_S128 0x48F42400#32 x

theorem varN_eq (x : RefRun.NodeArr Ideal) : cur1 (RefRun.varN (F := Ideal) x) = Spec.colvar Spec.cntN (cur x) :=
  colvar_eq reducesTo_S50000x128_S128_d0 (by decide) h_S_ bcast_S128_S1x128_1 bcast_S1x128_S50000x128_0_1
    bcast_S_S1x128 bcast_S_S128 0x47435000#32 cntN_pos x (RefRun.devN (F := Ideal) x) rfl

theorem varE_eq (x : RefRun.EdgeArr Ideal) : cur1 (RefRun.varE (F := Ideal) x) = Spec.colvar Spec.cntE (cur x) :=
  colvar_eq reducesTo_S500000x128_S128_d0 (by decide) h_S_ bcast_S128_S1x128_1 bcast_S1x128_S500000x128_0_1
    bcast_S_S1x128 bcast_S_S128 0x48F42400#32 cntE_pos x (RefRun.devE (F := Ideal) x) rfl

theorem bnN_eq (x : RefRun.NodeArr Ideal) (mu var gam bet : RefRun.Vec Ideal) :
    cur (RefRun.bnN (F := Ideal) x mu var gam bet) = Spec.bn (cur x) (cur1 mu) (cur1 var) (cur1 gam) (cur1 bet) :=
  bn_eq bcast_S128_S1x128_1 bcast_S1x128_S50000x128_0_1 bcast_S_S128 x mu var gam bet

theorem bnE_eq (x : RefRun.EdgeArr Ideal) (mu var gam bet : RefRun.Vec Ideal) :
    cur (RefRun.bnE (F := Ideal) x mu var gam bet) = Spec.bn (cur x) (cur1 mu) (cur1 var) (cur1 gam) (cur1 bet) :=
  bn_eq bcast_S128_S1x128_1 bcast_S1x128_S500000x128_0_1 bcast_S_S128 x mu var gam bet

theorem normResN_eq (x orig : RefRun.NodeArr Ideal) (gam bet : RefRun.Vec Ideal) :
    cur (RefRun.normResN (F := Ideal) x orig gam bet) = Spec.normRes Spec.cntN (cur x) (cur orig) (cur1 gam) (cur1 bet) := by
  have h := resid_eq bcast_S_S50000x128 orig (RefRun.bnN (F := Ideal) x (RefRun.meanN x) (RefRun.varN x) gam bet)
  rw [bnN_eq, meanN_eq, varN_eq] at h
  exact h

theorem normResE_eq (x orig : RefRun.EdgeArr Ideal) (gam bet : RefRun.Vec Ideal) :
    cur (RefRun.normResE (F := Ideal) x orig gam bet) = Spec.normRes Spec.cntE (cur x) (cur orig) (cur1 gam) (cur1 bet) := by
  have h := resid_eq bcast_S_S500000x128 orig (RefRun.bnE (F := Ideal) x (RefRun.meanE x) (RefRun.varE x) gam bet)
  rw [bnE_eq, meanE_eq, varE_eq] at h
  exact h

variable (h : RefRun.NodeArr Ideal) (e : RefRun.EdgeArr Ideal) (src dst : RefRun.Ends Ideal)
  (hsrc : ∀ k, (src (ix1 k)).toInt = ((srcF k).val : ℤ)) (hdst : ∀ k, (dst (ix1 k)).toInt = ((dstF k).val : ℤ))

include hsrc hdst in

theorem enewOf_eq (W_C W_D W_E : RefRun.Mat Ideal) (b_C b_D b_E : RefRun.Vec Ideal) :
    cur (RefRun.enewOf (F := Ideal) h e src dst W_C W_D W_E b_C b_D b_E)
      = Spec.enewOf (cur h) (cur e) srcF dstF (cur W_C) (cur W_D) (cur W_E) (cur1 b_C) (cur1 b_D) (cur1 b_E) := by
  unfold RefRun.enewOf Spec.enewOf
  rw [enew_eq srcF dstF _ _ _ src dst hsrc hdst, linN_eq, linN_eq, linE_eq]

include hsrc hdst in

theorem hnewOf_eq (W_A W_B W_C W_D W_E : RefRun.Mat Ideal) (b_A b_B b_C b_D b_E : RefRun.Vec Ideal) :
    cur (RefRun.hnewOf (F := Ideal) h e src dst W_A W_B W_C W_D W_E b_A b_B b_C b_D b_E)
      = Spec.hnewOf (cur h) (cur e) srcF dstF (cur W_A) (cur W_B) (cur W_C) (cur W_D) (cur W_E)
          (cur1 b_A) (cur1 b_B) (cur1 b_C) (cur1 b_D) (cur1 b_E) := by
  unfold RefRun.hnewOf Spec.hnewOf
  rw [hnew_eq, segsum_eq dstF dst _ hdst, segsum_eq dstF dst _ hdst, gated_eq srcF _ src _ hsrc, sigma_eq,
    enewOf_eq srcF dstF h e src dst hsrc hdst, linN_eq, linN_eq]

end Stages

theorem resH_eq (h : RefRun.NodeArr Ideal) (e : RefRun.EdgeArr Ideal) (src dst : RefRun.Ends Ideal)
    (W_A W_B W_C W_D W_E : RefRun.Mat Ideal) (b_A b_B b_C b_D b_E gamma_h beta_h : RefRun.Vec Ideal)
    (srcF dstF : Fin 500000 → Fin 50000)
    (hsrc : ∀ k, (src (ix1 k)).toInt = ((srcF k).val : ℤ)) (hdst : ∀ k, (dst (ix1 k)).toInt = ((dstF k).val : ℤ)) :
    cur (RefRun.resH (F := Ideal) h e src dst W_A W_B W_C W_D W_E b_A b_B b_C b_D b_E gamma_h beta_h)
      = Spec.outH (cur h) (cur e) srcF dstF (cur W_A) (cur W_B) (cur W_C) (cur W_D) (cur W_E)
          (cur1 b_A) (cur1 b_B) (cur1 b_C) (cur1 b_D) (cur1 b_E) (cur1 gamma_h) (cur1 beta_h) := by
  unfold RefRun.resH Spec.outH
  rw [normResN_eq, hnewOf_eq srcF dstF h e src dst hsrc hdst]

theorem resE_eq (h : RefRun.NodeArr Ideal) (e : RefRun.EdgeArr Ideal) (src dst : RefRun.Ends Ideal)
    (W_C W_D W_E : RefRun.Mat Ideal) (b_C b_D b_E gamma_e beta_e : RefRun.Vec Ideal)
    (srcF dstF : Fin 500000 → Fin 50000)
    (hsrc : ∀ k, (src (ix1 k)).toInt = ((srcF k).val : ℤ)) (hdst : ∀ k, (dst (ix1 k)).toInt = ((dstF k).val : ℤ)) :
    cur (RefRun.resE (F := Ideal) h e src dst W_C W_D W_E b_C b_D b_E gamma_e beta_e)
      = Spec.outE (cur h) (cur e) srcF dstF (cur W_C) (cur W_D) (cur W_E)
          (cur1 b_C) (cur1 b_D) (cur1 b_E) (cur1 gamma_e) (cur1 beta_e) := by
  unfold RefRun.resE Spec.outE
  rw [normResE_eq, enewOf_eq srcF dstF h e src dst hsrc hdst]

end Cert.ReferenceIdeal.RefVal

end
-- ==== Proof.lean ====
import proofs.«429521_j46961172414534_2_alg».proof.Defs
import proofs.«429521_j46961172414534_2_alg».proof.Proof.Gen.Kernel
import proofs.«429521_j46961172414534_2_alg».proof.Proof.Gen.KernelIdeal
import proofs.«429521_j46961172414534_2_alg».proof.Proof.Gen.ReferenceIdeal
import proofs.«429521_j46961172414534_2_alg».proof.Proof.Gen.Pre_finite_inputs
import proofs.«429521_j46961172414534_2_alg».proof.Proof.PreDecode
import proofs.«429521_j46961172414534_2_alg».proof.Proof.K.Run
import proofs.«429521_j46961172414534_2_alg».proof.Proof.KI.RunAll
import proofs.«429521_j46961172414534_2_alg».proof.Proof.KI.Final
import proofs.«429521_j46961172414534_2_alg».proof.Proof.Ref.Run
import proofs.«429521_j46961172414534_2_alg».proof.Proof.Ref.Val

noncomputable section

namespace Cert.Proof

open Idealize.ShloMosaic Idealize.ShloMosaic.TcCoe Idealize.SL.Sem Idealize.ShloMosaic.ValueIdx
open Cert.KernelIdeal Cert.KernelIdeal.Gen Cert.KernelIdeal.Hand

theorem frame_kernel : Cert.frame_Kernel := fun m ρ _ => Cert.Kernel.Hand.frame m ρ

theorem frame_kernelIdeal : Cert.frame_KernelIdeal := fun m ρ _ => Hand.frame m ρ

theorem frame_reference : Cert.frame_ReferenceIdeal := Cert.ReferenceIdeal.RefRun.frame

theorem preserves : Cert.preserves_Kernel_KernelIdeal := trivial

-- Both programs end at the specification's two results of the shared arguments; the witnesses are the kernel's own final arrays.
theorem algebraic : Cert.algebraic_KernelIdeal_ReferenceIdeal := by
  intro m ρ m' ρ' hpre hagree
  choose srcF dstF hs hd using fun c : Dev nD =>
    Cert.PreDecode.endpoints (F := Ideal) _ _ _ _ _ _ _ _ _ _ _ _ _ _ _ _ _ _ (hpre c)
  have nodeR := fun c => node_result m (outsH m) c (srcF c) (dstF c) (hs c) (hd c) (outs_v3 m c) (outs_v5 m c) (outs_v7 m c) (outs_v9 m c)
    (outs_v11 m c) (outs_v12_1 m c) (outs_v12_2 m c) (outs_v13 m c) (outs_v21 m c)
  have edgeR := fun c => edge_result m (outsH m) c (srcF c) (dstF c) (hs c) (hd c) (outs_v7 m c) (outs_v9 m c) (outs_v11 m c)
    (outs_v12_0 m c) (outs_v29 m c)
  refine ⟨fun c => V20 m (outsH m) c main_v21, fun c => V20 m (outsH m) c main_v29, ?_, ?_⟩
  · refine (θ_run Cert.KernelIdeal.defs _ _).mono (fun r h c => ?_) (run_all (F := Ideal) m ρ)
    have H := fun (b : Ref sig .tc) hb => h c (Proc.devRef .tc b) (Finset.mem_filter.mpr ⟨StableHlo.devRef_mem_tcRefs b, hb⟩)
    exact ⟨H main_v21 (by decide), H main_v29 (by decide),
      (H main_arg0 (by decide)).trans (V20_main_arg0 m _ c),
      (H main_arg1 (by decide)).trans (V20_main_arg1 m _ c),
      (H main_arg2 (by decide)).trans (V20_main_arg2 m _ c),
      (H main_arg3 (by decide)).trans (V20_main_arg3 m _ c),
      (H main_arg4 (by decide)).trans (V20_main_arg4 m _ c),
      (H main_arg5 (by decide)).trans (V20_main_arg5 m _ c),
      (H main_arg6 (by decide)).trans (V20_main_arg6 m _ c),
      (H main_arg7 (by decide)).trans (V20_main_arg7 m _ c),
      (H main_arg8 (by decide)).trans (V20_main_arg8 m _ c),
      (H main_arg9 (by decide)).trans (V20_main_arg9 m _ c),
      (H main_arg10 (by decide)).trans (V20_main_arg10 m _ c),
      (H main_arg11 (by decide)).trans (V20_main_arg11 m _ c),
      (H main_arg12 (by decide)).trans (V20_main_arg12 m _ c),
      (H main_arg13 (by decide)).trans (V20_main_arg13 m _ c),
      (H main_arg14 (by decide)).trans (V20_main_arg14 m _ c),
      (H main_arg15 (by decide)).trans (V20_main_arg15 m _ c),
      (H main_arg16 (by decide)).trans (V20_main_arg16 m _ c),
      (H main_arg17 (by decide)).trans (V20_main_arg17 m _ c)⟩
  · refine (θ_run Cert.ReferenceIdeal.defs _ _).mono (fun r h c => ?_) (Cert.ReferenceIdeal.RefRun.run (F := Ideal) m' ρ')
    obtain ⟨a0, a1, a2, a3, a4, a5, a6, a7, a8, a9, a10, a11, a12, a13, a14, a15, a16, a17⟩ := hagree c
    refine ⟨(h c).1.trans (.trans ?_ (nodeR c).symm), (h c).2.1.trans (.trans ?_ (edgeR c).symm), (h c).2.2⟩ <;>
      refine (Spec.uncur_cur _).symm.trans (congrArg Spec.uncur ?_)
    · rw [Cert.ReferenceIdeal.RefVal.resH_eq _ _ _ _ _ _ _ _ _ _ _ _ _ _ _ _ (srcF c) (dstF c) (fun k => by rw [a2]; exact hs c k)
        (fun k => by rw [a3]; exact hd c k), a0, a1, a4, a6, a8, a10, a12, a5, a7, a9, a11, a13, a14, a15]
    · rw [Cert.ReferenceIdeal.RefVal.resE_eq _ _ _ _ _ _ _ _ _ _ _ _ (srcF c) (dstF c) (fun k => by rw [a2]; exact hs c k)
        (fun k => by rw [a3]; exact hd c k), a0, a1, a8, a10, a12, a9, a11, a13, a16, a17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
